-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3200000x3 : Shape := ⟨2, ![3200000, 3]⟩
abbrev S3x24 : Shape := ⟨2, ![3, 24]⟩
abbrev S3x3 : Shape := ⟨2, ![3, 3]⟩
abbrev S3x8 : Shape := ⟨2, ![3, 8]⟩
abbrev S8 : Shape := ⟨1, ![8]⟩
abbrev S8x48 : Shape := ⟨2, ![8, 48]⟩
abbrev S8x16 : Shape := ⟨2, ![8, 16]⟩
abbrev S16 : Shape := ⟨1, ![16]⟩
abbrev S16x24 : Shape := ⟨2, ![16, 24]⟩
abbrev S16x8 : Shape := ⟨2, ![16, 8]⟩
abbrev S8x12 : Shape := ⟨2, ![8, 12]⟩
abbrev S8x4 : Shape := ⟨2, ![8, 4]⟩
abbrev S4 : Shape := ⟨1, ![4]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S3x24 : S_.BroadcastsInDim S3x24 (![] : Fin 0 → Fin S3x24.rank)
  reducesTo_S3x24_S_d0_1 : S3x24.ReducesTo [0, 1] S_
  bcast_S_S3x3 : S_.BroadcastsInDim S3x3 (![] : Fin 0 → Fin S3x3.rank)
  reducesTo_S3x3_S_d0_1 : S3x3.ReducesTo [0, 1] S_
  bcast_S_S3x8 : S_.BroadcastsInDim S3x8 (![] : Fin 0 → Fin S3x8.rank)
  reducesTo_S3x8_S_d0_1 : S3x8.ReducesTo [0, 1] S_
  bcast_S_S8 : S_.BroadcastsInDim S8 (![] : Fin 0 → Fin S8.rank)
  reducesTo_S8_S_d0 : S8.ReducesTo [0] S_
  bcast_S_S8x48 : S_.BroadcastsInDim S8x48 (![] : Fin 0 → Fin S8x48.rank)
  reducesTo_S8x48_S_d0_1 : S8x48.ReducesTo [0, 1] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x24 : S_.BroadcastsInDim S16x24 (![] : Fin 0 → Fin S16x24.rank)
  reducesTo_S16x24_S_d0_1 : S16x24.ReducesTo [0, 1] S_
  bcast_S_S16x8 : S_.BroadcastsInDim S16x8 (![] : Fin 0 → Fin S16x8.rank)
  reducesTo_S16x8_S_d0_1 : S16x8.ReducesTo [0, 1] S_
  bcast_S_S8x12 : S_.BroadcastsInDim S8x12 (![] : Fin 0 → Fin S8x12.rank)
  reducesTo_S8x12_S_d0_1 : S8x12.ReducesTo [0, 1] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg22 : FVec F S4 .f32) (main_v98 : IVec S_ 1) (main_v101 : IVec S8x4 1) (main_c_39 : IVec S_ 1) : IVec S_ 1 :=
  let main_v102 : IVec S_ 1 := (fun x v => Host.reduce IntOp.andi x v reducesTo_S8x4_S_d0_1 h_S_) main_v101 main_c_39
  let main_v103 : IVec S_ 1 := andi main_v98 main_v102
  let main_v104 : FVec F S4 .f32 := Host.absf main_arg22
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  main_v108

def fn_part5 {F : FTy → Type} [FloatOps F] (main_arg19 : FVec F S3x3 .f32) (main_arg20 : FVec F S3x3 .f32) (main_arg21 : FVec F S8x4 .f32) (main_arg22 : FVec F S4 .f32) (main_v83 : IVec S_ 1) (main_v84 : FVec F S8x12 .f32) (main_cst_32 : FVec F S_ .f32) : IVec S_ 1 :=
  let main_v85 : FVec F S8x12 .f32 := broadcastInDim S8x12 ![] bcast_S_S8x12 main_cst_32
  let main_v86 : IVec S8x12 1 := cmpf .olt main_v84 main_v85
  let main_c_33 : IVec S_ 1 := constantI S_ 1 1#1
  let main_v87 : IVec S_ 1 := (fun x v => Host.reduce IntOp.andi x v reducesTo_S8x12_S_d0_1 h_S_) main_v86 main_c_33
  let main_v88 : IVec S_ 1 := andi main_v83 main_v87
  let main_v89 : FVec F S3x3 .f32 := Host.absf main_arg19
  let main_cst_34 : FVec F S_ .f32 := constant S_ .f32 0x7F800000#32
  let main_v90 : FVec F S3x3 .f32 := broadcastInDim S3x3 ![] bcast_S_S3x3 main_cst_34
  let main_v91 : IVec S3x3 1 := cmpf .olt main_v89 main_v90
  let main_c_35 : IVec S_ 1 := constantI S_ 1 1#1
  let main_v92 : IVec S_ 1 := (fun x v => Host.reduce IntOp.andi x v reducesTo_S3x3_S_d0_1 h_S_) main_v91 main_c_35
  let main_v93 : IVec S_ 1 := andi main_v88 main_v92
  let main_v94 : FVec F S3x3 .f32 := Host.absf main_arg20
  let main_cst_36 : FVec F S_ .f32 := constant S_ .f32 0x7F800000#32
  let main_v95 : FVec F S3x3 .f32 := broadcastInDim S3x3 ![] bcast_S_S3x3 main_cst_36
  let main_v96 : IVec S3x3 1 := cmpf .olt main_v94 main_v95
  let main_c_37 : IVec S_ 1 := constantI S_ 1 1#1
  let main_v97 : IVec S_ 1 := (fun x v => Host.reduce IntOp.andi x v reducesTo_S3x3_S_d0_1 h_S_) main_v96 main_c_37
  let main_v98 : IVec S_ 1 := andi main_v93 main_v97
  let main_v99 : FVec F S8x4 .f32 := Host.absf main_arg21
  let main_cst_38 : FVec F S_ .f32 := constant S_ .f32 0x7F800000#32
  let main_v100 : FVec F S8x4 .f32 := broadcastInDim S8x4 ![] bcast_S_S8x4 main_cst_38
  let main_v101 : IVec S8x4 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v63 : IVec S_ 1) (main_v67 : IVec S_ 1) : IVec S_ 1 :=
  let main_v68 : IVec S_ 1 := andi main_v63 main_v67
  let main_v69 : FVec F S3x3 .f32 := Host.absf main_arg15
  let main_cst_26 : FVec F S_ .f32 := constant S_ .f32 0x7F800000#32
  let main_v70 : FVec F S3x3 .f32 := broadcastInDim S3x3 ![] bcast_S_S3x3 main_cst_26
  let main_v71 : IVec S3x3 1 := cmpf .olt main_v69 main_v70
  let main_c_27 : IVec S_ 1 := constantI S_ 1 1#1
  let main_v72 : IVec S_ 1 := (fun x v => Host.reduce IntOp.andi x v reducesTo_S3x3_S_d0_1 h_S_) main_v71 main_c_27
  let main_v73 : IVec S_ 1 := andi main_v68 main_v72
  let main_v74 : FVec F S16x8 .f32 := Host.absf main_arg16
  let main_cst_28 : FVec F S_ .f32 := constant S_ .f32 0x7F800000#32
  let main_v75 : FVec F S16x8 .f32 := broadcastInDim S16x8 ![] bcast_S_S16x8 main_cst_28
  let main_v76 : IVec S16x8 1 := cmpf .olt main_v74 main_v75
  let main_c_29 : IVec S_ 1 := constantI S_ 1 1#1
  let main_v77 : IVec S_ 1 := (fun x v => Host.reduce IntOp.andi x v reducesTo_S16x8_S_d0_1 h_S_) main_v76 main_c_29
  let main_v78 : IVec S_ 1 := andi main_v73 main_v77
  let main_v79 : FVec F S8 .f32 := Host.absf main_arg17
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x12 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v48 : IVec S_ 1) (main_v49 : FVec F S8x16 .f32) (main_v50 : FVec F S8x16 .f32) : IVec S_ 1 :=
  let main_v51 : IVec S8x16 1 := cmpf .olt main_v49 main_v50
  let main_c_19 : IVec S_ 1 := constantI S_ 1 1#1
  let main_v52 : IVec S_ 1 := (fun x v => Host.reduce IntOp.andi x v reducesTo_S8x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x24 .f32 := Host.absf main_arg13
  let main_cst_22 : FVec F S_ .f32 := constant S_ .f32 0x7F800000#32
  let main_v60 : FVec F S16x24 .f32 := broadcastInDim S16x24 ![] bcast_S_S16x24 main_cst_22
  let main_v61 : IVec S16x24 1 := cmpf .olt main_v59 main_v60
  let main_c_23 : IVec S_ 1 := constantI S_ 1 1#1
  let main_v62 : IVec S_ 1 := (fun x v => Host.reduce IntOp.andi x v reducesTo_S16x24_S_d0_1 h_S_) main_v61 main_c_23
  let main_v63 : IVec S_ 1 := andi main_v58 main_v62
  let main_v64 : FVec F S3x3 .f32 := Host.absf main_arg14
  let main_cst_24 : FVec F S_ .f32 := constant S_ .f32 0x7F800000#32
  let main_v65 : FVec F S3x3 .f32 := broadcastInDim S3x3 ![] bcast_S_S3x3 main_cst_24
  let main_v66 : IVec S3x3 1 := cmpf .olt main_v64 main_v65
  let main_c_25 : IVec S_ 1 := constantI S_ 1 1#1
  let main_v67 : IVec S_ 1 := (fun x v => Host.reduce IntOp.andi x v reducesTo_S3x3_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S8x48 .f32) (main_arg9 : FVec F S3x3 .f32) (main_arg10 : FVec F S3x3 .f32) (main_arg11 : FVec F S8x16 .f32) (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v33 : IVec S_ 1) : IVec S_ 1 :=
  let main_v34 : FVec F S8x48 .f32 := Host.absf main_arg8
  let main_cst_12 : FVec F S_ .f32 := constant S_ .f32 0x7F800000#32
  let main_v35 : FVec F S8x48 .f32 := broadcastInDim S8x48 ![] bcast_S_S8x48 main_cst_12
  let main_v36 : IVec S8x48 1 := cmpf .olt main_v34 main_v35
  let main_c_13 : IVec S_ 1 := constantI S_ 1 1#1
  let main_v37 : IVec S_ 1 := (fun x v => Host.reduce IntOp.andi x v reducesTo_S8x48_S_d0_1 h_S_) main_v36 main_c_13
  let main_v38 : IVec S_ 1 := andi main_v33 main_v37
  let main_v39 : FVec F S3x3 .f32 := Host.absf main_arg9
  let main_cst_14 : FVec F S_ .f32 := constant S_ .f32 0x7F800000#32
  let main_v40 : FVec F S3x3 .f32 := broadcastInDim S3x3 ![] bcast_S_S3x3 main_cst_14
  let main_v41 : IVec S3x3 1 := cmpf .olt main_v39 main_v40
  let main_c_15 : IVec S_ 1 := constantI S_ 1 1#1
  let main_v42 : IVec S_ 1 := (fun x v => Host.reduce IntOp.andi x v reducesTo_S3x3_S_d0_1 h_S_) main_v41 main_c_15
  let main_v43 : IVec S_ 1 := andi main_v38 main_v42
  let main_v44 : FVec F S3x3 .f32 := Host.absf main_arg10
  let main_cst_16 : FVec F S_ .f32 := constant S_ .f32 0x7F800000#32
  let main_v45 : FVec F S3x3 .f32 := broadcastInDim S3x3 ![] bcast_S_S3x3 main_cst_16
  let main_v46 : IVec S3x3 1 := cmpf .olt main_v44 main_v45
  let main_c_17 : IVec S_ 1 := constantI S_ 1 1#1
  let main_v47 : IVec S_ 1 := (fun x v => Host.reduce IntOp.andi x v reducesTo_S3x3_S_d0_1 h_S_) main_v46 main_c_17
  let main_v48 : IVec S_ 1 := andi main_v43 main_v47
  let main_v49 : FVec F S8x16 .f32 := Host.absf main_arg11
  let main_cst_18 : FVec F S_ .f32 := constant S_ .f32 0x7F800000#32
  let main_v50 : FVec F S8x16 .f32 := broadcastInDim S8x16 ![] bcast_S_S8x16 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S3x3 .f32) (main_arg6 : FVec F S3x8 .f32) (main_arg7 : FVec F S8 .f32) (main_arg8 : FVec F S8x48 .f32) (main_arg9 : FVec F S3x3 .f32) (main_arg10 : FVec F S3x3 .f32) (main_arg11 : FVec F S8x16 .f32) (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3x3 .f32 := Host.absf main_arg5
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  let main_v24 : FVec F S3x8 .f32 := Host.absf main_arg6
  let main_cst_8 : FVec F S_ .f32 := constant S_ .f32 0x7F800000#32
  let main_v25 : FVec F S3x8 .f32 := broadcastInDim S3x8 ![] bcast_S_S3x8 main_cst_8
  let main_v26 : IVec S3x8 1 := cmpf .olt main_v24 main_v25
  let main_c_9 : IVec S_ 1 := constantI S_ 1 1#1
  let main_v27 : IVec S_ 1 := (fun x v => Host.reduce IntOp.andi x v reducesTo_S3x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x3 .f32) (main_arg1 : IVec S2x3200000 32) (main_arg2 : FVec F S3200000x3 .f32) (main_arg3 : FVec F S3x24 .f32) (main_arg4 : FVec F S3x3 .f32) (main_arg5 : FVec F S3x3 .f32) (main_arg6 : FVec F S3x8 .f32) (main_arg7 : FVec F S8 .f32) (main_arg8 : FVec F S8x48 .f32) (main_arg9 : FVec F S3x3 .f32) (main_arg10 : FVec F S3x3 .f32) (main_arg11 : FVec F S8x16 .f32) (main_arg12 : FVec F S16 .f32) (main_arg13 : FVec F S16x24 .f32) (main_arg14 : FVec F S3x3 .f32) (main_arg15 : FVec F S3x3 .f32) (main_arg16 : FVec F S16x8 .f32) (main_arg17 : FVec F S8 .f32) (main_arg18 : FVec F S8x12 .f32) (main_arg19 : FVec F S3x3 .f32) (main_arg20 : FVec F S3x3 .f32) (main_arg21 : FVec F S8x4 .f32) (main_arg22 : FVec F S4 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000x3 .f32 := Host.absf main_arg2
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S3x24 .f32 := Host.absf main_arg3
  let main_cst_2 : FVec F S_ .f32 := constant S_ .f32 0x7F800000#32
  let main_v10 : FVec F S3x24 .f32 := broadcastInDim S3x24 ![] bcast_S_S3x24 main_cst_2
  let main_v11 : IVec S3x24 1 := cmpf .olt main_v9 main_v10
  let main_c_3 : IVec S_ 1 := constantI S_ 1 1#1
  let main_v12 : IVec S_ 1 := (fun x v => Host.reduce IntOp.andi x v reducesTo_S3x24_S_d0_1 h_S_) main_v11 main_c_3
  let main_v13 : IVec S_ 1 := andi main_v8 main_v12
  let main_v14 : FVec F S3x3 .f32 := Host.absf main_arg4
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x3 : Shape := ⟨2, ![100000, 3]⟩
abbrev S2x3200000 : Shape := ⟨2, ![2, 3200000]⟩
abbrev S3200000x3 : Shape := ⟨2, ![3200000, 3]⟩
abbrev S3x24 : Shape := ⟨2, ![3, 24]⟩
abbrev S3x3 : Shape := ⟨2, ![3, 3]⟩
abbrev S3x8 : Shape := ⟨2, ![3, 8]⟩
abbrev S8 : Shape := ⟨1, ![8]⟩
abbrev S8x48 : Shape := ⟨2, ![8, 48]⟩
abbrev S8x16 : Shape := ⟨2, ![8, 16]⟩
abbrev S16 : Shape := ⟨1, ![16]⟩
abbrev S16x24 : Shape := ⟨2, ![16, 24]⟩
abbrev S16x8 : Shape := ⟨2, ![16, 8]⟩
abbrev S8x12 : Shape := ⟨2, ![8, 12]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3203072x3 : Shape := ⟨2, ![3203072, 3]⟩
abbrev S3203072x8 : Shape := ⟨2, ![3203072, 8]⟩
abbrev S4096x3 : Shape := ⟨2, ![4096, 3]⟩
abbrev S4096x8 : Shape := ⟨2, ![4096, 8]⟩
abbrev S4096x24 : Shape := ⟨2, ![4096, 24]⟩
abbrev S1x3 : Shape := ⟨2, ![1, 3]⟩
abbrev S3 : Shape := ⟨1, ![3]⟩
abbrev S4096 : Shape := ⟨1, ![4096]⟩
abbrev S4096x1 : Shape := ⟨2, ![4096, 1]⟩
abbrev S3200000x8 : Shape := ⟨2, ![3200000, 8]⟩
abbrev S100000x8 : Shape := ⟨2, ![100000, 8]⟩
abbrev S1x8 : Shape := ⟨2, ![1, 8]⟩
abbrev S102400x3 : Shape := ⟨2, ![102400, 3]⟩
abbrev S102400x8 : Shape := ⟨2, ![102400, 8]⟩
abbrev S102400x1 : Shape := ⟨2, ![102400, 1]⟩
abbrev S3203072x16 : Shape := ⟨2, ![3203072, 16]⟩
abbrev S4096x16 : Shape := ⟨2, ![4096, 16]⟩
abbrev S4096x48 : Shape := ⟨2, ![4096, 48]⟩
abbrev S3200000x16 : Shape := ⟨2, ![3200000, 16]⟩
abbrev S100000x16 : Shape := ⟨2, ![100000, 16]⟩
abbrev S1x16 : Shape := ⟨2, ![1, 16]⟩
abbrev S102400x16 : Shape := ⟨2, ![102400, 16]⟩
abbrev S3203072x4 : Shape := ⟨2, ![3203072, 4]⟩
abbrev S4096x4 : Shape := ⟨2, ![4096, 4]⟩
abbrev S4096x12 : Shape := ⟨2, ![4096, 12]⟩
abbrev S3200000x4 : Shape := ⟨2, ![3200000, 4]⟩
abbrev S100000x4 : Shape := ⟨2, ![100000, 4]⟩
abbrev S1x4 : Shape := ⟨2, ![1, 4]⟩
abbrev S102400x4 : Shape := ⟨2, ![102400, 4]⟩

abbrev nBuf : Space → Nat
  | .hbm => 172
  | .vmem => 76
  | .smem => 0
  | _ => 0

abbrev hbmTy0_0 (i : Nat) : BufTy := match i % 128 with
  | 0 => ⟨S100000x3, .f32⟩
  | 1 => ⟨S2x3200000, .i32⟩
  | 2 => ⟨S3200000x3, .f32⟩
  | 3 => ⟨S3x24, .f32⟩
  | 4 => ⟨S3x3, .f32⟩
  | 5 => ⟨S3x3, .f32⟩
  | 6 => ⟨S3x8, .f32⟩
  | 7 => ⟨S8, .f32⟩
  | 8 => ⟨S8x48, .f32⟩
  | 9 => ⟨S3x3, .f32⟩
  | 10 => ⟨S3x3, .f32⟩
  | 11 => ⟨S8x16, .f32⟩
  | 12 => ⟨S16, .f32⟩
  | 13 => ⟨S16x24, .f32⟩
  | 14 => ⟨S3x3, .f32⟩
  | 15 => ⟨S3x3, .f32⟩
  | 16 => ⟨S16x8, .f32⟩
  | 17 => ⟨S8, .f32⟩
  | 18 => ⟨S8x12, .f32⟩
  | 19 => ⟨S3x3, .f32⟩
  | 20 => ⟨S3x3, .f32⟩
  | 21 => ⟨S8x4, .f32⟩
  | 22 => ⟨S4, .f32⟩
  | 23 => ⟨S1x3200000, .i32⟩
  | 24 => ⟨S3200000, .i32⟩
  | 25 => ⟨S1x3200000, .i32⟩
  | 26 => ⟨S3200000, .i32⟩
  | 27 => ⟨S_, .f32⟩
  | 28 => ⟨S3200000, .f32⟩
  | 29 => ⟨S_, .f32⟩
  | 30 => ⟨S100000, .f32⟩
  | 31 => ⟨S3200000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x3, .f32⟩
  | 49 => ⟨S_, .i32⟩
  | 50 => ⟨S_, .f32⟩
  | 51 => ⟨S3203072x3, .f32⟩
  | 52 => ⟨S_, .i32⟩
  | 53 => ⟨S_, .f32⟩
  | 54 => ⟨S3203072x3, .f32⟩
  | 55 => ⟨S3203072x8, .f32⟩
  | 56 => ⟨S3200000x8, .f32⟩
  | 57 => ⟨S_, .f32⟩
  | 58 => ⟨S100000x8, .f32⟩
  | 59 => ⟨S3200000x1, .i32⟩
  | 60 => ⟨S100000x8, .f32⟩
  | 61 => ⟨S1x8, .f32⟩
  | 62 => ⟨S_, .i32⟩
  | 63 => ⟨S_, .f32⟩
  | 64 => ⟨S102400x3, .f32⟩
  | 65 => ⟨S_, .i32⟩
  | 66 => ⟨S_, .f32⟩
  | 67 => ⟨S102400x8, .f32⟩
  | 68 => ⟨S_, .i32⟩
  | 69 => ⟨S_, .f32⟩
  | 70 => ⟨S102400x1, .f32⟩
  | 71 => ⟨S102400x8, .f32⟩
  | 72 => ⟨S100000x8, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x8, .f32⟩
  | 82 => ⟨S_, .i32⟩
  | 83 => ⟨S_, .f32⟩
  | 84 => ⟨S3203072x8, .f32⟩
  | 85 => ⟨S_, .i32⟩
  | 86 => ⟨S_, .f32⟩
  | 87 => ⟨S3203072x3, .f32⟩
  | 88 => ⟨S3203072x16, .f32⟩
  | 89 => ⟨S3200000x16, .f32⟩
  | 90 => ⟨S_, .f32⟩
  | 91 => ⟨S100000x16, .f32⟩
  | 92 => ⟨S3200000x1, .i32⟩
  | 93 => ⟨S100000x16, .f32⟩
  | 94 => ⟨S1x16, .f32⟩
  | 95 => ⟨S_, .i32⟩
  | 96 => ⟨S_, .f32⟩
  | 97 => ⟨S102400x8, .f32⟩
  | 98 => ⟨S_, .i32⟩
  | 99 => ⟨S_, .f32⟩
  | 100 => ⟨S102400x16, .f32⟩
  | 101 => ⟨S_, .i32⟩
  | 102 => ⟨S_, .f32⟩
  | 103 => ⟨S102400x1, .f32⟩
  | 104 => ⟨S102400x16, .f32⟩
  | 105 => ⟨S100000x16, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x16, .f32⟩
  | 115 => ⟨S_, .i32⟩
  | 116 => ⟨S_, .f32⟩
  | 117 => ⟨S3203072x16, .f32⟩
  | 118 => ⟨S_, .i32⟩
  | 119 => ⟨S_, .f32⟩
  | 120 => ⟨S3203072x3, .f32⟩
  | 121 => ⟨S3203072x8, .f32⟩
  | 122 => ⟨S3200000x8, .f32⟩
  | 123 => ⟨S_, .f32⟩
  | 124 => ⟨S100000x8, .f32⟩
  | 125 => ⟨S3200000x1, .i32⟩
  | 126 => ⟨S100000x8, .f32⟩
  | 127 => ⟨S1x8, .f32⟩
  | _ => ⟨S100000x3, .f32⟩

abbrev hbmTy0_1 (i : Nat) : BufTy := match i % 128 with
  | 0 => ⟨S_, .i32⟩
  | 1 => ⟨S_, .f32⟩
  | 2 => ⟨S102400x16, .f32⟩
  | 3 => ⟨S_, .i32⟩
  | 4 => ⟨S_, .f32⟩
  | 5 => ⟨S102400x8, .f32⟩
  | 6 => ⟨S_, .i32⟩
  | 7 => ⟨S_, .f32⟩
  | 8 => ⟨S102400x1, .f32⟩
  | 9 => ⟨S102400x8, .f32⟩
  | 10 => ⟨S100000x8, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x8, .f32⟩
  | 20 => ⟨S_, .i32⟩
  | 21 => ⟨S_, .f32⟩
  | 22 => ⟨S3203072x8, .f32⟩
  | 23 => ⟨S_, .i32⟩
  | 24 => ⟨S_, .f32⟩
  | 25 => ⟨S3203072x3, .f32⟩
  | 26 => ⟨S3203072x4, .f32⟩
  | 27 => ⟨S3200000x4, .f32⟩
  | 28 => ⟨S_, .f32⟩
  | 29 => ⟨S100000x4, .f32⟩
  | 30 => ⟨S3200000x1, .i32⟩
  | 31 => ⟨S100000x4, .f32⟩
  | 32 => ⟨S1x4, .f32⟩
  | 33 => ⟨S_, .i32⟩
  | 34 => ⟨S_, .f32⟩
  | 35 => ⟨S102400x8, .f32⟩
  | 36 => ⟨S_, .i32⟩
  | 37 => ⟨S_, .f32⟩
  | 38 => ⟨S102400x4, .f32⟩
  | 39 => ⟨S_, .i32⟩
  | 40 => ⟨S_, .f32⟩
  | 41 => ⟨S102400x1, .f32⟩
  | 42 => ⟨S102400x4, .f32⟩
  | 43 => ⟨S100000x4, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S4096x3, .f32⟩
  | .local _ .vmem, ⟨1, _⟩ => ⟨S4096x3, .f32⟩
  | .local _ .vmem, ⟨2, _⟩ => ⟨S4096x3, .f32⟩
  | .local _ .vmem, ⟨3, _⟩ => ⟨S4096x3, .f32⟩
  | .local _ .vmem, ⟨4, _⟩ => ⟨S3x24, .f32⟩
  | .local _ .vmem, ⟨5, _⟩ => ⟨S3x3, .f32⟩
  | .local _ .vmem, ⟨6, _⟩ => ⟨S3x3, .f32⟩
  | .local _ .vmem, ⟨7, _⟩ => ⟨S4096x8, .f32⟩
  | .local _ .vmem, ⟨8, _⟩ => ⟨S4096x8, .f32⟩
  | .local _ .vmem, ⟨9, _⟩ => ⟨S4096x3, .f32⟩
  | .local _ .vmem, ⟨10, _⟩ => ⟨S4096x3, .f32⟩
  | .local _ .vmem, ⟨11, _⟩ => ⟨S3x8, .f32⟩
  | .local _ .vmem, ⟨12, _⟩ => ⟨S1x8, .f32⟩
  | .local _ .vmem, ⟨13, _⟩ => ⟨S4096x8, .f32⟩
  | .local _ .vmem, ⟨14, _⟩ => ⟨S4096x8, .f32⟩
  | .local _ .vmem, ⟨15, _⟩ => ⟨S4096x1, .f32⟩
  | .local _ .vmem, ⟨16, _⟩ => ⟨S4096x1, .f32⟩
  | .local _ .vmem, ⟨17, _⟩ => ⟨S4096x8, .f32⟩
  | .local _ .vmem, ⟨18, _⟩ => ⟨S4096x8, .f32⟩
  | .local _ .vmem, ⟨19, _⟩ => ⟨S4096x8, .f32⟩
  | .local _ .vmem, ⟨20, _⟩ => ⟨S4096x8, .f32⟩
  | .local _ .vmem, ⟨21, _⟩ => ⟨S4096x3, .f32⟩
  | .local _ .vmem, ⟨22, _⟩ => ⟨S4096x3, .f32⟩
  | .local _ .vmem, ⟨23, _⟩ => ⟨S8x48, .f32⟩
  | .local _ .vmem, ⟨24, _⟩ => ⟨S3x3, .f32⟩
  | .local _ .vmem, ⟨25, _⟩ => ⟨S3x3, .f32⟩
  | .local _ .vmem, ⟨26, _⟩ => ⟨S4096x16, .f32⟩
  | .local _ .vmem, ⟨27, _⟩ => ⟨S4096x16, .f32⟩
  | .local _ .vmem, ⟨28, _⟩ => ⟨S4096x8, .f32⟩
  | .local _ .vmem, ⟨29, _⟩ => ⟨S4096x8, .f32⟩
  | .local _ .vmem, ⟨30, _⟩ => ⟨S8x16, .f32⟩
  | .local _ .vmem, ⟨31, _⟩ => ⟨S1x16, .f32⟩
  | .local _ .vmem, ⟨32, _⟩ => ⟨S4096x16, .f32⟩
  | .local _ .vmem, ⟨33, _⟩ => ⟨S4096x16, .f32⟩
  | .local _ .vmem, ⟨34, _⟩ => ⟨S4096x1, .f32⟩
  | .local _ .vmem, ⟨35, _⟩ => ⟨S4096x1, .f32⟩
  | .local _ .vmem, ⟨36, _⟩ => ⟨S4096x16, .f32⟩
  | .local _ .vmem, ⟨37, _⟩ => ⟨S4096x16, .f32⟩
  | .local _ .vmem, ⟨38, _⟩ => ⟨S4096x16, .f32⟩
  | .local _ .vmem, ⟨39, _⟩ => ⟨S4096x16, .f32⟩
  | .local _ .vmem, ⟨40, _⟩ => ⟨S4096x3, .f32⟩
  | .local _ .vmem, ⟨41, _⟩ => ⟨S4096x3, .f32⟩
  | .local _ .vmem, ⟨42, _⟩ => ⟨S16x24, .f32⟩
  | .local _ .vmem, ⟨43, _⟩ => ⟨S3x3, .f32⟩
  | .local _ .vmem, ⟨44, _⟩ => ⟨S3x3, .f32⟩
  | .local _ .vmem, ⟨45, _⟩ => ⟨S4096x8, .f32⟩
  | .local _ .vmem, ⟨46, _⟩ => ⟨S4096x8, .f32⟩
  | .local _ .vmem, ⟨47, _⟩ => ⟨S4096x16, .f32⟩
  | .local _ .vmem, ⟨48, _⟩ => ⟨S4096x16, .f32⟩
  | .local _ .vmem, ⟨49, _⟩ => ⟨S16x8, .f32⟩
  | .local _ .vmem, ⟨50, _⟩ => ⟨S1x8, .f32⟩
  | .local _ .vmem, ⟨51, _⟩ => ⟨S4096x8, .f32⟩
  | .local _ .vmem, ⟨52, _⟩ => ⟨S4096x8, .f32⟩
  | .local _ .vmem, ⟨53, _⟩ => ⟨S4096x1, .f32⟩
  | .local _ .vmem, ⟨54, _⟩ => ⟨S4096x1, .f32⟩
  | .local _ .vmem, ⟨55, _⟩ => ⟨S4096x8, .f32⟩
  | .local _ .vmem, ⟨56, _⟩ => ⟨S4096x8, .f32⟩
  | .local _ .vmem, ⟨57, _⟩ => ⟨S4096x8, .f32⟩
  | .local _ .vmem, ⟨58, _⟩ => ⟨S4096x8, .f32⟩
  | .local _ .vmem, ⟨59, _⟩ => ⟨S4096x3, .f32⟩
  | .local _ .vmem, ⟨60, _⟩ => ⟨S4096x3, .f32⟩
  | .local _ .vmem, ⟨61, _⟩ => ⟨S8x12, .f32⟩
  | .local _ .vmem, ⟨62, _⟩ => ⟨S3x3, .f32⟩
  | .local _ .vmem, ⟨63, _⟩ => ⟨S3x3, .f32⟩
  | .local _ .vmem, ⟨64, _⟩ => ⟨S4096x4, .f32⟩
  | .local _ .vmem, ⟨65, _⟩ => ⟨S4096x4, .f32⟩
  | .local _ .vmem, ⟨66, _⟩ => ⟨S4096x8, .f32⟩
  | .local _ .vmem, ⟨67, _⟩ => ⟨S4096x8, .f32⟩
  | .local _ .vmem, ⟨68, _⟩ => ⟨S8x4, .f32⟩
  | .local _ .vmem, ⟨69, _⟩ => ⟨S1x4, .f32⟩
  | .local _ .vmem, ⟨70, _⟩ => ⟨S4096x4, .f32⟩
  | .local _ .vmem, ⟨71, _⟩ => ⟨S4096x4, .f32⟩
  | .local _ .vmem, ⟨72, _⟩ => ⟨S4096x1, .f32⟩
  | .local _ .vmem, ⟨73, _⟩ => ⟨S4096x1, .f32⟩
  | .local _ .vmem, ⟨74, _⟩ => ⟨S4096x4, .f32⟩
  | .local _ .vmem, ⟨75, _⟩ => ⟨S4096x4, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_call0_v0 : Ref sig .tc := ⟨.hbm, 50, rfl⟩
abbrev main_v20 : Ref sig .tc := ⟨.hbm, 51, rfl⟩
abbrev main_c_5 : Ref sig .tc := ⟨.hbm, 52, rfl⟩
abbrev main_call1_v0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_7 : Ref sig .tc := ⟨.hbm, 62, rfl⟩
abbrev main_call2_v0 : Ref sig .tc := ⟨.hbm, 63, rfl⟩
abbrev main_v28 : Ref sig .tc := ⟨.hbm, 64, rfl⟩
abbrev main_c_8 : Ref sig .tc := ⟨.hbm, 65, rfl⟩
abbrev main_call3_v0 : Ref sig .tc := ⟨.hbm, 66, rfl⟩
abbrev main_v29 : Ref sig .tc := ⟨.hbm, 67, rfl⟩
abbrev main_c_9 : Ref sig .tc := ⟨.hbm, 68, rfl⟩
abbrev main_call4_v0 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_10 : Ref sig .tc := ⟨.hbm, 73, rfl⟩
abbrev main_v33 : Ref sig .tc := ⟨.hbm, 74, rfl⟩
abbrev main_v34 : Ref sig .tc := ⟨.hbm, 75, rfl⟩
abbrev main_c_11 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_12 : Ref sig .tc := ⟨.hbm, 82, rfl⟩
abbrev main_call5_v0 : Ref sig .tc := ⟨.hbm, 83, rfl⟩
abbrev main_v40 : Ref sig .tc := ⟨.hbm, 84, rfl⟩
abbrev main_c_13 : Ref sig .tc := ⟨.hbm, 85, rfl⟩
abbrev main_call6_v0 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_14 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_15 : Ref sig .tc := ⟨.hbm, 95, rfl⟩
abbrev main_call7_v0 : Ref sig .tc := ⟨.hbm, 96, rfl⟩
abbrev main_v48 : Ref sig .tc := ⟨.hbm, 97, rfl⟩
abbrev main_c_16 : Ref sig .tc := ⟨.hbm, 98, rfl⟩
abbrev main_call8_v0 : Ref sig .tc := ⟨.hbm, 99, rfl⟩
abbrev main_v49 : Ref sig .tc := ⟨.hbm, 100, rfl⟩
abbrev main_c_17 : Ref sig .tc := ⟨.hbm, 101, rfl⟩
abbrev main_call9_v0 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_c_18 : Ref sig .tc := ⟨.hbm, 106, rfl⟩
abbrev main_v53 : Ref sig .tc := ⟨.hbm, 107, rfl⟩
abbrev main_v54 : Ref sig .tc := ⟨.hbm, 108, rfl⟩
abbrev main_c_19 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_c_20 : Ref sig .tc := ⟨.hbm, 115, rfl⟩
abbrev main_call10_v0 : Ref sig .tc := ⟨.hbm, 116, rfl⟩
abbrev main_v60 : Ref sig .tc := ⟨.hbm, 117, rfl⟩
abbrev main_c_21 : Ref sig .tc := ⟨.hbm, 118, rfl⟩
abbrev main_call11_v0 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_cst_22 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_23 : Ref sig .tc := ⟨.hbm, 128, rfl⟩
abbrev main_call12_v0 : Ref sig .tc := ⟨.hbm, 129, rfl⟩
abbrev main_v68 : Ref sig .tc := ⟨.hbm, 130, rfl⟩
abbrev main_c_24 : Ref sig .tc := ⟨.hbm, 131, rfl⟩
abbrev main_call13_v0 : Ref sig .tc := ⟨.hbm, 132, rfl⟩
abbrev main_v69 : Ref sig .tc := ⟨.hbm, 133, rfl⟩
abbrev main_c_25 : Ref sig .tc := ⟨.hbm, 134, rfl⟩
abbrev main_call14_v0 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_c_26 : Ref sig .tc := ⟨.hbm, 139, rfl⟩
abbrev main_v73 : Ref sig .tc := ⟨.hbm, 140, rfl⟩
abbrev main_v74 : Ref sig .tc := ⟨.hbm, 141, rfl⟩
abbrev main_c_27 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_c_28 : Ref sig .tc := ⟨.hbm, 148, rfl⟩
abbrev main_call15_v0 : Ref sig .tc := ⟨.hbm, 149, rfl⟩
abbrev main_v80 : Ref sig .tc := ⟨.hbm, 150, rfl⟩
abbrev main_c_29 : Ref sig .tc := ⟨.hbm, 151, rfl⟩
abbrev main_call16_v0 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_cst_30 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_c_31 : Ref sig .tc := ⟨.hbm, 161, rfl⟩
abbrev main_call17_v0 : Ref sig .tc := ⟨.hbm, 162, rfl⟩
abbrev main_v88 : Ref sig .tc := ⟨.hbm, 163, rfl⟩
abbrev main_c_32 : Ref sig .tc := ⟨.hbm, 164, rfl⟩
abbrev main_call18_v0 : Ref sig .tc := ⟨.hbm, 165, rfl⟩
abbrev main_v89 : Ref sig .tc := ⟨.hbm, 166, rfl⟩
abbrev main_c_33 : Ref sig .tc := ⟨.hbm, 167, rfl⟩
abbrev main_call19_v0 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg3_1 : Ref sig .tc := ⟨.vmem, 71, rfl⟩
abbrev cc7_stg4_0 : Ref sig .tc := ⟨.vmem, 72, rfl⟩
abbrev cc7_stg4_1 : Ref sig .tc := ⟨.vmem, 73, rfl⟩
abbrev cc7_stg5_0 : Ref sig .tc := ⟨.vmem, 74, rfl⟩
abbrev cc7_stg5_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc7_sem4_0 : DmaSem sig := 72
abbrev cc7_sem4_1 : DmaSem sig := 73
abbrev cc7_sem5_0 : DmaSem sig := 74
abbrev cc7_sem5_1 : DmaSem sig := 75

abbrev nD : Nat := 1
abbrev τ : Topo := Topo.v7x

variable {F : FTy → Type} [FloatOps F]

abbrev grid0 : Pipeline.Grid := ⟨1, ![782], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![782], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x48 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4096x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![782], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x24 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S3x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4096x8 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4096x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S4096x8 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![782], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S8x12 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S3x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S3x3 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4096x4 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x8 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x4 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4096x4 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4096x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4096x4 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  pads_S3200000x3_S3203072x3_030720_000 : S3200000x3.Pads (![0, 0] : Fin 2 → Nat) ![3072, 0] ![0, 0] S3203072x3
  h_S_ : 0 < S_.numel
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  bitsLt_bf16_f32 : FTy.bits .bf16 < FTy.bits .f32
  inb_S3x24_S3x24_0_0 : ∀ a, (![0, 0] : Fin 2 → Nat) a + S3x24.size a ≤ S3x24.size a
  h_S3x24 : 0 < S3x24.numel
  inb_S3x3_S1x3_0_0 : ∀ a, (![0, 0] : Fin 2 → Nat) a + S1x3.size a ≤ S3x3.size a
  h_S1x3 : 0 < S1x3.numel
  shapeCasts_S1x3_S3 : S1x3.ShapeCasts S3
  shapeCasts_S3_S1x3 : S3.ShapeCasts S1x3
  broadcasts_S1x3_S4096x3 : S1x3.Broadcasts S4096x3
  reduces_S4096x3_S4096 : S4096x3.Reduces [1] S4096
  shapeCasts_S4096_S4096x1 : S4096.ShapeCasts S4096x1
  slices_S4096x24_o0_0_S4096x8 : S4096x24.Slices ![0, 0] S4096x8
  broadcasts_S4096x1_S4096x8 : S4096x1.Broadcasts S4096x8
  inb_S3x3_S1x3_1_0 : ∀ a, (![1, 0] : Fin 2 → Nat) a + S1x3.size a ≤ S3x3.size a
  slices_S4096x24_o0_8_S4096x8 : S4096x24.Slices ![0, 8] S4096x8
  inb_S3x3_S1x3_2_0 : ∀ a, (![2, 0] : Fin 2 → Nat) a + S1x3.size a ≤ S3x3.size a
  slices_S4096x24_o0_16_S4096x8 : S4096x24.Slices ![0, 16] S4096x8
  inb_S4096x8_S4096x8_0_0 : ∀ a, (![0, 0] : Fin 2 → Nat) a + S4096x8.size a ≤ S4096x8.size a
  h_S4096x8 : 0 < S4096x8.numel
  slices_S3203072x8_S3200000x8_0_0 : S3203072x8.Slices ![0, 0] S3200000x8
  bcast_S_S100000x8 : S_.BroadcastsInDim S100000x8 (![] : Fin 0 → Fin S100000x8.rank)
  shapeCasts_S8_S1x8 : S8.ShapeCasts S1x8
  pads_S100000x3_S102400x3_024000_000 : S100000x3.Pads (![0, 0] : Fin 2 → Nat) ![2400, 0] ![0, 0] S102400x3
  pads_S100000x8_S102400x8_024000_000 : S100000x8.Pads (![0, 0] : Fin 2 → Nat) ![2400, 0] ![0, 0] S102400x8
  pads_S100000x1_S102400x1_024000_000 : S100000x1.Pads (![0, 0] : Fin 2 → Nat) ![2400, 0] ![0, 0] S102400x1
  inb_S3x8_S3x8_0_0 : ∀ a, (![0, 0] : Fin 2 → Nat) a + S3x8.size a ≤ S3x8.size a
  h_S3x8 : 0 < S3x8.numel
  shapeCasts_S4096x8_S4096x8 : S4096x8.ShapeCasts S4096x8
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  slices_S102400x8_S100000x8_0_0 : S102400x8.Slices ![0, 0] S100000x8
  pads_S3200000x8_S3203072x8_030720_000 : S3200000x8.Pads (![0, 0] : Fin 2 → Nat) ![3072, 0] ![0, 0] S3203072x8
  inb_S8x48_S8x48_0_0 : ∀ a, (![0, 0] : Fin 2 → Nat) a + S8x48.size a ≤ S8x48.size a
  h_S8x48 : 0 < S8x48.numel
  slices_S4096x48_o0_0_S4096x16 : S4096x48.Slices ![0, 0] S4096x16
  broadcasts_S4096x1_S4096x16 : S4096x1.Broadcasts S4096x16
  slices_S4096x48_o0_16_S4096x16 : S4096x48.Slices ![0, 16] S4096x16
  slices_S4096x48_o0_32_S4096x16 : S4096x48.Slices ![0, 32] S4096x16
  inb_S4096x16_S4096x16_0_0 : ∀ a, (![0, 0] : Fin 2 → Nat) a + S4096x16.size a ≤ S4096x16.size a
  h_S4096x16 : 0 < S4096x16.numel
  slices_S3203072x16_S3200000x16_0_0 : S3203072x16.Slices ![0, 0] S3200000x16
  bcast_S_S100000x16 : S_.BroadcastsInDim S100000x16 (![] : Fin 0 → Fin S100000x16.rank)
  shapeCasts_S16_S1x16 : S16.ShapeCasts S1x16
  pads_S100000x16_S102400x16_024000_000 : S100000x16.Pads (![0, 0] : Fin 2 → Nat) ![2400, 0] ![0, 0] S102400x16
  inb_S8x16_S8x16_0_0 : ∀ a, (![0, 0] : Fin 2 → Nat) a + S8x16.size a ≤ S8x16.size a
  h_S8x16 : 0 < S8x16.numel
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  slices_S102400x16_S100000x16_0_0 : S102400x16.Slices ![0, 0] S100000x16
  pads_S3200000x16_S3203072x16_030720_000 : S3200000x16.Pads (![0, 0] : Fin 2 → Nat) ![3072, 0] ![0, 0] S3203072x16
  inb_S16x24_S16x24_0_0 : ∀ a, (![0, 0] : Fin 2 → Nat) a + S16x24.size a ≤ S16x24.size a
  h_S16x24 : 0 < S16x24.numel
  inb_S16x8_S16x8_0_0 : ∀ a, (![0, 0] : Fin 2 → Nat) a + S16x8.size a ≤ S16x8.size a
  h_S16x8 : 0 < S16x8.numel
  inb_S8x12_S8x12_0_0 : ∀ a, (![0, 0] : Fin 2 → Nat) a + S8x12.size a ≤ S8x12.size a
  h_S8x12 : 0 < S8x12.numel
  slices_S4096x12_o0_0_S4096x4 : S4096x12.Slices ![0, 0] S4096x4
  broadcasts_S4096x1_S4096x4 : S4096x1.Broadcasts S4096x4
  slices_S4096x12_o0_4_S4096x4 : S4096x12.Slices ![0, 4] S4096x4
  slices_S4096x12_o0_8_S4096x4 : S4096x12.Slices ![0, 8] S4096x4
  inb_S4096x4_S4096x4_0_0 : ∀ a, (![0, 0] : Fin 2 → Nat) a + S4096x4.size a ≤ S4096x4.size a
  h_S4096x4 : 0 < S4096x4.numel
  slices_S3203072x4_S3200000x4_0_0 : S3203072x4.Slices ![0, 0] S3200000x4
  bcast_S_S100000x4 : S_.BroadcastsInDim S100000x4 (![] : Fin 0 → Fin S100000x4.rank)
  shapeCasts_S4_S1x4 : S4.ShapeCasts S1x4
  pads_S100000x4_S102400x4_024000_000 : S100000x4.Pads (![0, 0] : Fin 2 → Nat) ![2400, 0] ![0, 0] S102400x4
  inb_S8x4_S8x4_0_0 : ∀ a, (![0, 0] : Fin 2 → Nat) a + S8x4.size a ≤ S8x4.size a
  h_S8x4 : 0 < S8x4.numel
  shapeCasts_S4096x4_S4096x4 : S4096x4.ShapeCasts S4096x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4096x4 : S1x4.Broadcasts S4096x4
  slices_S102400x4_S100000x4_0_0 : S102400x4.Slices ![0, 0] S100000x4
  scatter_S100000_S3200000x1_S3200000_n_0_0_1_wf : ScatterDims.WF S100000 S3200000x1 S3200000 [] [0] [0] 1
  gather_S100000x3_S3200000x1_S3200000x3_1_0_n_n_0_1_13_wf : GatherDims.WF S100000x3 S3200000x1 S3200000x3 [1] [0] [] [0] [] 1 ![1, 3]
  dot_S4096x3_S3x24_S4096x24_1_0_0_1_n_n_wf : DotDims.WF S4096x3 S3x24 S4096x24 [1] [0] [0] [1] [] []
  scatter_S100000x8_S3200000x1_S3200000x8_1_0_0_1_wf : ScatterDims.WF S100000x8 S3200000x1 S3200000x8 [1] [0] [0] 1
  dot_S4096x3_S3x8_S4096x8_1_0_0_1_n_n_wf : DotDims.WF S4096x3 S3x8 S4096x8 [1] [0] [0] [1] [] []
  gather_S100000x8_S3200000x1_S3200000x8_1_0_n_n_0_1_18_wf : GatherDims.WF S100000x8 S3200000x1 S3200000x8 [1] [0] [] [0] [] 1 ![1, 8]
  dot_S4096x8_S8x48_S4096x48_1_0_0_1_n_n_wf : DotDims.WF S4096x8 S8x48 S4096x48 [1] [0] [0] [1] [] []
  scatter_S100000x16_S3200000x1_S3200000x16_1_0_0_1_wf : ScatterDims.WF S100000x16 S3200000x1 S3200000x16 [1] [0] [0] 1
  dot_S4096x8_S8x16_S4096x16_1_0_0_1_n_n_wf : DotDims.WF S4096x8 S8x16 S4096x16 [1] [0] [0] [1] [] []
  gather_S100000x16_S3200000x1_S3200000x16_1_0_n_n_0_1_116_wf : GatherDims.WF S100000x16 S3200000x1 S3200000x16 [1] [0] [] [0] [] 1 ![1, 16]
  dot_S4096x16_S16x24_S4096x24_1_0_0_1_n_n_wf : DotDims.WF S4096x16 S16x24 S4096x24 [1] [0] [0] [1] [] []
  dot_S4096x16_S16x8_S4096x8_1_0_0_1_n_n_wf : DotDims.WF S4096x16 S16x8 S4096x8 [1] [0] [0] [1] [] []
  dot_S4096x8_S8x12_S4096x12_1_0_0_1_n_n_wf : DotDims.WF S4096x8 S8x12 S4096x12 [1] [0] [0] [1] [] []
  scatter_S100000x4_S3200000x1_S3200000x4_1_0_0_1_wf : ScatterDims.WF S100000x4 S3200000x1 S3200000x4 [1] [0] [0] 1
  dot_S4096x8_S8x4_S4096x4_1_0_0_1_n_n_wf : DotDims.WF S4096x8 S8x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S3203072x3.size a
  hwx0_0 : ∀ i : grid0.Coords, EltTy.bits .f32 = 32 ∨ (Rect.block (s := S3203072x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S3203072x3.size a
  hwx0_1 : ∀ i : grid0.Coords, EltTy.bits .f32 = 32 ∨ (Rect.block (s := S3203072x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x24.size a ≤ S3x24.size a
  hwx0_2 : ∀ i : grid0.Coords, EltTy.bits .f32 = 32 ∨ (Rect.block (s := S3x24) S3x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x3.size a ≤ S3x3.size a
  hwx0_4 : ∀ i : grid0.Coords, EltTy.bits .f32 = 32 ∨ (Rect.block (s := S3x3) S3x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x8.size a ≤ S3203072x8.size a
  hwx0_5 : ∀ i : grid0.Coords, EltTy.bits .f32 = 32 ∨ (Rect.block (s := S3203072x8) S4096x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x3.size a ≤ S102400x3.size a
  hwx1_0 : ∀ i : grid1.Coords, EltTy.bits .f32 = 32 ∨ (Rect.block (s := S102400x3) S4096x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x8.size a ≤ S3x8.size a
  hwx1_1 : ∀ i : grid1.Coords, EltTy.bits .f32 = 32 ∨ (Rect.block (s := S3x8) S3x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x8.size a ≤ S102400x8.size a
  hwx1_3 : ∀ i : grid1.Coords, EltTy.bits .f32 = 32 ∨ (Rect.block (s := S102400x8) S4096x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x1.size a ≤ S102400x1.size a
  hwx1_4 : ∀ i : grid1.Coords, EltTy.bits .f32 = 32 ∨ (Rect.block (s := S102400x1) S4096x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x8.size a ≤ S102400x8.size a
  hwx1_5 : ∀ i : grid1.Coords, EltTy.bits .f32 = 32 ∨ (Rect.block (s := S102400x8) S4096x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x8.size a ≤ S3203072x8.size a
  hwx2_0 : ∀ i : grid2.Coords, EltTy.bits .f32 = 32 ∨ (Rect.block (s := S3203072x8) S4096x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x3.size a ≤ S3203072x3.size a
  hwx2_1 : ∀ i : grid2.Coords, EltTy.bits .f32 = 32 ∨ (Rect.block (s := S3203072x3) S4096x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x48.size a ≤ S8x48.size a
  hwx2_2 : ∀ i : grid2.Coords, EltTy.bits .f32 = 32 ∨ (Rect.block (s := S8x48) S8x48.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x3.size a ≤ S3x3.size a
  hwx2_3 : ∀ i : grid2.Coords, EltTy.bits .f32 = 32 ∨ (Rect.block (s := S3x3) S3x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x3.size a ≤ S3x3.size a
  hwx2_4 : ∀ i : grid2.Coords, EltTy.bits .f32 = 32 ∨ (Rect.block (s := S3x3) S3x3.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x16.size a ≤ S3203072x16.size a
  hwx2_5 : ∀ i : grid2.Coords, EltTy.bits .f32 = 32 ∨ (Rect.block (s := S3203072x16) S4096x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x8.size a ≤ S102400x8.size a
  hwx3_0 : ∀ i : grid3.Coords, EltTy.bits .f32 = 32 ∨ (Rect.block (s := S102400x8) S4096x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x16.size a ≤ S8x16.size a
  hwx3_1 : ∀ i : grid3.Coords, EltTy.bits .f32 = 32 ∨ (Rect.block (s := S8x16) S8x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x16.size a ≤ S102400x16.size a
  hwx3_3 : ∀ i : grid3.Coords, EltTy.bits .f32 = 32 ∨ (Rect.block (s := S102400x16) S4096x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x1.size a ≤ S102400x1.size a
  hwx3_4 : ∀ i : grid3.Coords, EltTy.bits .f32 = 32 ∨ (Rect.block (s := S102400x1) S4096x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x16.size a ≤ S102400x16.size a
  hwx3_5 : ∀ i : grid3.Coords, EltTy.bits .f32 = 32 ∨ (Rect.block (s := S102400x16) S4096x16.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x16.size a ≤ S3203072x16.size a
  hwx4_0 : ∀ i : grid4.Coords, EltTy.bits .f32 = 32 ∨ (Rect.block (s := S3203072x16) S4096x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x3.size a ≤ S3203072x3.size a
  hwx4_1 : ∀ i : grid4.Coords, EltTy.bits .f32 = 32 ∨ (Rect.block (s := S3203072x3) S4096x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x24.size a ≤ S16x24.size a
  hwx4_2 : ∀ i : grid4.Coords, EltTy.bits .f32 = 32 ∨ (Rect.block (s := S16x24) S16x24.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x3.size a ≤ S3x3.size a
  hwx4_3 : ∀ i : grid4.Coords, EltTy.bits .f32 = 32 ∨ (Rect.block (s := S3x3) S3x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x3.size a ≤ S3x3.size a
  hwx4_4 : ∀ i : grid4.Coords, EltTy.bits .f32 = 32 ∨ (Rect.block (s := S3x3) S3x3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4096x8.size a ≤ S3203072x8.size a
  hwx4_5 : ∀ i : grid4.Coords, EltTy.bits .f32 = 32 ∨ (Rect.block (s := S3203072x8) S4096x8.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x16.size a ≤ S102400x16.size a
  hwx5_0 : ∀ i : grid5.Coords, EltTy.bits .f32 = 32 ∨ (Rect.block (s := S102400x16) S4096x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x8.size a ≤ S16x8.size a
  hwx5_1 : ∀ i : grid5.Coords, EltTy.bits .f32 = 32 ∨ (Rect.block (s := S16x8) S16x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x8.size a ≤ S1x8.size a
  hwx5_2 : ∀ i : grid5.Coords, EltTy.bits .f32 = 32 ∨ (Rect.block (s := S1x8) S1x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x8.size a ≤ S102400x8.size a
  hwx5_3 : ∀ i : grid5.Coords, EltTy.bits .f32 = 32 ∨ (Rect.block (s := S102400x8) S4096x8.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x1.size a ≤ S102400x1.size a
  hwx5_4 : ∀ i : grid5.Coords, EltTy.bits .f32 = 32 ∨ (Rect.block (s := S102400x1) S4096x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4096x8.size a ≤ S102400x8.size a
  hwx5_5 : ∀ i : grid5.Coords, EltTy.bits .f32 = 32 ∨ (Rect.block (s := S102400x8) S4096x8.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x8.size a ≤ S3203072x8.size a
  hwx6_0 : ∀ i : grid6.Coords, EltTy.bits .f32 = 32 ∨ (Rect.block (s := S3203072x8) S4096x8.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x3.size a ≤ S3203072x3.size a
  hwx6_1 : ∀ i : grid6.Coords, EltTy.bits .f32 = 32 ∨ (Rect.block (s := S3203072x3) S4096x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S8x12.size a ≤ S8x12.size a
  hwx6_2 : ∀ i : grid6.Coords, EltTy.bits .f32 = 32 ∨ (Rect.block (s := S8x12) S8x12.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x3.size a ≤ S3x3.size a
  hwx6_3 : ∀ i : grid6.Coords, EltTy.bits .f32 = 32 ∨ (Rect.block (s := S3x3) S3x3.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S3x3.size a ≤ S3x3.size a
  hwx6_4 : ∀ i : grid6.Coords, EltTy.bits .f32 = 32 ∨ (Rect.block (s := S3x3) S3x3.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4096x4.size a ≤ S3203072x4.size a
  hwx6_5 : ∀ i : grid6.Coords, EltTy.bits .f32 = 32 ∨ (Rect.block (s := S3203072x4) S4096x4.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x8.size a ≤ S102400x8.size a
  hwx7_0 : ∀ i : grid7.Coords, EltTy.bits .f32 = 32 ∨ (Rect.block (s := S102400x8) S4096x8.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8x4.size a ≤ S8x4.size a
  hwx7_1 : ∀ i : grid7.Coords, EltTy.bits .f32 = 32 ∨ (Rect.block (s := S8x4) S8x4.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x4.size a ≤ S1x4.size a
  hwx7_2 : ∀ i : grid7.Coords, EltTy.bits .f32 = 32 ∨ (Rect.block (s := S1x4) S1x4.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4096x4.size a ≤ S102400x4.size a
  hwx7_3 : ∀ i : grid7.Coords, EltTy.bits .f32 = 32 ∨ (Rect.block (s := S102400x4) S4096x4.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4096x1.size a ≤ S102400x1.size a
  hwx7_4 : ∀ i : grid7.Coords, EltTy.bits .f32 = 32 ∨ (Rect.block (s := S102400x1) S4096x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x4.size a ≤ S102400x4.size a
  hwx7_5 : ∀ i : grid7.Coords, EltTy.bits .f32 = 32 ∨ (Rect.block (s := S102400x4) S4096x4.size (cc7_transform_5 i) (hinb7_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S4096x3_S3x24_S4096x24_1_0_0_1_n_n : DotDims S4096x3 S3x24 S4096x24 where
  lhsContracting := [1]
  rhsContracting := [0]
  lhsNonContracting := [0]
  rhsNonContracting := [1]
  lhsBatch := []
  rhsBatch := []
  wf := dot_S4096x3_S3x24_S4096x24_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S4096x3_S3x8_S4096x8_1_0_0_1_n_n : DotDims S4096x3 S3x8 S4096x8 where
  lhsContracting := [1]
  rhsContracting := [0]
  lhsNonContracting := [0]
  rhsNonContracting := [1]
  lhsBatch := []
  rhsBatch := []
  wf := dot_S4096x3_S3x8_S4096x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S4096x8_S8x48_S4096x48_1_0_0_1_n_n : DotDims S4096x8 S8x48 S4096x48 where
  lhsContracting := [1]
  rhsContracting := [0]
  lhsNonContracting := [0]
  rhsNonContracting := [1]
  lhsBatch := []
  rhsBatch := []
  wf := dot_S4096x8_S8x48_S4096x48_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4096x8_S8x16_S4096x16_1_0_0_1_n_n : DotDims S4096x8 S8x16 S4096x16 where
  lhsContracting := [1]
  rhsContracting := [0]
  lhsNonContracting := [0]
  rhsNonContracting := [1]
  lhsBatch := []
  rhsBatch := []
  wf := dot_S4096x8_S8x16_S4096x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S4096x16_S16x24_S4096x24_1_0_0_1_n_n : DotDims S4096x16 S16x24 S4096x24 where
  lhsContracting := [1]
  rhsContracting := [0]
  lhsNonContracting := [0]
  rhsNonContracting := [1]
  lhsBatch := []
  rhsBatch := []
  wf := dot_S4096x16_S16x24_S4096x24_1_0_0_1_n_n_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S4096x8_S8x12_S4096x12_1_0_0_1_n_n : DotDims S4096x8 S8x12 S4096x12 where
  lhsContracting := [1]
  rhsContracting := [0]
  lhsNonContracting := [0]
  rhsNonContracting := [1]
  lhsBatch := []
  rhsBatch := []
  wf := dot_S4096x8_S8x12_S4096x12_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf

abbrev win0_0 : Pipeline.Window sig grid0 :=
  Pipeline.Window.ofSpec (Memref.whole main_v20) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4096x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S4096x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4096x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4096x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S4096x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S4096x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S8x48.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S3x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S3x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S4096x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S4096x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S8x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S4096x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v50) S4096x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v51) S4096x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S4096x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S4096x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S16x24.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S3x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S3x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S4096x8.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v68) S4096x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S16x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S4096x8.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v70) S4096x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v71) S4096x8.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v80) S4096x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S4096x3.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg18) S8x12.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S3x3.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg20) S3x3.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S4096x4.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v88) S4096x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg21) S8x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v87) S1x4.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89) S4096x4.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v90) S4096x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v91) S4096x4.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3200000x3 : Shape := ⟨2, ![3200000, 3]⟩
abbrev S3x24 : Shape := ⟨2, ![3, 24]⟩
abbrev S3x3 : Shape := ⟨2, ![3, 3]⟩
abbrev S3x8 : Shape := ⟨2, ![3, 8]⟩
abbrev S8 : Shape := ⟨1, ![8]⟩
abbrev S8x48 : Shape := ⟨2, ![8, 48]⟩
abbrev S8x16 : Shape := ⟨2, ![8, 16]⟩
abbrev S16 : Shape := ⟨1, ![16]⟩
abbrev S16x24 : Shape := ⟨2, ![16, 24]⟩
abbrev S16x8 : Shape := ⟨2, ![16, 8]⟩
abbrev S8x12 : Shape := ⟨2, ![8, 12]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x24 : Shape := ⟨2, ![3200000, 24]⟩
abbrev S3200000x1x3 : Shape := ⟨3, ![3200000, 1, 3]⟩
abbrev S1x3x3 : Shape := ⟨3, ![1, 3, 3]⟩
abbrev S3200000x3x3 : Shape := ⟨3, ![3200000, 3, 3]⟩
abbrev S3200000x3x8 : Shape := ⟨3, ![3200000, 3, 8]⟩
abbrev S3200000x3x1 : Shape := ⟨3, ![3200000, 3, 1]⟩
abbrev S3200000x8 : Shape := ⟨2, ![3200000, 8]⟩
abbrev S100000x8 : Shape := ⟨2, ![100000, 8]⟩
abbrev S100000 : Shape := ⟨1, ![100000]⟩
abbrev S100000x1 : Shape := ⟨2, ![100000, 1]⟩
abbrev S1x8 : Shape := ⟨2, ![1, 8]⟩
abbrev S3200000x48 : Shape := ⟨2, ![3200000, 48]⟩
abbrev S3200000x3x16 : Shape := ⟨3, ![3200000, 3, 16]⟩
abbrev S3200000x16 : Shape := ⟨2, ![3200000, 16]⟩
abbrev S100000x16 : Shape := ⟨2, ![100000, 16]⟩
abbrev S1x16 : Shape := ⟨2, ![1, 16]⟩
abbrev S3200000x12 : Shape := ⟨2, ![3200000, 12]⟩
abbrev S3200000x3x4 : Shape := ⟨3, ![3200000, 3, 4]⟩
abbrev S3200000x4 : Shape := ⟨2, ![3200000, 4]⟩
abbrev S100000x4 : Shape := ⟨2, ![100000, 4]⟩
abbrev S1x4 : Shape := ⟨2, ![1, 4]⟩

abbrev nBuf : Space → Nat
  | .hbm => 296
  | .vmem => 0
  | .smem => 0
  | _ => 0

abbrev hbmTy0_0 (i : Nat) : BufTy := match i % 128 with
  | 0 => ⟨S100000x3, .f32⟩
  | 1 => ⟨S2x3200000, .i32⟩
  | 2 => ⟨S3200000x3, .f32⟩
  | 3 => ⟨S3x24, .f32⟩
  | 4 => ⟨S3x3, .f32⟩
  | 5 => ⟨S3x3, .f32⟩
  | 6 => ⟨S3x8, .f32⟩
  | 7 => ⟨S8, .f32⟩
  | 8 => ⟨S8x48, .f32⟩
  | 9 => ⟨S3x3, .f32⟩
  | 10 => ⟨S3x3, .f32⟩
  | 11 => ⟨S8x16, .f32⟩
  | 12 => ⟨S16, .f32⟩
  | 13 => ⟨S16x24, .f32⟩
  | 14 => ⟨S3x3, .f32⟩
  | 15 => ⟨S3x3, .f32⟩
  | 16 => ⟨S16x8, .f32⟩
  | 17 => ⟨S8, .f32⟩
  | 18 => ⟨S8x12, .f32⟩
  | 19 => ⟨S3x3, .f32⟩
  | 20 => ⟨S3x3, .f32⟩
  | 21 => ⟨S8x4, .f32⟩
  | 22 => ⟨S4, .f32⟩
  | 23 => ⟨S1x3200000, .i32⟩
  | 24 => ⟨S3200000, .i32⟩
  | 25 => ⟨S1x3200000, .i32⟩
  | 26 => ⟨S3200000, .i32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x3, .f32⟩
  | 36 => ⟨S3200000x24, .f32⟩
  | 37 => ⟨S3200000x1x3, .f32⟩
  | 38 => ⟨S1x3x3, .f32⟩
  | 39 => ⟨S3200000x3x3, .f32⟩
  | 40 => ⟨S3200000x3x3, .f32⟩
  | 41 => ⟨S3200000x3x3, .f32⟩
  | 42 => ⟨S3200000x3x3, .f32⟩
  | 43 => ⟨S1x3x3, .f32⟩
  | 44 => ⟨S1x3x3, .f32⟩
  | 45 => ⟨S_, .f32⟩
  | 46 => ⟨S1x3x3, .f32⟩
  | 47 => ⟨S1x3x3, .f32⟩
  | 48 => ⟨S3200000x3x3, .f32⟩
  | 49 => ⟨S3200000x3x3, .f32⟩
  | 50 => ⟨S_, .f32⟩
  | 51 => ⟨S3200000x3, .f32⟩
  | 52 => ⟨S_, .f32⟩
  | 53 => ⟨S3200000x3, .f32⟩
  | 54 => ⟨S3200000x3, .f32⟩
  | 55 => ⟨S3200000x3, .f32⟩
  | 56 => ⟨S3200000x3x8, .f32⟩
  | 57 => ⟨S3200000x3x1, .f32⟩
  | 58 => ⟨S3200000x3x8, .f32⟩
  | 59 => ⟨S3200000x3x8, .f32⟩
  | 60 => ⟨S_, .f32⟩
  | 61 => ⟨S3200000x8, .f32⟩
  | 62 => ⟨S_, .f32⟩
  | 63 => ⟨S100000x8, .f32⟩
  | 64 => ⟨S3200000x1, .i32⟩
  | 65 => ⟨S100000x8, .f32⟩
  | 66 => ⟨S_, .f32⟩
  | 67 => ⟨S3200000, .f32⟩
  | 68 => ⟨S_, .f32⟩
  | 69 => ⟨S100000, .f32⟩
  | 70 => ⟨S3200000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x8, .f32⟩
  | 77 => ⟨S100000x8, .f32⟩
  | 78 => ⟨S100000x8, .f32⟩
  | 79 => ⟨S100000x8, .f32⟩
  | 80 => ⟨S1x8, .f32⟩
  | 81 => ⟨S100000x8, .f32⟩
  | 82 => ⟨S100000x8, .f32⟩
  | 83 => ⟨S_, .f32⟩
  | 84 => ⟨S100000x8, .f32⟩
  | 85 => ⟨S100000x8, .i1⟩
  | 86 => ⟨S_, .f32⟩
  | 87 => ⟨S100000x8, .f32⟩
  | 88 => ⟨S100000x8, .i1⟩
  | 89 => ⟨S_, .f32⟩
  | 90 => ⟨S_, .f32⟩
  | 91 => ⟨S100000x8, .f32⟩
  | 92 => ⟨S100000x8, .f32⟩
  | 93 => ⟨S100000x8, .f32⟩
  | 94 => ⟨S_, .f32⟩
  | 95 => ⟨S100000x8, .f32⟩
  | 96 => ⟨S100000x8, .f32⟩
  | 97 => ⟨S100000x8, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x8, .f32⟩
  | 107 => ⟨S3200000x48, .f32⟩
  | 108 => ⟨S3200000x1x3, .f32⟩
  | 109 => ⟨S1x3x3, .f32⟩
  | 110 => ⟨S3200000x3x3, .f32⟩
  | 111 => ⟨S3200000x3x3, .f32⟩
  | 112 => ⟨S3200000x3x3, .f32⟩
  | 113 => ⟨S3200000x3x3, .f32⟩
  | 114 => ⟨S1x3x3, .f32⟩
  | 115 => ⟨S1x3x3, .f32⟩
  | 116 => ⟨S_, .f32⟩
  | 117 => ⟨S1x3x3, .f32⟩
  | 118 => ⟨S1x3x3, .f32⟩
  | 119 => ⟨S3200000x3x3, .f32⟩
  | 120 => ⟨S3200000x3x3, .f32⟩
  | 121 => ⟨S_, .f32⟩
  | 122 => ⟨S3200000x3, .f32⟩
  | 123 => ⟨S_, .f32⟩
  | 124 => ⟨S3200000x3, .f32⟩
  | 125 => ⟨S3200000x3, .f32⟩
  | 126 => ⟨S3200000x3, .f32⟩
  | 127 => ⟨S3200000x3x16, .f32⟩
  | _ => ⟨S100000x3, .f32⟩

abbrev hbmTy0_1 (i : Nat) : BufTy := match i % 128 with
  | 0 => ⟨S3200000x3x1, .f32⟩
  | 1 => ⟨S3200000x3x16, .f32⟩
  | 2 => ⟨S3200000x3x16, .f32⟩
  | 3 => ⟨S_, .f32⟩
  | 4 => ⟨S3200000x16, .f32⟩
  | 5 => ⟨S_, .f32⟩
  | 6 => ⟨S100000x16, .f32⟩
  | 7 => ⟨S3200000x1, .i32⟩
  | 8 => ⟨S100000x16, .f32⟩
  | 9 => ⟨S_, .f32⟩
  | 10 => ⟨S3200000, .f32⟩
  | 11 => ⟨S_, .f32⟩
  | 12 => ⟨S100000, .f32⟩
  | 13 => ⟨S3200000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x16, .f32⟩
  | 20 => ⟨S100000x16, .f32⟩
  | 21 => ⟨S100000x16, .f32⟩
  | 22 => ⟨S100000x16, .f32⟩
  | 23 => ⟨S1x16, .f32⟩
  | 24 => ⟨S100000x16, .f32⟩
  | 25 => ⟨S100000x16, .f32⟩
  | 26 => ⟨S_, .f32⟩
  | 27 => ⟨S100000x16, .f32⟩
  | 28 => ⟨S100000x16, .i1⟩
  | 29 => ⟨S_, .f32⟩
  | 30 => ⟨S100000x16, .f32⟩
  | 31 => ⟨S100000x16, .i1⟩
  | 32 => ⟨S_, .f32⟩
  | 33 => ⟨S_, .f32⟩
  | 34 => ⟨S100000x16, .f32⟩
  | 35 => ⟨S100000x16, .f32⟩
  | 36 => ⟨S100000x16, .f32⟩
  | 37 => ⟨S_, .f32⟩
  | 38 => ⟨S100000x16, .f32⟩
  | 39 => ⟨S100000x16, .f32⟩
  | 40 => ⟨S100000x16, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x16, .f32⟩
  | 50 => ⟨S3200000x24, .f32⟩
  | 51 => ⟨S3200000x1x3, .f32⟩
  | 52 => ⟨S1x3x3, .f32⟩
  | 53 => ⟨S3200000x3x3, .f32⟩
  | 54 => ⟨S3200000x3x3, .f32⟩
  | 55 => ⟨S3200000x3x3, .f32⟩
  | 56 => ⟨S3200000x3x3, .f32⟩
  | 57 => ⟨S1x3x3, .f32⟩
  | 58 => ⟨S1x3x3, .f32⟩
  | 59 => ⟨S_, .f32⟩
  | 60 => ⟨S1x3x3, .f32⟩
  | 61 => ⟨S1x3x3, .f32⟩
  | 62 => ⟨S3200000x3x3, .f32⟩
  | 63 => ⟨S3200000x3x3, .f32⟩
  | 64 => ⟨S_, .f32⟩
  | 65 => ⟨S3200000x3, .f32⟩
  | 66 => ⟨S_, .f32⟩
  | 67 => ⟨S3200000x3, .f32⟩
  | 68 => ⟨S3200000x3, .f32⟩
  | 69 => ⟨S3200000x3, .f32⟩
  | 70 => ⟨S3200000x3x8, .f32⟩
  | 71 => ⟨S3200000x3x1, .f32⟩
  | 72 => ⟨S3200000x3x8, .f32⟩
  | 73 => ⟨S3200000x3x8, .f32⟩
  | 74 => ⟨S_, .f32⟩
  | 75 => ⟨S3200000x8, .f32⟩
  | 76 => ⟨S_, .f32⟩
  | 77 => ⟨S100000x8, .f32⟩
  | 78 => ⟨S3200000x1, .i32⟩
  | 79 => ⟨S100000x8, .f32⟩
  | 80 => ⟨S_, .f32⟩
  | 81 => ⟨S3200000, .f32⟩
  | 82 => ⟨S_, .f32⟩
  | 83 => ⟨S100000, .f32⟩
  | 84 => ⟨S3200000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x8, .f32⟩
  | 91 => ⟨S100000x8, .f32⟩
  | 92 => ⟨S100000x8, .f32⟩
  | 93 => ⟨S100000x8, .f32⟩
  | 94 => ⟨S1x8, .f32⟩
  | 95 => ⟨S100000x8, .f32⟩
  | 96 => ⟨S100000x8, .f32⟩
  | 97 => ⟨S_, .f32⟩
  | 98 => ⟨S100000x8, .f32⟩
  | 99 => ⟨S100000x8, .i1⟩
  | 100 => ⟨S_, .f32⟩
  | 101 => ⟨S100000x8, .f32⟩
  | 102 => ⟨S100000x8, .i1⟩
  | 103 => ⟨S_, .f32⟩
  | 104 => ⟨S_, .f32⟩
  | 105 => ⟨S100000x8, .f32⟩
  | 106 => ⟨S100000x8, .f32⟩
  | 107 => ⟨S100000x8, .f32⟩
  | 108 => ⟨S_, .f32⟩
  | 109 => ⟨S100000x8, .f32⟩
  | 110 => ⟨S100000x8, .f32⟩
  | 111 => ⟨S100000x8, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000x8, .f32⟩
  | 121 => ⟨S3200000x12, .f32⟩
  | 122 => ⟨S3200000x1x3, .f32⟩
  | 123 => ⟨S1x3x3, .f32⟩
  | 124 => ⟨S3200000x3x3, .f32⟩
  | 125 => ⟨S3200000x3x3, .f32⟩
  | 126 => ⟨S3200000x3x3, .f32⟩
  | 127 => ⟨S3200000x3x3, .f32⟩
  | _ => ⟨S100000x3, .f32⟩

abbrev hbmTy0_2 (i : Nat) : BufTy := match i % 128 with
  | 0 => ⟨S1x3x3, .f32⟩
  | 1 => ⟨S1x3x3, .f32⟩
  | 2 => ⟨S_, .f32⟩
  | 3 => ⟨S1x3x3, .f32⟩
  | 4 => ⟨S1x3x3, .f32⟩
  | 5 => ⟨S3200000x3x3, .f32⟩
  | 6 => ⟨S3200000x3x3, .f32⟩
  | 7 => ⟨S_, .f32⟩
  | 8 => ⟨S3200000x3, .f32⟩
  | 9 => ⟨S_, .f32⟩
  | 10 => ⟨S3200000x3, .f32⟩
  | 11 => ⟨S3200000x3, .f32⟩
  | 12 => ⟨S3200000x3, .f32⟩
  | 13 => ⟨S3200000x3x4, .f32⟩
  | 14 => ⟨S3200000x3x1, .f32⟩
  | 15 => ⟨S3200000x3x4, .f32⟩
  | 16 => ⟨S3200000x3x4, .f32⟩
  | 17 => ⟨S_, .f32⟩
  | 18 => ⟨S3200000x4, .f32⟩
  | 19 => ⟨S_, .f32⟩
  | 20 => ⟨S100000x4, .f32⟩
  | 21 => ⟨S3200000x1, .i32⟩
  | 22 => ⟨S100000x4, .f32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x4, .f32⟩
  | 34 => ⟨S100000x4, .f32⟩
  | 35 => ⟨S100000x4, .f32⟩
  | 36 => ⟨S100000x4, .f32⟩
  | 37 => ⟨S1x4, .f32⟩
  | 38 => ⟨S100000x4, .f32⟩
  | 39 => ⟨S100000x4, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_cst_1 : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_v4 : Ref sig .tc := ⟨.hbm, 92, rfl⟩
abbrev main_call0_v5 : Ref sig .tc := ⟨.hbm, 93, rfl⟩
abbrev main_call0_cst_2 : Ref sig .tc := ⟨.hbm, 94, rfl⟩
abbrev main_call0_v6 : Ref sig .tc := ⟨.hbm, 95, rfl⟩
abbrev main_call0_v7 : Ref sig .tc := ⟨.hbm, 96, rfl⟩
abbrev main_v50 : Ref sig .tc := ⟨.hbm, 97, rfl⟩
abbrev main_c_8 : Ref sig .tc := ⟨.hbm, 98, rfl⟩
abbrev main_v51 : Ref sig .tc := ⟨.hbm, 99, rfl⟩
abbrev main_v52 : Ref sig .tc := ⟨.hbm, 100, rfl⟩
abbrev main_c_9 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_11 : Ref sig .tc := ⟨.hbm, 121, rfl⟩
abbrev main_v71 : Ref sig .tc := ⟨.hbm, 122, rfl⟩
abbrev main_cst_12 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_13 : Ref sig .tc := ⟨.hbm, 131, rfl⟩
abbrev main_v79 : Ref sig .tc := ⟨.hbm, 132, rfl⟩
abbrev main_cst_14 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_15 : Ref sig .tc := ⟨.hbm, 137, rfl⟩
abbrev main_v83 : Ref sig .tc := ⟨.hbm, 138, rfl⟩
abbrev main_cst_16 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_17 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_call1_cst : Ref sig .tc := ⟨.hbm, 154, rfl⟩
abbrev main_call1_v0 : Ref sig .tc := ⟨.hbm, 155, rfl⟩
abbrev main_call1_v1 : Ref sig .tc := ⟨.hbm, 156, rfl⟩
abbrev main_call1_cst_0 : Ref sig .tc := ⟨.hbm, 157, rfl⟩
abbrev main_call1_v2 : Ref sig .tc := ⟨.hbm, 158, rfl⟩
abbrev main_call1_v3 : Ref sig .tc := ⟨.hbm, 159, rfl⟩
abbrev main_call1_cst_1 : Ref sig .tc := ⟨.hbm, 160, rfl⟩
abbrev main_call1_call0_v0 : Ref sig .tc := ⟨.hbm, 161, rfl⟩
abbrev main_call1_call0_v1 : Ref sig .tc := ⟨.hbm, 162, rfl⟩
abbrev main_call1_v4 : Ref sig .tc := ⟨.hbm, 163, rfl⟩
abbrev main_call1_v5 : Ref sig .tc := ⟨.hbm, 164, rfl⟩
abbrev main_call1_cst_2 : Ref sig .tc := ⟨.hbm, 165, rfl⟩
abbrev main_call1_v6 : Ref sig .tc := ⟨.hbm, 166, rfl⟩
abbrev main_call1_v7 : Ref sig .tc := ⟨.hbm, 167, rfl⟩
abbrev main_v97 : Ref sig .tc := ⟨.hbm, 168, rfl⟩
abbrev main_c_18 : Ref sig .tc := ⟨.hbm, 169, rfl⟩
abbrev main_v98 : Ref sig .tc := ⟨.hbm, 170, rfl⟩
abbrev main_v99 : Ref sig .tc := ⟨.hbm, 171, rfl⟩
abbrev main_c_19 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_20 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_cst_21 : Ref sig .tc := ⟨.hbm, 192, rfl⟩
abbrev main_v118 : Ref sig .tc := ⟨.hbm, 193, rfl⟩
abbrev main_cst_22 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_cst_23 : Ref sig .tc := ⟨.hbm, 202, rfl⟩
abbrev main_v126 : Ref sig .tc := ⟨.hbm, 203, rfl⟩
abbrev main_cst_24 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_25 : Ref sig .tc := ⟨.hbm, 208, rfl⟩
abbrev main_v130 : Ref sig .tc := ⟨.hbm, 209, rfl⟩
abbrev main_cst_26 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_cst_27 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call2_cst : Ref sig .tc := ⟨.hbm, 225, rfl⟩
abbrev main_call2_v0 : Ref sig .tc := ⟨.hbm, 226, rfl⟩
abbrev main_call2_v1 : Ref sig .tc := ⟨.hbm, 227, rfl⟩
abbrev main_call2_cst_0 : Ref sig .tc := ⟨.hbm, 228, rfl⟩
abbrev main_call2_v2 : Ref sig .tc := ⟨.hbm, 229, rfl⟩
abbrev main_call2_v3 : Ref sig .tc := ⟨.hbm, 230, rfl⟩
abbrev main_call2_cst_1 : Ref sig .tc := ⟨.hbm, 231, rfl⟩
abbrev main_call2_call0_v0 : Ref sig .tc := ⟨.hbm, 232, rfl⟩
abbrev main_call2_call0_v1 : Ref sig .tc := ⟨.hbm, 233, rfl⟩
abbrev main_call2_v4 : Ref sig .tc := ⟨.hbm, 234, rfl⟩
abbrev main_call2_v5 : Ref sig .tc := ⟨.hbm, 235, rfl⟩
abbrev main_call2_cst_2 : Ref sig .tc := ⟨.hbm, 236, rfl⟩
abbrev main_call2_v6 : Ref sig .tc := ⟨.hbm, 237, rfl⟩
abbrev main_call2_v7 : Ref sig .tc := ⟨.hbm, 238, rfl⟩
abbrev main_v144 : Ref sig .tc := ⟨.hbm, 239, rfl⟩
abbrev main_c_28 : Ref sig .tc := ⟨.hbm, 240, rfl⟩
abbrev main_v145 : Ref sig .tc := ⟨.hbm, 241, rfl⟩
abbrev main_v146 : Ref sig .tc := ⟨.hbm, 242, rfl⟩
abbrev main_c_29 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_cst_30 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_cst_31 : Ref sig .tc := ⟨.hbm, 263, rfl⟩
abbrev main_v165 : Ref sig .tc := ⟨.hbm, 264, rfl⟩
abbrev main_cst_32 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_cst_33 : Ref sig .tc := ⟨.hbm, 273, rfl⟩
abbrev main_v173 : Ref sig .tc := ⟨.hbm, 274, rfl⟩
abbrev main_cst_34 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_cst_35 : Ref sig .tc := ⟨.hbm, 279, rfl⟩
abbrev main_v177 : Ref sig .tc := ⟨.hbm, 280, rfl⟩
abbrev main_cst_36 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_cst_37 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x3_S3200000x1x3_0_2 : S3200000x3.BroadcastsInDim S3200000x1x3 (![0, 2] : Fin 2 → Fin S3200000x1x3.rank)
  bcast_S3x3_S1x3x3_1_2 : S3x3.BroadcastsInDim S1x3x3 (![1, 2] : Fin 2 → Fin S1x3x3.rank)
  bcast_S3200000x1x3_S3200000x3x3_0_1_2 : S3200000x1x3.BroadcastsInDim S3200000x3x3 (![0, 1, 2] : Fin 3 → Fin S3200000x3x3.rank)
  bcast_S1x3x3_S3200000x3x3_0_1_2 : S1x3x3.BroadcastsInDim S3200000x3x3 (![0, 1, 2] : Fin 3 → Fin S3200000x3x3.rank)
  bcast_S_S1x3x3 : S_.BroadcastsInDim S1x3x3 (![] : Fin 0 → Fin S1x3x3.rank)
  reducesTo_S3200000x3x3_S3200000x3_d2 : S3200000x3x3.ReducesTo [2] S3200000x3
  h_S_ : 0 < S_.numel
  bcast_S_S3200000x3 : S_.BroadcastsInDim S3200000x3 (![] : Fin 0 → Fin S3200000x3.rank)
  shapeCasts_S3200000x24_S3200000x3x8 : S3200000x24.ShapeCasts S3200000x3x8
  bcast_S3200000x3_S3200000x3x1_0_1 : S3200000x3.BroadcastsInDim S3200000x3x1 (![0, 1] : Fin 2 → Fin S3200000x3x1.rank)
  bcast_S3200000x3x1_S3200000x3x8_0_1_2 : S3200000x3x1.BroadcastsInDim S3200000x3x8 (![0, 1, 2] : Fin 3 → Fin S3200000x3x8.rank)
  reducesTo_S3200000x3x8_S3200000x8_d1 : S3200000x3x8.ReducesTo [1] S3200000x8
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S3200000x48_S3200000x3x16 : S3200000x48.ShapeCasts S3200000x3x16
  bcast_S3200000x3x1_S3200000x3x16_0_1_2 : S3200000x3x1.BroadcastsInDim S3200000x3x16 (![0, 1, 2] : Fin 3 → Fin S3200000x3x16.rank)
  reducesTo_S3200000x3x16_S3200000x16_d1 : S3200000x3x16.ReducesTo [1] S3200000x16
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S3200000x12_S3200000x3x4 : S3200000x12.ShapeCasts S3200000x3x4
  bcast_S3200000x3x1_S3200000x3x4_0_1_2 : S3200000x3x1.BroadcastsInDim S3200000x3x4 (![0, 1, 2] : Fin 3 → Fin S3200000x3x4.rank)
  reducesTo_S3200000x3x4_S3200000x4_d1 : S3200000x3x4.ReducesTo [1] S3200000x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x3_S3200000x1_S3200000x3_1_0_n_n_0_1_13_wf : GatherDims.WF S100000x3 S3200000x1 S3200000x3 [1] [0] [] [0] [] 1 ![1, 3]
  dot_S3200000x3_S3x24_S3200000x24_1_0_0_1_n_n_wf : DotDims.WF S3200000x3 S3x24 S3200000x24 [1] [0] [0] [1] [] []
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x3_S3x8_S100000x8_1_0_0_1_n_n_wf : DotDims.WF S100000x3 S3x8 S100000x8 [1] [0] [0] [1] [] []
  gather_S100000x8_S3200000x1_S3200000x8_1_0_n_n_0_1_18_wf : GatherDims.WF S100000x8 S3200000x1 S3200000x8 [1] [0] [] [0] [] 1 ![1, 8]
  dot_S3200000x8_S8x48_S3200000x48_1_0_0_1_n_n_wf : DotDims.WF S3200000x8 S8x48 S3200000x48 [1] [0] [0] [1] [] []
  scatter_S100000x16_S3200000x1_S3200000x16_1_0_0_1_wf : ScatterDims.WF S100000x16 S3200000x1 S3200000x16 [1] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  dot_S3200000x16_S16x24_S3200000x24_1_0_0_1_n_n_wf : DotDims.WF S3200000x16 S16x24 S3200000x24 [1] [0] [0] [1] [] []
  dot_S100000x16_S16x8_S100000x8_1_0_0_1_n_n_wf : DotDims.WF S100000x16 S16x8 S100000x8 [1] [0] [0] [1] [] []
  dot_S3200000x8_S8x12_S3200000x12_1_0_0_1_n_n_wf : DotDims.WF S3200000x8 S8x12 S3200000x12 [1] [0] [0] [1] [] []
  scatter_S100000x4_S3200000x1_S3200000x4_1_0_0_1_wf : ScatterDims.WF S100000x4 S3200000x1 S3200000x4 [1] [0] [0] 1
  dot_S100000x8_S8x4_S100000x4_1_0_0_1_n_n_wf : DotDims.WF S100000x8 S8x4 S100000x4 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x3_S3x24_S3200000x24_1_0_0_1_n_n : DotDims S3200000x3 S3x24 S3200000x24 where
  lhsContracting := [1]
  rhsContracting := [0]
  lhsNonContracting := [0]
  rhsNonContracting := [1]
  lhsBatch := []
  rhsBatch := []
  wf := dot_S3200000x3_S3x24_S3200000x24_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x3_S3x8_S100000x8_1_0_0_1_n_n : DotDims S100000x3 S3x8 S100000x8 where
  lhsContracting := [1]
  rhsContracting := [0]
  lhsNonContracting := [0]
  rhsNonContracting := [1]
  lhsBatch := []
  rhsBatch := []
  wf := dot_S100000x3_S3x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x8_S8x48_S3200000x48_1_0_0_1_n_n : DotDims S3200000x8 S8x48 S3200000x48 where
  lhsContracting := [1]
  rhsContracting := [0]
  lhsNonContracting := [0]
  rhsNonContracting := [1]
  lhsBatch := []
  rhsBatch := []
  wf := dot_S3200000x8_S8x48_S3200000x48_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x16_S16x24_S3200000x24_1_0_0_1_n_n : DotDims S3200000x16 S16x24 S3200000x24 where
  lhsContracting := [1]
  rhsContracting := [0]
  lhsNonContracting := [0]
  rhsNonContracting := [1]
  lhsBatch := []
  rhsBatch := []
  wf := dot_S3200000x16_S16x24_S3200000x24_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S3200000x8_S8x12_S3200000x12_1_0_0_1_n_n : DotDims S3200000x8 S8x12 S3200000x12 where
  lhsContracting := [1]
  rhsContracting := [0]
  lhsNonContracting := [0]
  rhsNonContracting := [1]
  lhsBatch := []
  rhsBatch := []
  wf := dot_S3200000x8_S8x12_S3200000x12_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf

class Facts : Prop extends Facts₀ where

variable [Facts]
-- ==== Proof.KGlue.lean ====
import proofs.«109075_j6828998001340_1_alg».proof.KernelIdeal
import proofs.«109075_j6828998001340_1_alg».proof.Proof.Gen.KernelIdeal
import Idealize.ShloMosaic.Lib.ValueIdx

noncomputable section

namespace Cert.KernelIdeal.KV

open Cert.KernelIdeal Cert.KernelIdeal.Gen Idealize.ShloMosaic Idealize.ShloMosaic.ValueIdx

abbrev FA (S : Shape) : Type := (⟨S, .f32⟩ : BufTy).Contents (Elt Ideal)

abbrev IA (S : Shape) : Type := (⟨S, .i32⟩ : BufTy).Contents (Elt Ideal)

abbrev r0 {n0 n1 : Nat} (j : (⟨2, ![n0, n1]⟩ : Shape).Idx) : Fin n0 := ⟨(j 0).val, idx2_lt0 j⟩

abbrev c1 {n0 n1 : Nat} (j : (⟨2, ![n0, n1]⟩ : Shape).Idx) : Fin n1 := ⟨(j 1).val, idx2_lt1 j⟩

def src (a1 : IA S2x3200000) : IA S3200000 :=
  shapeCast S3200000 (extractStridedSlice S1x3200000 ![0, 0] a1 slices_S2x3200000_S1x3200000_0_0) shapeCasts_S1x3200000_S3200000

def dst (a1 : IA S2x3200000) : IA S3200000 :=
  shapeCast S3200000 (extractStridedSlice S1x3200000 ![1, 0] a1 slices_S2x3200000_S1x3200000_1_0) shapeCasts_S1x3200000_S3200000

def srcIdx (a1 : IA S2x3200000) : IA S3200000x1 :=
  broadcastInDim S3200000x1 ![0] bcast_S3200000_S3200000x1_0
    (select (cmpi .slt (src a1) (broadcastInDim S3200000 ![] bcast_S_S3200000 (constantI S_ 32 0#32)))
      (addi (src a1) (broadcastInDim S3200000 ![] bcast_S_S3200000 (constantI S_ 32 100000#32))) (src a1))

def dstIdx (a1 : IA S2x3200000) : IA S3200000x1 := broadcastInDim S3200000x1 ![0] bcast_S3200000_S3200000x1_0 (dst a1)

def cnt (a1 : IA S2x3200000) : FA S100000 :=
  Host.scatterAdd (F := Ideal) scatter_S100000_S3200000x1_S3200000_n_0_0_1
    (broadcastInDim S100000 ![] bcast_S_S100000 (constant (F := Ideal) S_ .f32 0x00000000#32)) (dstIdx a1)
    (broadcastInDim S3200000 ![] bcast_S_S3200000 (constant (F := Ideal) S_ .f32 0x3F800000#32))

def mx (a1 : IA S2x3200000) : FA S100000 :=
  maximumf (F := Ideal) (cnt a1) (broadcastInDim S100000 ![] bcast_S_S100000 (constant (F := Ideal) S_ .f32 0x3F800000#32))

def cinv (a1 : IA S2x3200000) : FA S100000x1 :=
  shapeCast S100000x1 (Host.divf (F := Ideal) (broadcastInDim S100000 ![] bcast_S_S100000 (constant (F := Ideal) S_ .f32 0x3F800000#32)) (mx a1))
    shapeCasts_S100000_S100000x1

def padv : FA S_ := sitofp (F := Ideal) .f32 (constantI S_ 32 0#32)

def cPad (C : FA S100000x1) : FA S102400x1 :=
  pad S102400x1 ![0, 0] ![2400, 0] ![0, 0] C padv pads_S100000x1_S102400x1_024000_000 h_S_

end Cert.KernelIdeal.KV

end
-- ==== Proof.Spec.lean ====
import Idealize.ShloMosaic.PureOps.Ideal
import Idealize.ShloMosaic.Lib.ValueIdx

noncomputable section

open scoped BigOperators

namespace Cert.GMM

open Idealize.ShloMosaic

variable {cin kc cout : Nat}

-- The Gaussian weight of mixture component `k` at the pseudo-coordinates `ea`.
def gauss (ea : Fin 3 → EReal) (mu sg : Fin 3 → Fin 3 → EReal) (k : Fin 3) : EReal :=
  Ideal.exp (Ideal.ofBits .f32 0xBF000000#32 *
    ∑ d : Fin 3, Ideal.div ((ea d - mu k d) * (ea d - mu k d)) (Ideal.ofBits .f32 0x26901D7D#32 + sg k d * sg k d))

def proj (xj : Fin cin → EReal) (g : Fin cin → Fin kc → EReal) (q : Fin kc) : EReal := ∑ i : Fin cin, xj i * g i q

theorem col_lt (hk : 3 * cout ≤ kc) (k : Fin 3) (o : Fin cout) : k.val * cout + o.val < kc := by
  have := Nat.mul_le_mul_right cout (Nat.le_of_lt_succ k.isLt)
  omega

-- One edge's message on channel `o`: component `k` reads column `k · cout + o` of the projected source features.
def edgeMsg (hk : 3 * cout ≤ kc) (xj : Fin cin → EReal) (ea : Fin 3 → EReal) (g : Fin cin → Fin kc → EReal) (mu sg : Fin 3 → Fin 3 → EReal)
    (o : Fin cout) : EReal :=
  ∑ k : Fin 3, proj xj g ⟨k.val * cout + o.val, col_lt hk k o⟩ * gauss ea mu sg k

def lin (h : Fin cin → EReal) (root : Fin cin → Fin cout → EReal) (o : Fin cout) : EReal := ∑ i : Fin cin, h i * root i o

def elu (x : EReal) : EReal := if 0 < x then x else Ideal.exp x - 1

-- The node update with the summed messages TIMES the reciprocal count; `act` is the layer's closing step.
def nodeK (act : EReal → EReal) (h : Fin cin → EReal) (root : Fin cin → Fin cout → EReal) (b : Fin cout → EReal) (agg cinv : EReal)
    (o : Fin cout) : EReal :=
  act (agg * cinv + lin h root o + b o)

-- The same with the summed messages DIVIDED by the clamped count.
def nodeR (act : EReal → EReal) (h : Fin cin → EReal) (root : Fin cin → Fin cout → EReal) (b : Fin cout → EReal) (agg mx : EReal)
    (o : Fin cout) : EReal :=
  act (Ideal.div agg mx + lin h root o + b o)

-- A divisor that is at least one is not zero, so dividing by it is multiplying by its reciprocal (both are zero at ⊤).
theorem div_eq_mul_recip (x mx : EReal) (hmx : 1 ≤ mx) : Ideal.div x mx = x * Ideal.div 1 mx := by
  have h0 : mx ≠ 0 := fun h => absurd (h ▸ hmx) (not_le.mpr zero_lt_one)
  unfold Ideal.div
  rw [if_neg h0, if_neg h0, one_mul]

theorem nodeK_eq_nodeR (act : EReal → EReal) (h : Fin cin → EReal) (root : Fin cin → Fin cout → EReal) (b : Fin cout → EReal) (agg mx : EReal)
    (hmx : 1 ≤ mx) (o : Fin cout) : nodeK act h root b agg (Ideal.div 1 mx) o = nodeR act h root b agg mx o := by
  unfold nodeK nodeR; rw [div_eq_mul_recip agg mx hmx]

end Cert.GMM

end
-- ==== Proof.KDefs1.lean ====
import proofs.«109075_j6828998001340_1_alg».proof.KernelIdeal
import proofs.«109075_j6828998001340_1_alg».proof.Proof.Gen.KernelIdeal
import proofs.«109075_j6828998001340_1_alg».proof.Proof.KGlue
import proofs.«109075_j6828998001340_1_alg».proof.Proof.Spec
import Idealize.ShloMosaic.Lib.ValueIdx

noncomputable section

namespace Cert.KernelIdeal.KV.L1

open Cert.KernelIdeal Cert.KernelIdeal.Gen Cert.KernelIdeal.KV Idealize.ShloMosaic Idealize.ShloMosaic.ValueIdx

def EdgeG (xp : FA S3203072x3) (eap : FA S3203072x3) (g : FA S3x24) (mu sg : FA S3x3) : FA S3203072x8 :=
  fun i => Cert.GMM.edgeMsg (by decide) (fun d => xp (ix2 (r0 i) d)) (fun d => eap (ix2 (r0 i) d)) (fun a b => g (ix2 a b))
    (fun a b => mu (ix2 a b)) (fun a b => sg (ix2 a b)) (c1 i)

def NodeG (hp : FA S102400x3) (root : FA S3x8) (b2 : FA S1x8) (aggp : FA S102400x8) (cp : FA S102400x1) : FA S102400x8 :=
  fun i => Cert.GMM.nodeK Cert.GMM.elu (fun d => hp (ix2 (r0 i) d)) (fun a b => root (ix2 a b)) (fun o => b2 (ix2 (0 : Fin 1) o))
    (aggp (ix2 (r0 i) (c1 i))) (cp (ix2 (r0 i) (0 : Fin 1))) (c1 i)

def xjPad (h : FA S100000x3) (a1 : IA S2x3200000) : FA S3203072x3 :=
  pad S3203072x3 ![0, 0] ![3072, 0] ![0, 0] (Host.gather gather_S100000x3_S3200000x1_S3200000x3_1_0_n_n_0_1_13 h (srcIdx a1)) padv
    pads_S3200000x3_S3203072x3_030720_000 h_S_

def eaPad (ea : FA S3200000x3) : FA S3203072x3 :=
  pad S3203072x3 ![0, 0] ![3072, 0] ![0, 0] ea padv pads_S3200000x3_S3203072x3_030720_000 h_S_

def msg (h : FA S100000x3) (a1 : IA S2x3200000) (ea : FA S3200000x3) (g : FA S3x24) (mu sg : FA S3x3) : FA S3200000x8 :=
  extractStridedSlice S3200000x8 ![0, 0] (EdgeG (xjPad h a1) (eaPad ea) g mu sg) slices_S3203072x8_S3200000x8_0_0

def agg (h : FA S100000x3) (a1 : IA S2x3200000) (ea : FA S3200000x3) (g : FA S3x24) (mu sg : FA S3x3) : FA S100000x8 :=
  Host.scatterAdd (F := Ideal) scatter_S100000x8_S3200000x1_S3200000x8_1_0_0_1
    (broadcastInDim S100000x8 ![] bcast_S_S100000x8 (constant (F := Ideal) S_ .f32 0x00000000#32)) (dstIdx a1) (msg h a1 ea g mu sg)

def hPad (h : FA S100000x3) : FA S102400x3 :=
  pad S102400x3 ![0, 0] ![2400, 0] ![0, 0] h padv pads_S100000x3_S102400x3_024000_000 h_S_

def aggPad (A : FA S100000x8) : FA S102400x8 :=
  pad S102400x8 ![0, 0] ![2400, 0] ![0, 0] A padv pads_S100000x8_S102400x8_024000_000 h_S_

def layer (h : FA S100000x3) (a1 : IA S2x3200000) (ea : FA S3200000x3) (g : FA S3x24) (mu sg : FA S3x3) (root : FA S3x8) (b : FA S8) :
    FA S100000x8 :=
  extractStridedSlice S100000x8 ![0, 0]
    (NodeG (hPad h) root
      (shapeCast S1x8 b shapeCasts_S8_S1x8)
      (aggPad (agg h a1 ea g mu sg))
      (cPad (cinv a1)))
    slices_S102400x8_S100000x8_0_0

end Cert.KernelIdeal.KV.L1

end
-- ==== Proof.KDefs2.lean ====
import proofs.«109075_j6828998001340_1_alg».proof.KernelIdeal
import proofs.«109075_j6828998001340_1_alg».proof.Proof.Gen.KernelIdeal
import proofs.«109075_j6828998001340_1_alg».proof.Proof.KGlue
import proofs.«109075_j6828998001340_1_alg».proof.Proof.Spec
import Idealize.ShloMosaic.Lib.ValueIdx

noncomputable section

namespace Cert.KernelIdeal.KV.L2

open Cert.KernelIdeal Cert.KernelIdeal.Gen Cert.KernelIdeal.KV Idealize.ShloMosaic Idealize.ShloMosaic.ValueIdx

def EdgeG (xp : FA S3203072x8) (eap : FA S3203072x3) (g : FA S8x48) (mu sg : FA S3x3) : FA S3203072x16 :=
  fun i => Cert.GMM.edgeMsg (by decide) (fun d => xp (ix2 (r0 i) d)) (fun d => eap (ix2 (r0 i) d)) (fun a b => g (ix2 a b))
    (fun a b => mu (ix2 a b)) (fun a b => sg (ix2 a b)) (c1 i)

def NodeG (hp : FA S102400x8) (root : FA S8x16) (b2 : FA S1x16) (aggp : FA S102400x16) (cp : FA S102400x1) : FA S102400x16 :=
  fun i => Cert.GMM.nodeK Cert.GMM.elu (fun d => hp (ix2 (r0 i) d)) (fun a b => root (ix2 a b)) (fun o => b2 (ix2 (0 : Fin 1) o))
    (aggp (ix2 (r0 i) (c1 i))) (cp (ix2 (r0 i) (0 : Fin 1))) (c1 i)

def xjPad (h : FA S100000x8) (a1 : IA S2x3200000) : FA S3203072x8 :=
  pad S3203072x8 ![0, 0] ![3072, 0] ![0, 0] (Host.gather gather_S100000x8_S3200000x1_S3200000x8_1_0_n_n_0_1_18 h (srcIdx a1)) padv
    pads_S3200000x8_S3203072x8_030720_000 h_S_

def eaPad (ea : FA S3200000x3) : FA S3203072x3 :=
  pad S3203072x3 ![0, 0] ![3072, 0] ![0, 0] ea padv pads_S3200000x3_S3203072x3_030720_000 h_S_

def msg (h : FA S100000x8) (a1 : IA S2x3200000) (ea : FA S3200000x3) (g : FA S8x48) (mu sg : FA S3x3) : FA S3200000x16 :=
  extractStridedSlice S3200000x16 ![0, 0] (EdgeG (xjPad h a1) (eaPad ea) g mu sg) slices_S3203072x16_S3200000x16_0_0

def agg (h : FA S100000x8) (a1 : IA S2x3200000) (ea : FA S3200000x3) (g : FA S8x48) (mu sg : FA S3x3) : FA S100000x16 :=
  Host.scatterAdd (F := Ideal) scatter_S100000x16_S3200000x1_S3200000x16_1_0_0_1
    (broadcastInDim S100000x16 ![] bcast_S_S100000x16 (constant (F := Ideal) S_ .f32 0x00000000#32)) (dstIdx a1) (msg h a1 ea g mu sg)

def hPad (h : FA S100000x8) : FA S102400x8 :=
  pad S102400x8 ![0, 0] ![2400, 0] ![0, 0] h padv pads_S100000x8_S102400x8_024000_000 h_S_

def aggPad (A : FA S100000x16) : FA S102400x16 :=
  pad S102400x16 ![0, 0] ![2400, 0] ![0, 0] A padv pads_S100000x16_S102400x16_024000_000 h_S_

def layer (h : FA S100000x8) (a1 : IA S2x3200000) (ea : FA S3200000x3) (g : FA S8x48) (mu sg : FA S3x3) (root : FA S8x16) (b : FA S16) :
    FA S100000x16 :=
  extractStridedSlice S100000x16 ![0, 0]
    (NodeG (hPad h) root
      (shapeCast S1x16 b shapeCasts_S16_S1x16)
      (aggPad (agg h a1 ea g mu sg))
      (cPad (cinv a1)))
    slices_S102400x16_S100000x16_0_0

end Cert.KernelIdeal.KV.L2

end
-- ==== Proof.KDefs3.lean ====
import proofs.«109075_j6828998001340_1_alg».proof.KernelIdeal
import proofs.«109075_j6828998001340_1_alg».proof.Proof.Gen.KernelIdeal
import proofs.«109075_j6828998001340_1_alg».proof.Proof.KGlue
import proofs.«109075_j6828998001340_1_alg».proof.Proof.Spec
import Idealize.ShloMosaic.Lib.ValueIdx

noncomputable section

namespace Cert.KernelIdeal.KV.L3

open Cert.KernelIdeal Cert.KernelIdeal.Gen Cert.KernelIdeal.KV Idealize.ShloMosaic Idealize.ShloMosaic.ValueIdx

def EdgeG (xp : FA S3203072x16) (eap : FA S3203072x3) (g : FA S16x24) (mu sg : FA S3x3) : FA S3203072x8 :=
  fun i => Cert.GMM.edgeMsg (by decide) (fun d => xp (ix2 (r0 i) d)) (fun d => eap (ix2 (r0 i) d)) (fun a b => g (ix2 a b))
    (fun a b => mu (ix2 a b)) (fun a b => sg (ix2 a b)) (c1 i)

def NodeG (hp : FA S102400x16) (root : FA S16x8) (b2 : FA S1x8) (aggp : FA S102400x8) (cp : FA S102400x1) : FA S102400x8 :=
  fun i => Cert.GMM.nodeK Cert.GMM.elu (fun d => hp (ix2 (r0 i) d)) (fun a b => root (ix2 a b)) (fun o => b2 (ix2 (0 : Fin 1) o))
    (aggp (ix2 (r0 i) (c1 i))) (cp (ix2 (r0 i) (0 : Fin 1))) (c1 i)

def xjPad (h : FA S100000x16) (a1 : IA S2x3200000) : FA S3203072x16 :=
  pad S3203072x16 ![0, 0] ![3072, 0] ![0, 0] (Host.gather gather_S100000x16_S3200000x1_S3200000x16_1_0_n_n_0_1_116 h (srcIdx a1)) padv
    pads_S3200000x16_S3203072x16_030720_000 h_S_

def eaPad (ea : FA S3200000x3) : FA S3203072x3 :=
  pad S3203072x3 ![0, 0] ![3072, 0] ![0, 0] ea padv pads_S3200000x3_S3203072x3_030720_000 h_S_

def msg (h : FA S100000x16) (a1 : IA S2x3200000) (ea : FA S3200000x3) (g : FA S16x24) (mu sg : FA S3x3) : FA S3200000x8 :=
  extractStridedSlice S3200000x8 ![0, 0] (EdgeG (xjPad h a1) (eaPad ea) g mu sg) slices_S3203072x8_S3200000x8_0_0

def agg (h : FA S100000x16) (a1 : IA S2x3200000) (ea : FA S3200000x3) (g : FA S16x24) (mu sg : FA S3x3) : FA S100000x8 :=
  Host.scatterAdd (F := Ideal) scatter_S100000x8_S3200000x1_S3200000x8_1_0_0_1
    (broadcastInDim S100000x8 ![] bcast_S_S100000x8 (constant (F := Ideal) S_ .f32 0x00000000#32)) (dstIdx a1) (msg h a1 ea g mu sg)

def hPad (h : FA S100000x16) : FA S102400x16 :=
  pad S102400x16 ![0, 0] ![2400, 0] ![0, 0] h padv pads_S100000x16_S102400x16_024000_000 h_S_

def aggPad (A : FA S100000x8) : FA S102400x8 :=
  pad S102400x8 ![0, 0] ![2400, 0] ![0, 0] A padv pads_S100000x8_S102400x8_024000_000 h_S_

def layer (h : FA S100000x16) (a1 : IA S2x3200000) (ea : FA S3200000x3) (g : FA S16x24) (mu sg : FA S3x3) (root : FA S16x8) (b : FA S8) :
    FA S100000x8 :=
  extractStridedSlice S100000x8 ![0, 0]
    (NodeG (hPad h) root
      (shapeCast S1x8 b shapeCasts_S8_S1x8)
      (aggPad (agg h a1 ea g mu sg))
      (cPad (cinv a1)))
    slices_S102400x8_S100000x8_0_0

end Cert.KernelIdeal.KV.L3

end
-- ==== Proof.KDefs4.lean ====
import proofs.«109075_j6828998001340_1_alg».proof.KernelIdeal
import proofs.«109075_j6828998001340_1_alg».proof.Proof.Gen.KernelIdeal
import proofs.«109075_j6828998001340_1_alg».proof.Proof.KGlue
import proofs.«109075_j6828998001340_1_alg».proof.Proof.Spec
import Idealize.ShloMosaic.Lib.ValueIdx

noncomputable section

namespace Cert.KernelIdeal.KV.L4

open Cert.KernelIdeal Cert.KernelIdeal.Gen Cert.KernelIdeal.KV Idealize.ShloMosaic Idealize.ShloMosaic.ValueIdx

def EdgeG (xp : FA S3203072x8) (eap : FA S3203072x3) (g : FA S8x12) (mu sg : FA S3x3) : FA S3203072x4 :=
  fun i => Cert.GMM.edgeMsg (by decide) (fun d => xp (ix2 (r0 i) d)) (fun d => eap (ix2 (r0 i) d)) (fun a b => g (ix2 a b))
    (fun a b => mu (ix2 a b)) (fun a b => sg (ix2 a b)) (c1 i)

def NodeG (hp : FA S102400x8) (root : FA S8x4) (b2 : FA S1x4) (aggp : FA S102400x4) (cp : FA S102400x1) : FA S102400x4 :=
  fun i => Cert.GMM.nodeK id (fun d => hp (ix2 (r0 i) d)) (fun a b => root (ix2 a b)) (fun o => b2 (ix2 (0 : Fin 1) o))
    (aggp (ix2 (r0 i) (c1 i))) (cp (ix2 (r0 i) (0 : Fin 1))) (c1 i)

def xjPad (h : FA S100000x8) (a1 : IA S2x3200000) : FA S3203072x8 :=
  pad S3203072x8 ![0, 0] ![3072, 0] ![0, 0] (Host.gather gather_S100000x8_S3200000x1_S3200000x8_1_0_n_n_0_1_18 h (srcIdx a1)) padv
    pads_S3200000x8_S3203072x8_030720_000 h_S_

def eaPad (ea : FA S3200000x3) : FA S3203072x3 :=
  pad S3203072x3 ![0, 0] ![3072, 0] ![0, 0] ea padv pads_S3200000x3_S3203072x3_030720_000 h_S_

def msg (h : FA S100000x8) (a1 : IA S2x3200000) (ea : FA S3200000x3) (g : FA S8x12) (mu sg : FA S3x3) : FA S3200000x4 :=
  extractStridedSlice S3200000x4 ![0, 0] (EdgeG (xjPad h a1) (eaPad ea) g mu sg) slices_S3203072x4_S3200000x4_0_0

def agg (h : FA S100000x8) (a1 : IA S2x3200000) (ea : FA S3200000x3) (g : FA S8x12) (mu sg : FA S3x3) : FA S100000x4 :=
  Host.scatterAdd (F := Ideal) scatter_S100000x4_S3200000x1_S3200000x4_1_0_0_1
    (broadcastInDim S100000x4 ![] bcast_S_S100000x4 (constant (F := Ideal) S_ .f32 0x00000000#32)) (dstIdx a1) (msg h a1 ea g mu sg)

def hPad (h : FA S100000x8) : FA S102400x8 :=
  pad S102400x8 ![0, 0] ![2400, 0] ![0, 0] h padv pads_S100000x8_S102400x8_024000_000 h_S_

def aggPad (A : FA S100000x4) : FA S102400x4 :=
  pad S102400x4 ![0, 0] ![2400, 0] ![0, 0] A padv pads_S100000x4_S102400x4_024000_000 h_S_

def layer (h : FA S100000x8) (a1 : IA S2x3200000) (ea : FA S3200000x3) (g : FA S8x12) (mu sg : FA S3x3) (root : FA S8x4) (b : FA S4) :
    FA S100000x4 :=
  extractStridedSlice S100000x4 ![0, 0]
    (NodeG (hPad h) root
      (shapeCast S1x4 b shapeCasts_S4_S1x4)
      (aggPad (agg h a1 ea g mu sg))
      (cPad (cinv a1)))
    slices_S102400x4_S100000x4_0_0

end Cert.KernelIdeal.KV.L4

end
-- ==== Proof.KFoldIface.lean ====
import proofs.«109075_j6828998001340_1_alg».proof.Proof.Gen.KernelIdeal.Frame
import proofs.«109075_j6828998001340_1_alg».proof.Proof.KDefs1
import proofs.«109075_j6828998001340_1_alg».proof.Proof.KDefs2
import proofs.«109075_j6828998001340_1_alg».proof.Proof.KDefs3
import proofs.«109075_j6828998001340_1_alg».proof.Proof.KDefs4
import Idealize.ShloMosaic.Lib.ValueIdx
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

abbrev arg (c : Dev nD) (b : Ref sig .tc) : Buf (Elt Ideal) ((c.tc : Thread nD τ).loc b) := m ((c.tc : Thread nD τ).loc b)
macro "fold_back1" : tactic => `(tactic| first
  | with_reducible refine Eq.trans (W5_of_ne _ _ _ _ (by decide)) ?_
  | with_reducible refine Eq.trans (W12_of_ne _ _ _ _ (by decide)) ?_
  | with_reducible refine Eq.trans (W17_of_ne _ _ _ _ (by decide)) ?_
  | with_reducible refine Eq.trans (W24_of_ne _ _ _ _ (by decide)) ?_
  | with_reducible refine Eq.trans (W29_of_ne _ _ _ _ (by decide)) ?_
  | with_reducible refine Eq.trans (W36_of_ne _ _ _ _ (by decide)) ?_
  | with_reducible refine Eq.trans (W41_of_ne _ _ _ _ (by decide)) ?_
  | with_reducible refine Eq.trans (W48_of_ne _ _ _ _ (by decide)) ?_
  | with_reducible refine Eq.trans (StableHlo.after_of_forall_not_mem _ _ (List.forall_iff_forall_mem.mp (by
      simp only [hostOps0, hostOps0_1, hostOps0_2, hostOps0_3, hostOps1, hostOps1_1, hostOps1_2, hostOps1_3, hostOps1_4, hostOps1_5, hostOps2, hostOps2_1, hostOps2_2, hostOps2_3, hostOps3, hostOps3_1, hostOps3_2, hostOps3_3, hostOps3_4, hostOps3_5, hostOps4, hostOps4_1, hostOps4_2, hostOps4_3, hostOps5, hostOps5_1, hostOps5_2, hostOps5_3, hostOps5_4, hostOps5_5, hostOps6, hostOps6_1, hostOps6_2, hostOps6_3, hostOps7, hostOps7_1, hostOps7_2, hostOps7_3, hostOps7_4, hostOps7_5, hostOps8,
        List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))) ?_)
macro "fold_carry " h:term : tactic => `(tactic| (repeat (first | (with_reducible exact $h) | fold_back1)))
macro "fold_launch" : tactic => `(tactic| ((repeat fold_back1); rfl))

end Cert.KernelIdeal.KV

end
-- ==== Proof.KLib.lean ====
import proofs.«109075_j6828998001340_1_alg».proof.Proof.KGlue
import Idealize.ShloMosaic.Lib.ValueLayout
import Idealize.ShloMosaic.Lib.Pipeline.Value
import Idealize.ShloMosaic.Lib.StackMember
import Idealize.ShloMosaic.Lib.IdealHost
import Idealize.ShloMosaic.PureOps.Ideal.Laws

noncomputable section

open scoped BigOperators

namespace Cert.KernelIdeal.KV

open Cert.KernelIdeal Cert.KernelIdeal.Gen Idealize.ShloMosaic Idealize.ShloMosaic.TcCoe Idealize.ShloMosaic.ValueIdx

theorem hz : (![0, 0] : Fin 2 → Nat) = fun _ => 0 := funext fun a => by fin_cases a <;> rfl

-- A matrix product into the zero accumulator is the plain product: at an entry, the sum over the contracted coordinate.
theorem mm_at {m k n : Nat} {φ₁ φ₂ : FTy} (A : FVec Ideal ⟨2, ![m, k]⟩ φ₁) (B : FVec Ideal ⟨2, ![k, n]⟩ φ₂) (r : Fin m) (q : Fin n) :
    matmul (DotDims.plain m k n) none A B (constant (F := Ideal) ⟨2, ![m, n]⟩ .f32 0x00000000#32) (ix2 r q)
      = ∑ i : Fin k, A (ix2 r i) * B (ix2 i q) := by
  rw [matmul_zero_eq_dotGeneral]
  exact StackMember.dotGeneral_plain_apply none A B r q

section Layout
variable {α : Type}

theorem sliceRows_apply {N M C : Nat} (X : (⟨2, ![N, C]⟩ : Shape).Idx → α)
    (h : (⟨2, ![N, C]⟩ : Shape).Slices ![0, 0] ⟨2, ![M, C]⟩) (e : Fin M) (o : Fin C) (hMN : M ≤ N) :
    extractStridedSlice ⟨2, ![M, C]⟩ ![0, 0] X h (ix2 e o) = X (ix2 (⟨e.val, by omega⟩ : Fin N) o) :=
  slice2_axis0_apply 0 X h e o ⟨e.val, by omega⟩ (Nat.zero_add _).symm

-- Rows appended below a matrix leave its own rows where they were.
theorem padRows_apply {N P C hi : Nat} (x : (⟨2, ![N, C]⟩ : Shape).Idx → α) {u : Shape} (v : u.Idx → α)
    (h : (⟨2, ![N, C]⟩ : Shape).Pads ![0, 0] ![hi, 0] ![0, 0] ⟨2, ![P, C]⟩) (hu : 0 < u.numel)
    (e : Fin N) (d : Fin C) (p : Fin P) (hp : p.val = e.val) :
    pad ⟨2, ![P, C]⟩ ![0, 0] ![hi, 0] ![0, 0] x v h hu (ix2 p d) = x (ix2 e d) :=
  pad_apply_of_inside _ _ _ x v h hu _ (ix2 e d) (fun a => by
    match a with
    | ⟨0, _⟩ => show p.val = 0 + e.val * (0 + 1); omega
    | ⟨1, _⟩ => show d.val = 0 + d.val * (0 + 1); omega)

theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem col_at {c : Nat} (v : S4096x1.Idx → α) (h : S4096x1.Broadcasts ⟨2, ![4096, c]⟩) (r : Fin 4096) (o : Fin c) :
    broadcastTo ⟨2, ![4096, c]⟩ v h (ix2 r o) = v (ix2 r (0 : Fin 1)) :=
  broadcastTo_apply v h (ix2 r o) (ix2 r (0 : Fin 1)) fun ax => by
    match ax with
    | ⟨0, _⟩ => rfl
    | ⟨1, _⟩ => rfl

end Layout

theorem cinv_apply (a1 : IA S2x3200000) (n : Fin 100000) (u : Fin 1) :
    cinv a1 (ix2 n u) = Ideal.div 1 (mx a1 (ix1 n)) := by
  unfold cinv
  rw [shapeCast_a_a1_apply, hostDivf_apply, broadcastInDim_scalar_apply, constant_apply, Ideal.ofBits_one_f32]

theorem ld_row (x : Vec Ideal S3x3 .f32) (k : Nat) (hk : k < 3) (inb : ∀ a, (![k, 0] : Fin 2 → Nat) a + S1x3.size a ≤ S3x3.size a) (d : Fin 3) :
    View.ld x (Rect.unit (s := S3x3) ![k, 0] S1x3.size inb) (ix2 (0 : Fin 1) d) = x (ix2 (⟨k, hk⟩ : Fin 3) d) := by
  show x _ = x _
  refine congrArg x (funext fun a => Fin.ext ?_)
  match a with
  | ⟨0, _⟩ => show k + 1 * 0 = k; omega
  | ⟨1, _⟩ => show 0 + 1 * d.val = d.val; omega

theorem cast3_at (v : Vec Ideal S1x3 .f32) (d : Fin 3) : (shapeCast S3 v shapeCasts_S1x3_S3 : FVec Ideal S3 .f32) (ix1 d) = v (ix2 (0 : Fin 1) d) :=
  shapeCast_1a_a_apply v _ d

theorem cast13_at (s : FVec Ideal S3 .f32) (d : Fin 3) : shapeCast S1x3 s shapeCasts_S3_S1x3 (ix2 (0 : Fin 1) d) = s (ix1 d) :=
  shapeCast_a_1a_apply s _ 0 d

theorem bcastRow_at (t : FVec Ideal S1x3 .f32) (r : Fin 4096) (d : Fin 3) :
    broadcastTo S4096x3 t broadcasts_S1x3_S4096x3 (ix2 r d) = t (ix2 (0 : Fin 1) d) :=
  broadcastTo_1b_ab_apply t _ r d

theorem laneSum_at (z : FVec Ideal S4096x3 .f32) (r : Fin 4096) :
    multiReduction .add [1] S4096 z 0x00000000#32 reduces_S4096x3_S4096 (.inl rfl) rfl (ix1 r) = ∑ d : Fin 3, z (ix2 r d) := by
  refine (Ideal.multiReduction_add_single z 0x00000000#32 reduces_S4096x3_S4096 (.inl rfl) rfl (ix1 r)).trans ?_
  exact Finset.sum_congr rfl fun d _ => congrArg z (funext fun a => Fin.ext (by match a with | ⟨0, _⟩ => rfl | ⟨1, _⟩ => rfl))

-- One mixture component's weight from the centred coordinates `y` and the widths `t`, spread over the output channels.
theorem weight_at {c : Nat} (hb : S4096x1.Broadcasts ⟨2, ![4096, c]⟩) (y : FVec Ideal S4096x3 .f32) (t : FVec Ideal S1x3 .f32) (r : Fin 4096) (o : Fin c) :
    broadcastTo ⟨2, ![4096, c]⟩
      (exp (mulf (broadcast S4096x1 (Scalar.ofBits .f32 0xBF000000#32 : Ideal .f32))
        (shapeCast S4096x1
          (multiReduction .add [1] S4096
            (divf (mulf y y) (broadcastTo S4096x3 (addf (broadcast S1x3 (Scalar.ofBits .f32 0x26901D7D#32 : Ideal .f32)) (mulf t t)) broadcasts_S1x3_S4096x3))
            0x00000000#32 reduces_S4096x3_S4096 (.inl rfl) rfl)
          shapeCasts_S4096_S4096x1)))
      hb (ix2 r o)
    = Ideal.exp (Ideal.ofBits .f32 0xBF000000#32 * ∑ d : Fin 3, Ideal.div (y (ix2 r d) * y (ix2 r d)) (Ideal.ofBits .f32 0x26901D7D#32 + t (ix2 (0 : Fin 1) d) * t (ix2 (0 : Fin 1) d))) := by
  rw [col_at]
  show Ideal.exp (Ideal.ofBits .f32 0xBF000000#32 * shapeCast S4096x1 _ shapeCasts_S4096_S4096x1 (ix2 r 0)) = _
  rw [shapeCast_a_a1_apply, laneSum_at]
  refine congrArg (fun s => Ideal.exp (_ * s)) (Finset.sum_congr rfl fun d _ => ?_)
  show Ideal.div (y (ix2 r d) * y (ix2 r d)) (broadcastTo S4096x3 _ broadcasts_S1x3_S4096x3 (ix2 r d)) = _
  rw [bcastRow_at]
  rfl

theorem diff_at (e : FVec Ideal S4096x3 .f32) (v : Vec Ideal S1x3 .f32) (r : Fin 4096) (d : Fin 3) :
    subf e (broadcastTo S4096x3 (shapeCast S1x3 (shapeCast S3 v shapeCasts_S1x3_S3) shapeCasts_S3_S1x3) broadcasts_S1x3_S4096x3) (ix2 r d)
      = e (ix2 r d) - v (ix2 (0 : Fin 1) d) := by
  show e (ix2 r d) - broadcastTo S4096x3 _ broadcasts_S1x3_S4096x3 (ix2 r d) = _
  rw [bcastRow_at, cast13_at, cast3_at]

end Cert.KernelIdeal.KV

end
-- ==== Proof.KEdge1.lean ====
import proofs.«109075_j6828998001340_1_alg».proof.Proof.Gen.KernelIdeal.Frame
import proofs.«109075_j6828998001340_1_alg».proof.Proof.KDefs1
import proofs.«109075_j6828998001340_1_alg».proof.Proof.KLib

noncomputable section

open scoped BigOperators

namespace Cert.KernelIdeal.KV.L1.Edge

open Cert.KernelIdeal Cert.KernelIdeal.Gen Cert.KernelIdeal.KV Cert.KernelIdeal.KV.L1 Idealize.ShloMosaic Idealize.ShloMosaic.TcCoe Idealize.ShloMosaic.ValueIdx Idealize.SL.Sem

theorem proj_at (x0 : Vec Ideal S4096x3 .f32) (x2 : Vec Ideal S3x24 .f32) (r : Fin 4096) (q : Fin 24) :
    k0_pay2 (F := Ideal) x0 x2 (ix2 r q) = ∑ i : Fin 3, x0 (ix2 r i) * x2 (ix2 i q) := by
  unfold k0_pay2
  refine (mm_at _ _ r q).trans ?_
  simp only [truncf_apply, shapeCast_self]

theorem slice0_at (P : FVec Ideal S4096x24 .f32) (r : Fin 4096) (o : Fin 8) :
    extractStridedSlice S4096x8 ![0, 0] P slices_S4096x24_o0_0_S4096x8 (ix2 r o) = P (ix2 r (⟨0 * 8 + o.val, by omega⟩ : Fin 24)) :=
  extractStridedSlice_apply _ P _ (ix2 r o) _ (fun a => by match a with | ⟨0, _⟩ => (show r.val = 0 + r.val; omega) | ⟨1, _⟩ => (show 0 * 8 + o.val = 0 + o.val; omega))

theorem slice1_at (P : FVec Ideal S4096x24 .f32) (r : Fin 4096) (o : Fin 8) :
    extractStridedSlice S4096x8 ![0, 8] P slices_S4096x24_o0_8_S4096x8 (ix2 r o) = P (ix2 r (⟨1 * 8 + o.val, by omega⟩ : Fin 24)) :=
  extractStridedSlice_apply _ P _ (ix2 r o) _ (fun a => by match a with | ⟨0, _⟩ => (show r.val = 0 + r.val; omega) | ⟨1, _⟩ => (show 1 * 8 + o.val = 8 + o.val; omega))

theorem slice2_at (P : FVec Ideal S4096x24 .f32) (r : Fin 4096) (o : Fin 8) :
    extractStridedSlice S4096x8 ![0, 16] P slices_S4096x24_o0_16_S4096x8 (ix2 r o) = P (ix2 r (⟨2 * 8 + o.val, by omega⟩ : Fin 24)) :=
  extractStridedSlice_apply _ P _ (ix2 r o) _ (fun a => by match a with | ⟨0, _⟩ => (show r.val = 0 + r.val; omega) | ⟨1, _⟩ => (show 2 * 8 + o.val = 16 + o.val; omega))

theorem coords_eq (v6 : Vec Ideal S4096x3 .f32) : k0_pay3 (F := Ideal) v6 = v6 := by
  unfold k0_pay3; exact shapeCast_self _ _

theorem widths1_at (v35 : Vec Ideal S1x3 .f32) (d : Fin 3) : k0_pay5 (F := Ideal) v35 (ix1 d) = v35 (ix2 (0 : Fin 1) d) := by
  unfold k0_pay5; exact cast3_at v35 d

theorem centred1_at (v6 : Vec Ideal S4096x3 .f32) (v33 : Vec Ideal S1x3 .f32) (r : Fin 4096) (d : Fin 3) :
    k0_pay6 (F := Ideal) v6 v33 (ix2 r d) = v6 (ix2 r d) - v33 (ix2 (0 : Fin 1) d) := by
  unfold k0_pay6
  refine (diff_at (k0_pay3 (F := Ideal) v6) v33 r d).trans ?_
  rw [coords_eq]

theorem term0_at (v0 : Vec Ideal S4096x3 .f32) (v3 : Vec Ideal S3x24 .f32) (v6 : Vec Ideal S4096x3 .f32) (v9 v11 : Vec Ideal S1x3 .f32)
    (r : Fin 4096) (o : Fin 8) :
    k0_pay4 (F := Ideal) v0 v3 v6 v9 v11 (ix2 r o)
      = Ideal.ofBits .f32 0x00000000#32 + k0_pay2 (F := Ideal) v0 v3 (ix2 r (⟨0 * 8 + o.val, by omega⟩ : Fin 24))
          * Ideal.exp (Ideal.ofBits .f32 0xBF000000#32 * ∑ d : Fin 3,
              Ideal.div ((v6 (ix2 r d) - v9 (ix2 (0 : Fin 1) d)) * (v6 (ix2 r d) - v9 (ix2 (0 : Fin 1) d)))
                (Ideal.ofBits .f32 0x26901D7D#32 + v11 (ix2 (0 : Fin 1) d) * v11 (ix2 (0 : Fin 1) d))) := by
  unfold k0_pay4
  show Ideal.ofBits .f32 0x00000000#32
      + extractStridedSlice S4096x8 ![0, 0] (k0_pay2 (F := Ideal) v0 v3) slices_S4096x24_o0_0_S4096x8 (ix2 r o)
        * broadcastTo S4096x8 _ broadcasts_S4096x1_S4096x8 (ix2 r o) = _
  rw [slice0_at, weight_at]
  simp only [diff_at, cast13_at, cast3_at, coords_eq]

theorem stored_at (v5 : FVec Ideal S4096x24 .f32) (v7 : FVec Ideal S4096x3 .f32) (v32 : FVec Ideal S4096x8 .f32) (v36 : FVec Ideal S3 .f32)
    (v39 : FVec Ideal S4096x3 .f32) (v57 v59 : Vec Ideal S1x3 .f32) (r : Fin 4096) (o : Fin 8) :
    k0_pay1 (F := Ideal) v5 v7 v32 v36 v39 v57 v59 (ix2 r o)
      = v32 (ix2 r o)
        + v5 (ix2 r (⟨1 * 8 + o.val, by omega⟩ : Fin 24))
          * Ideal.exp (Ideal.ofBits .f32 0xBF000000#32 * ∑ d : Fin 3,
              Ideal.div (v39 (ix2 r d) * v39 (ix2 r d)) (Ideal.ofBits .f32 0x26901D7D#32 + v36 (ix1 d) * v36 (ix1 d)))
        + v5 (ix2 r (⟨2 * 8 + o.val, by omega⟩ : Fin 24))
          * Ideal.exp (Ideal.ofBits .f32 0xBF000000#32 * ∑ d : Fin 3,
              Ideal.div ((v7 (ix2 r d) - v57 (ix2 (0 : Fin 1) d)) * (v7 (ix2 r d) - v57 (ix2 (0 : Fin 1) d)))
                (Ideal.ofBits .f32 0x26901D7D#32 + v59 (ix2 (0 : Fin 1) d) * v59 (ix2 (0 : Fin 1) d))) := by
  unfold k0_pay1
  show v32 (ix2 r o)
      + extractStridedSlice S4096x8 ![0, 8] v5 slices_S4096x24_o0_8_S4096x8 (ix2 r o) * broadcastTo S4096x8 _ broadcasts_S4096x1_S4096x8 (ix2 r o)
      + extractStridedSlice S4096x8 ![0, 16] v5 slices_S4096x24_o0_16_S4096x8 (ix2 r o) * broadcastTo S4096x8 _ broadcasts_S4096x1_S4096x8 (ix2 r o) = _
  rw [slice1_at, slice2_at, weight_at, weight_at]
  simp only [diff_at, cast13_at, cast3_at]

theorem block_at (x0 : Vec Ideal S4096x3 .f32) (x1 : Vec Ideal S4096x3 .f32) (x2 : Vec Ideal S3x24 .f32) (x3 x4 : Vec Ideal S3x3 .f32)
    (r : Fin 4096) (o : Fin 8) :
    out0_5 (F := Ideal) x0 x1 x2 x3 x4 (ix2 r o)
      = Cert.GMM.edgeMsg (by decide) (fun d => x0 (ix2 r d)) (fun d => x1 (ix2 r d)) (fun a b => x2 (ix2 a b)) (fun a b => x3 (ix2 a b))
          (fun a b => x4 (ix2 a b)) o := by
  unfold out0_5
  rw [View.canon_unit_zero hz]
  simp only [View.ld_unit_zero (S := S4096x3) hz, View.ld_unit_zero (S := S3x24) hz, View.ld_unit_zero (S := S4096x3) hz]
  rw [stored_at, term0_at]
  simp only [proj_at, coords_eq, widths1_at, centred1_at, ld_row x3 0 (by omega) inb_S3x3_S1x3_0_0, ld_row x4 0 (by omega) inb_S3x3_S1x3_0_0,
    ld_row x3 1 (by omega) inb_S3x3_S1x3_1_0, ld_row x4 1 (by omega) inb_S3x3_S1x3_1_0,
    ld_row x3 2 (by omega) inb_S3x3_S1x3_2_0, ld_row x4 2 (by omega) inb_S3x3_S1x3_2_0]
  unfold Cert.GMM.edgeMsg Cert.GMM.proj Cert.GMM.gauss
  rw [Ideal.ofBits_zero_f32, zero_add]
  refine Eq.trans ?_ (Fin.sum_univ_three _).symm
  rfl

theorem point_eq (xp : FA S3203072x3) (eap : FA S3203072x3) (g : FA S3x24) (mu sg : FA S3x3)
    (x0 : Vec Ideal S4096x3 .f32) (x1 : Vec Ideal S4096x3 .f32) (x2 : Vec Ideal S3x24 .f32) (x3 x4 : Vec Ideal S3x3 .f32)
    (r : Fin 4096) (o : Fin 8) (i : S3203072x8.Idx)
    (h0 : ∀ d : Fin 3, x0 (ix2 r d) = xp (ix2 (r0 i) d))
    (h1 : ∀ d : Fin 3, x1 (ix2 r d) = eap (ix2 (r0 i) d))
    (h2 : ∀ (a : Fin 3) (b : Fin 24), x2 (ix2 a b) = g (ix2 a b))
    (h3 : ∀ (a : Fin 3) (b : Fin 3), x3 (ix2 a b) = mu (ix2 a b))
    (h4 : ∀ (a : Fin 3) (b : Fin 3), x4 (ix2 a b) = sg (ix2 a b))
    (ho : o = c1 i) :
    out0_5 (F := Ideal) x0 x1 x2 x3 x4 (ix2 r o) = EdgeG xp eap g mu sg i := by
  rw [block_at]
  unfold EdgeG
  rw [funext h0, funext h1, funext fun a => funext (h2 a), funext fun a => funext (h3 a), funext fun a => funext (h4 a), ho]

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

theorem flushed_eq (c : Dev nD) (t : Fin cfg0.N) :
    (dat0 (F := Ideal) V c).flushed 5 t
      = ((cfg0.win 5).blk t).view.read (Elt Ideal) (EdgeG (V c main_v20) (V c main_v21) (V c main_arg3) (V c main_arg4) (V c main_arg5)) := by
  show (cfg0.win 5).cut (grid0.coords t) ((dat0 V c).after 5 t) = _
  rw [after0_5]
  obtain ⟨e00, e01, e10, e11, e20, e21, e30, e31, e40, e41, e50, e51⟩ := idx_facts t
  funext j
  have hj0 : (j 0).val < 4096 := (j 0).isLt
  have hj1 : (j 1).val < 8 := (j 1).isLt
  have ej : win0_5.xinj (grid0.coords t) j = ix2 (⟨(j 0).val, hj0⟩ : Fin 4096) (⟨(j 1).val, hj1⟩ : Fin 8) :=
    funext fun a => by match a with | ⟨0, _⟩ => rfl | ⟨1, _⟩ => rfl
  show out0_5 (iblk0 V c 0 t) (iblk0 V c 1 t) (iblk0 V c 2 t) (iblk0 V c 3 t) (iblk0 V c 4 t) (win0_5.xinj (grid0.coords t) j)
      = EdgeG (V c main_v20) (V c main_v21) (V c main_arg3) (V c main_arg4) (V c main_arg5) (((cfg0.win 5).blk t).view.emb j)
  rw [ej]
  refine point_eq (V c main_v20) (V c main_v21) (V c main_arg3) (V c main_arg4) (V c main_arg5)
    (iblk0 V c 0 t) (iblk0 V c 1 t) (iblk0 V c 2 t) (iblk0 V c 3 t) (iblk0 V c 4 t) ⟨(j 0).val, hj0⟩ ⟨(j 1).val, hj1⟩
    (((cfg0.win 5).blk t).view.emb j) (fun d => ?_) (fun d => ?_) (fun a b => ?_) (fun a b => ?_) (fun a b => ?_) ?_
  · show V c main_v20 (((cfg0.win 0).blk t).view.emb (ix2 (⟨(j 0).val, hj0⟩ : Fin 4096) d)) = _
    refine congrArg (V c main_v20) (funext fun a => Fin.ext ?_)
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 3 + 1 * d.val = d.val; omega
  · show V c main_v21 (((cfg0.win 1).blk t).view.emb (ix2 (⟨(j 0).val, hj0⟩ : Fin 4096) d)) = _
    refine congrArg (V c main_v21) (funext fun a => Fin.ext ?_)
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 3 + 1 * d.val = d.val; omega
  · show V c main_arg3 (((cfg0.win 2).blk t).view.emb (ix2 a b)) = _
    refine congrArg (V c main_arg3) (funext fun x => Fin.ext ?_)
    match x with
    | ⟨0, _⟩ => show win0_2.index t (0 : Fin 2) * 3 + 1 * a.val = a.val; omega
    | ⟨1, _⟩ => show win0_2.index t (1 : Fin 2) * 24 + 1 * b.val = b.val; omega
  · show V c main_arg4 (((cfg0.win 3).blk t).view.emb (ix2 a b)) = _
    refine congrArg (V c main_arg4) (funext fun x => Fin.ext ?_)
    match x with
    | ⟨0, _⟩ => show win0_3.index t (0 : Fin 2) * 3 + 1 * a.val = a.val; omega
    | ⟨1, _⟩ => show win0_3.index t (1 : Fin 2) * 3 + 1 * b.val = b.val; omega
  · show V c main_arg5 (((cfg0.win 4).blk t).view.emb (ix2 a b)) = _
    refine congrArg (V c main_arg5) (funext fun x => Fin.ext ?_)
    match x with
    | ⟨0, _⟩ => show win0_4.index t (0 : Fin 2) * 3 + 1 * a.val = a.val; omega
    | ⟨1, _⟩ => show win0_4.index t (1 : Fin 2) * 3 + 1 * b.val = b.val; omega
  · refine Fin.ext ?_
    show (j 1).val = win0_5.index t (1 : Fin 2) * 8 + 1 * (j 1).val
    omega

theorem mem_blk (t : Fin cfg0.N) (i : S3203072x8.Idx) :
    i ∈ ((cfg0.win 5).blk t).view.set ↔ ∀ a : Fin 2, win0_5.index t a * S4096x8.size a ≤ (i a).val ∧ (i a).val < win0_5.index t a * S4096x8.size a + S4096x8.size a := by
  show i ∈ ((View.whole main_v22).slice (win0_5.rect t)).set ↔ _
  rw [View.set_slice_whole, Rect.mem_set_unit]
  exact Iff.rfl

theorem cover (i : S3203072x8.Idx) : ∃ t : Fin cfg0.N, (cfg0.win 5).flush t = true ∧ i ∈ ((cfg0.win 5).blk t).view.set := by
  have hi0 : (i 0).val < 3203072 := (i 0).isLt
  have hi1 : (i 1).val < 8 := (i 1).isLt
  have hN : cfg0.N = 782 := N_0
  refine ⟨⟨(i 0).val / 4096, by rw [hN]; omega⟩, flush0_5 _, ?_⟩
  obtain ⟨-, -, -, -, -, -, -, -, -, -, e50, e51⟩ := idx_facts ⟨(i 0).val / 4096, by rw [hN]; omega⟩
  rw [mem_blk]
  intro a
  match a with
  | ⟨0, _⟩ =>
    show win0_5.index _ (0 : Fin 2) * 4096 ≤ (i 0).val ∧ (i 0).val < win0_5.index _ (0 : Fin 2) * 4096 + 4096
    rw [e50]; show (i 0).val / 4096 * 4096 ≤ (i 0).val ∧ (i 0).val < (i 0).val / 4096 * 4096 + 4096; omega
  | ⟨1, _⟩ =>
    show win0_5.index _ (1 : Fin 2) * 8 ≤ (i 1).val ∧ (i 1).val < win0_5.index _ (1 : Fin 2) * 8 + 8
    rw [e51]; omega

end Cert.KernelIdeal.KV.L1.Edge

namespace Cert.KernelIdeal.KV.L1

open Cert.KernelIdeal Cert.KernelIdeal.Gen Cert.KernelIdeal.KV Idealize.ShloMosaic Idealize.ShloMosaic.TcCoe Idealize.ShloMosaic.ValueIdx Idealize.SL.Sem

variable (V : (c : Dev nD) → (b : Ref sig .tc) → Buf (Elt Ideal) ((c : Thread nD τ).loc b))

theorem edge_out (c : Dev nD) :
    (Cert.KernelIdeal.Gen.dat0 (F := Ideal) V c).arrAt 5 cfg0.N
      = EdgeG (V c main_v20) (V c main_v21) (V c main_arg3) (V c main_arg4) (V c main_arg5) :=
  (Cert.KernelIdeal.Gen.dat0 (F := Ideal) V c).arrAt_eq_of_cover 5 (EdgeG (V c main_v20) (V c main_v21) (V c main_arg3) (V c main_arg4) (V c main_arg5))
    (fun t _ => Edge.flushed_eq V c t) Edge.cover

end Cert.KernelIdeal.KV.L1

end
-- ==== Proof.KUnit.lean ====
import Idealize.ShloMosaic.PureOps.Ideal
import Idealize.ShloMosaic.PureOps.Ideal.Laws
import Idealize.ShloMosaic.Lib.ValueIdx
import Idealize.ShloMosaic.Lib.IdealHost

noncomputable section

namespace Cert.KernelIdeal.KV

open Idealize.ShloMosaic Idealize.ShloMosaic.ValueIdx

theorem unit_at (v : EReal) :
    Scalar.select (Ideal.cmp .ogt v (Ideal.ofBits .f32 0x00000000#32)) v (Ideal.exp v - Ideal.ofBits .f32 0x3F800000#32)
      = if 0 < v then v else Ideal.exp v - 1 := by
  rw [Ideal.ofBits_zero_f32, Ideal.ofBits_one_f32]
  unfold Ideal.cmp
  by_cases h : (0 : EReal) < v
  · rw [if_pos h, decide_eq_true h]; exact select_one _ _
  · rw [if_neg h, decide_eq_false h]; exact select_zero _ _

def unitOn {s : Shape} (P : FVec Ideal s .f32) : FVec Ideal s .f32 :=
  select (cmpf .ogt P (broadcast s (Scalar.ofBits (F := Ideal) .f32 0x00000000#32))) P
    (subf (exp P) (broadcast s (Scalar.ofBits (F := Ideal) .f32 0x3F800000#32)))

theorem unitOn_at {s : Shape} (P : FVec Ideal s .f32) (j : s.Idx) :
    unitOn P j = if 0 < P j then P j else Ideal.exp (P j) - 1 :=
  unit_at (P j)

end Cert.KernelIdeal.KV

end
-- ==== Proof.KNode1.lean ====
import proofs.«109075_j6828998001340_1_alg».proof.Proof.Gen.KernelIdeal.Frame
import proofs.«109075_j6828998001340_1_alg».proof.Proof.KDefs1
import proofs.«109075_j6828998001340_1_alg».proof.Proof.KUnit
import proofs.«109075_j6828998001340_1_alg».proof.Proof.KLib

noncomputable section

namespace Cert.KernelIdeal.KV.L1

open Cert.KernelIdeal Cert.KernelIdeal.Gen Cert.KernelIdeal.KV Idealize.ShloMosaic Idealize.ShloMosaic.TcCoe Idealize.ShloMosaic.ValueIdx Idealize.SL.Sem

open scoped BigOperators

variable (V : (c : Dev nD) → (b : Ref sig .tc) → Buf (Elt Ideal) ((c : Thread nD τ).loc b))

theorem root_at (a : FVec Ideal S4096x3 .bf16) (b : FVec Ideal S3x8 .bf16) (r : Fin 4096) (o : Fin 8) :
    matmul dot_S4096x3_S3x8_S4096x8_1_0_0_1_n_n none a b (constant (F := Ideal) S4096x8 .f32 0x00000000#32) (ix2 r o)
      = ∑ k : Fin 3, a (ix2 r k) * b (ix2 k o) :=
  mm_at a b r o

def pre (x0 : Vec Ideal S4096x3 .f32) (x1 : Vec Ideal S3x8 .f32) (x2 : Vec Ideal S1x8 .f32) (x3 : Vec Ideal S4096x8 .f32)
    (x4 : Vec Ideal S4096x1 .f32) : FVec Ideal S4096x8 .f32 :=
  addf
    (addf
      (mulf (shapeCast S4096x8 x3 shapeCasts_S4096x8_S4096x8)
        (broadcastTo S4096x8 (shapeCast S4096x1 x4 shapeCasts_S4096x1_S4096x1) broadcasts_S4096x1_S4096x8))
      (matmul dot_S4096x3_S3x8_S4096x8_1_0_0_1_n_n none
        (truncf .bf16 (shapeCast S4096x3 x0 shapeCasts_S4096x3_S4096x3) bitsLt_bf16_f32) (truncf .bf16 x1 bitsLt_bf16_f32)
        (constant S4096x8 .f32 0x00000000#32)))
    (broadcastTo S4096x8 (shapeCast S1x8 (shapeCast S1x8 x2 shapeCasts_S1x8_S1x8) shapeCasts_S1x8_S1x8) broadcasts_S1x8_S4096x8)

theorem pre_at (x0 : Vec Ideal S4096x3 .f32) (x1 : Vec Ideal S3x8 .f32) (x2 : Vec Ideal S1x8 .f32) (x3 : Vec Ideal S4096x8 .f32)
    (x4 : Vec Ideal S4096x1 .f32) (r : Fin 4096) (o : Fin 8) :
    pre x0 x1 x2 x3 x4 (ix2 r o)
      = x3 (ix2 r o) * x4 (ix2 r (0 : Fin 1)) + Cert.GMM.lin (fun d => x0 (ix2 r d)) (fun a b => x1 (ix2 a b)) o
        + x2 (ix2 (0 : Fin 1) o) := by
  unfold pre
  rw [addf_apply, addf_apply, mulf_apply, shapeCast_self, shapeCast_self, shapeCast_self, shapeCast_self, shapeCast_self,
    col_at, broadcastTo_1b_ab_apply, root_at]
  rfl

theorem pay_eq (x0 : Vec Ideal S4096x3 .f32) (x1 : Vec Ideal S3x8 .f32) (x2 : Vec Ideal S1x8 .f32) (x3 : Vec Ideal S4096x8 .f32)
    (x4 : Vec Ideal S4096x1 .f32) :
    k1_pay1 (F := Ideal) x0 x1 x3 x4 x2 = unitOn (pre x0 x1 x2 x3 x4) := rfl

theorem block_at (x0 : Vec Ideal S4096x3 .f32) (x1 : Vec Ideal S3x8 .f32) (x2 : Vec Ideal S1x8 .f32) (x3 : Vec Ideal S4096x8 .f32)
    (x4 : Vec Ideal S4096x1 .f32) (r : Fin 4096) (o : Fin 8) :
    out1_5 (F := Ideal) x0 x1 x2 x3 x4 (ix2 r o)
      = Cert.GMM.nodeK Cert.GMM.elu (fun d => x0 (ix2 r d)) (fun a b => x1 (ix2 a b)) (fun o' => x2 (ix2 (0 : Fin 1) o'))
          (x3 (ix2 r o)) (x4 (ix2 r (0 : Fin 1))) o := by
  unfold out1_5
  rw [View.canon_unit_zero hz]
  simp only [View.ld_unit_zero (S := S4096x3) hz, View.ld_unit_zero (S := S3x8) hz, View.ld_unit_zero (S := S4096x8) hz,
    View.ld_unit_zero (S := S4096x1) hz, View.ld_unit_zero (S := S1x8) hz]
  rw [pay_eq, unitOn_at, pre_at]
  rfl

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem point_eq (hp : FA S102400x3) (root : FA S3x8) (b2 : FA S1x8) (aggp : FA S102400x8) (cp : FA S102400x1)
    (x0 : Vec Ideal S4096x3 .f32) (x1 : Vec Ideal S3x8 .f32) (x2 : Vec Ideal S1x8 .f32) (x3 : Vec Ideal S4096x8 .f32)
    (x4 : Vec Ideal S4096x1 .f32) (r : Fin 4096) (o : Fin 8) (i : S102400x8.Idx)
    (h0 : ∀ d : Fin 3, x0 (ix2 r d) = hp (ix2 (r0 i) d))
    (h1 : ∀ (a : Fin 3) (b : Fin 8), x1 (ix2 a b) = root (ix2 a b))
    (h2 : ∀ b : Fin 8, x2 (ix2 (0 : Fin 1) b) = b2 (ix2 (0 : Fin 1) b))
    (h3 : x3 (ix2 r o) = aggp (ix2 (r0 i) (c1 i)))
    (h4 : x4 (ix2 r (0 : Fin 1)) = cp (ix2 (r0 i) (0 : Fin 1)))
    (ho : o = c1 i) :
    out1_5 (F := Ideal) x0 x1 x2 x3 x4 (ix2 r o) = NodeG hp root b2 aggp cp i := by
  rw [block_at]
  unfold NodeG
  rw [funext h0, funext fun a => funext (h1 a), funext h2, h3, h4, ho]

theorem flushed_eq (c : Dev nD) (t : Fin cfg1.N) :
    (Cert.KernelIdeal.Gen.dat1 (F := Ideal) V c).flushed 5 t = ((cfg1.win 5).blk t).view.read (Elt Ideal) (NodeG (V c main_v28) (V c main_arg6) (V c main_v27) (V c main_v29) (V c main_v30)) := by
  show (cfg1.win 5).cut (grid1.coords t) ((Cert.KernelIdeal.Gen.dat1 (F := Ideal) V c).after 5 t) = _
  rw [after1_5]
  obtain ⟨e00, e01, e10, e11, e20, e21, e30, e31, e40, e41, e50, e51⟩ := idx_facts t
  funext j
  have hj0 : (j 0).val < 4096 := (j 0).isLt
  have hj1 : (j 1).val < 8 := (j 1).isLt
  have ej : win1_5.xinj (grid1.coords t) j = ix2 (⟨(j 0).val, hj0⟩ : Fin 4096) (⟨(j 1).val, hj1⟩ : Fin 8) :=
    funext fun a => by match a with | ⟨0, _⟩ => rfl | ⟨1, _⟩ => rfl
  show out1_5 (iblk1 V c 0 t) (iblk1 V c 1 t) (iblk1 V c 2 t) (iblk1 V c 3 t) (iblk1 V c 4 t) (win1_5.xinj (grid1.coords t) j)
      = NodeG (V c main_v28) (V c main_arg6) (V c main_v27) (V c main_v29) (V c main_v30) (((cfg1.win 5).blk t).view.emb j)
  rw [ej]
  refine point_eq (V c main_v28) (V c main_arg6) (V c main_v27) (V c main_v29) (V c main_v30)
    (iblk1 V c 0 t) (iblk1 V c 1 t) (iblk1 V c 2 t) (iblk1 V c 3 t) (iblk1 V c 4 t) ⟨(j 0).val, hj0⟩ ⟨(j 1).val, hj1⟩
    (((cfg1.win 5).blk t).view.emb j) (fun d => ?_) (fun a b => ?_) (fun b => ?_) ?_ ?_ ?_
  · show V c main_v28 (((cfg1.win 0).blk t).view.emb (ix2 (⟨(j 0).val, hj0⟩ : Fin 4096) d)) = _
    refine congrArg (V c main_v28) (funext fun a => Fin.ext ?_)
    match a with
    | ⟨0, _⟩ => show win1_0.index t (0 : Fin 2) * 4096 + 1 * (j 0).val = win1_5.index t (0 : Fin 2) * 4096 + 1 * (j 0).val; omega
    | ⟨1, _⟩ => show win1_0.index t (1 : Fin 2) * 3 + 1 * d.val = d.val; omega
  · show V c main_arg6 (((cfg1.win 1).blk t).view.emb (ix2 a b)) = _
    refine congrArg (V c main_arg6) (funext fun x => Fin.ext ?_)
    match x with
    | ⟨0, _⟩ => show win1_1.index t (0 : Fin 2) * 3 + 1 * a.val = a.val; omega
    | ⟨1, _⟩ => show win1_1.index t (1 : Fin 2) * 8 + 1 * b.val = b.val; omega
  · show V c main_v27 (((cfg1.win 2).blk t).view.emb (ix2 (0 : Fin 1) b)) = _
    refine congrArg (V c main_v27) (funext fun x => Fin.ext ?_)
    match x with
    | ⟨0, _⟩ => show win1_2.index t (0 : Fin 2) * 1 + 1 * 0 = 0; omega
    | ⟨1, _⟩ => show win1_2.index t (1 : Fin 2) * 8 + 1 * b.val = b.val; omega
  · show V c main_v29 (((cfg1.win 3).blk t).view.emb (ix2 (⟨(j 0).val, hj0⟩ : Fin 4096) (⟨(j 1).val, hj1⟩ : Fin 8))) = _
    refine congrArg (V c main_v29) (funext fun a => Fin.ext ?_)
    match a with
    | ⟨0, _⟩ => show win1_3.index t (0 : Fin 2) * 4096 + 1 * (j 0).val = win1_5.index t (0 : Fin 2) * 4096 + 1 * (j 0).val; omega
    | ⟨1, _⟩ => show win1_3.index t (1 : Fin 2) * 8 + 1 * (j 1).val = win1_5.index t (1 : Fin 2) * 8 + 1 * (j 1).val; omega
  · show V c main_v30 (((cfg1.win 4).blk t).view.emb (ix2 (⟨(j 0).val, hj0⟩ : Fin 4096) (0 : Fin 1))) = _
    refine congrArg (V c main_v30) (funext fun a => Fin.ext ?_)
    match a with
    | ⟨0, _⟩ => show win1_4.index t (0 : Fin 2) * 4096 + 1 * (j 0).val = win1_5.index t (0 : Fin 2) * 4096 + 1 * (j 0).val; omega
    | ⟨1, _⟩ => show win1_4.index t (1 : Fin 2) * 1 + 1 * 0 = 0; omega
  · refine Fin.ext ?_
    show (j 1).val = win1_5.index t (1 : Fin 2) * 8 + 1 * (j 1).val
    omega

theorem mem_blk (t : Fin cfg1.N) (i : S102400x8.Idx) :
    i ∈ ((cfg1.win 5).blk t).view.set
      ↔ ∀ a : Fin 2, win1_5.index t a * S4096x8.size a ≤ (i a).val ∧ (i a).val < win1_5.index t a * S4096x8.size a + S4096x8.size a := by
  show i ∈ ((View.whole main_v31).slice (win1_5.rect t)).set ↔ _
  rw [View.set_slice_whole, Rect.mem_set_unit]
  exact Iff.rfl

theorem cover (i : S102400x8.Idx) : ∃ t : Fin cfg1.N, (cfg1.win 5).flush t = true ∧ i ∈ ((cfg1.win 5).blk t).view.set := by
  have hi0 : (i 0).val < 102400 := (i 0).isLt
  have hi1 : (i 1).val < 8 := (i 1).isLt
  obtain ⟨t, ht⟩ : ∃ t : Fin cfg1.N, t.val = (i 0).val / 4096 :=
    ⟨⟨(i 0).val / 4096, by rw [show cfg1.N = 25 from N_1]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 4096 ≤ (i 0).val ∧ (i 0).val < win1_5.index t (0 : Fin 2) * 4096 + 4096
    rw [e0, ht]; omega
  | ⟨1, _⟩ =>
    show win1_5.index t (1 : Fin 2) * (8) ≤ (i 1).val ∧ (i 1).val < win1_5.index t (1 : Fin 2) * (8) + 8
    rw [e1]; omega

theorem node_out (c : Dev nD) :
    (Cert.KernelIdeal.Gen.dat1 (F := Ideal) V c).arrAt 5 cfg1.N
      = NodeG (V c main_v28) (V c main_arg6) (V c main_v27) (V c main_v29) (V c main_v30) :=
  (Cert.KernelIdeal.Gen.dat1 (F := Ideal) V c).arrAt_eq_of_cover 5
    (NodeG (V c main_v28) (V c main_arg6) (V c main_v27) (V c main_v29) (V c main_v30))
    (fun t _ => flushed_eq V c t) cover

end Cert.KernelIdeal.KV.L1

end
-- ==== Proof.KFold1.lean ====
import proofs.«109075_j6828998001340_1_alg».proof.Proof.Gen.KernelIdeal.Frame
import proofs.«109075_j6828998001340_1_alg».proof.Proof.KFoldIface
import proofs.«109075_j6828998001340_1_alg».proof.Proof.KEdge1
import proofs.«109075_j6828998001340_1_alg».proof.Proof.KNode1
import Idealize.ShloMosaic.Lib.ValueIdx
import Idealize.ShloMosaic.Lib.Pipeline.Value

set_option maxRecDepth 16384

noncomputable section

namespace Cert.KernelIdeal.KV.F1

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem arg0_W0 : W0 (F := Ideal) m ρ c (Proc.devRef .tc main_arg0) = arg m c main_arg0 := rfl

theorem arg1_W0 : W0 (F := Ideal) m ρ c (Proc.devRef .tc main_arg1) = arg m c main_arg1 := rfl

theorem src_W1 : W1 (F := Ideal) m ρ c (Proc.devRef .tc main_v1) = src (arg m c main_arg1) := by
  have h0 := arg1_W0 m ρ c
  show StableHlo.after hostOps0 (W0 m ρ c) (Proc.devRef .tc main_v1) = _
  generalize W0 m ρ c = V at h0 ⊢
  after_results_simp
  rw [h0]
  rfl

theorem dst_W1 : W1 (F := Ideal) m ρ c (Proc.devRef .tc main_v3) = dst (arg m c main_arg1) := by
  have h0 := arg1_W0 m ρ c
  show StableHlo.after hostOps0 (W0 m ρ c) (Proc.devRef .tc main_v3) = _
  generalize W0 m ρ c = V at h0 ⊢
  after_results_simp
  rw [h0]
  rfl

theorem cinv_W1 : W1 (F := Ideal) m ρ c (Proc.devRef .tc main_v12) = cinv (arg m c main_arg1) := by
  have h0 := arg1_W0 m ρ c
  show StableHlo.after hostOps0 (W0 m ρ c) (Proc.devRef .tc main_v12) = _
  generalize W0 m ρ c = V at h0 ⊢
  after_results_simp
  rw [h0]
  rfl

theorem xj_W1 : W1 (F := Ideal) m ρ c (Proc.devRef .tc main_v19)
    = Host.gather gather_S100000x3_S3200000x1_S3200000x3_1_0_n_n_0_1_13 (arg m c main_arg0) (srcIdx (arg m c main_arg1)) := by
  have h0 := arg0_W0 m ρ c
  have h1 := arg1_W0 m ρ c
  show StableHlo.after hostOps0 (W0 m ρ c) (Proc.devRef .tc main_v19) = _
  generalize W0 m ρ c = V at h0 h1 ⊢
  after_results_simp
  rw [h0, h1]
  rfl

theorem c4_W1 : W1 (F := Ideal) m ρ c (Proc.devRef .tc main_c_4) = constantI S_ 32 0#32 := by
  show StableHlo.after hostOps0 (W0 m ρ c) (Proc.devRef .tc main_c_4) = _
  generalize W0 m ρ c = V
  after_results_simp

theorem xjPad_W2 : W2 (F := Ideal) m ρ c (Proc.devRef .tc main_v20) = L1.xjPad (arg m c main_arg0) (arg m c main_arg1) := by
  have h0 := xj_W1 m ρ c
  have h1 := c4_W1 m ρ c
  show StableHlo.after hostOps0_1 (W1 m ρ c) (Proc.devRef .tc main_v20) = _
  generalize W1 m ρ c = V at h0 h1 ⊢
  after_results_simp
  rw [h0, h1]
  rfl

theorem c5_W3 : W3 (F := Ideal) m ρ c (Proc.devRef .tc main_c_5) = constantI S_ 32 0#32 := by
  show StableHlo.after hostOps0_2 (W2 m ρ c) (Proc.devRef .tc main_c_5) = _
  generalize W2 m ρ c = V
  after_results_simp

theorem arg2_W3 : W3 (F := Ideal) m ρ c (Proc.devRef .tc main_arg2) = arg m c main_arg2 := by fold_launch

theorem eaPad_W4 : W4 (F := Ideal) m ρ c (Proc.devRef .tc main_v21) = L1.eaPad (arg m c main_arg2) := by
  have h0 := arg2_W3 m ρ c
  have h1 := c5_W3 m ρ c
  show StableHlo.after hostOps0_3 (W3 m ρ c) (Proc.devRef .tc main_v21) = _
  generalize W3 m ρ c = V at h0 h1 ⊢
  after_results_simp
  rw [h0, h1]
  rfl

theorem xjPad_W4 : W4 (F := Ideal) m ρ c (Proc.devRef .tc main_v20) = L1.xjPad (arg m c main_arg0) (arg m c main_arg1) := by
  fold_carry xjPad_W2 m ρ c

theorem arg3_W4 : W4 (F := Ideal) m ρ c (Proc.devRef .tc main_arg3) = arg m c main_arg3 := by fold_launch

theorem arg4_W4 : W4 (F := Ideal) m ρ c (Proc.devRef .tc main_arg4) = arg m c main_arg4 := by fold_launch

theorem arg5_W4 : W4 (F := Ideal) m ρ c (Proc.devRef .tc main_arg5) = arg m c main_arg5 := by fold_launch

theorem msgP_W5 : W5 (F := Ideal) m ρ c (Proc.devRef .tc main_v22)
    = L1.EdgeG (L1.xjPad (arg m c main_arg0) (arg m c main_arg1)) (L1.eaPad (arg m c main_arg2)) (arg m c main_arg3) (arg m c main_arg4) (arg m c main_arg5) := by
  refine (W5_arr m ρ c 5).trans ((L1.edge_out (V4 m ρ) c).trans ?_)
  dsimp only [V4]
  rw [xjPad_W4 m ρ c, eaPad_W4 m ρ c, arg3_W4 m ρ c, arg4_W4 m ρ c, arg5_W4 m ρ c]

theorem dst_W5 : W5 (F := Ideal) m ρ c (Proc.devRef .tc main_v3) = dst (arg m c main_arg1) := by fold_carry dst_W1 m ρ c

theorem arg7_W5 : W5 (F := Ideal) m ρ c (Proc.devRef .tc main_arg7) = arg m c main_arg7 := by fold_launch

theorem agg_W6 : W6 (F := Ideal) m ρ c (Proc.devRef .tc main_v26) = L1.agg (arg m c main_arg0) (arg m c main_arg1) (arg m c main_arg2) (arg m c main_arg3) (arg m c main_arg4) (arg m c main_arg5) := by
  have h0 := msgP_W5 m ρ c
  have h1 := dst_W5 m ρ c
  show StableHlo.after hostOps1 (W5 m ρ c) (Proc.devRef .tc main_v26) = _
  generalize W5 m ρ c = V at h0 h1 ⊢
  after_results_simp
  rw [h0, h1]
  unfold L1.agg L1.msg dstIdx
  rfl

theorem b2_W6 : W6 (F := Ideal) m ρ c (Proc.devRef .tc main_v27) = shapeCast S1x8 (arg m c main_arg7) shapeCasts_S8_S1x8 := by
  have h0 := arg7_W5 m ρ c
  show StableHlo.after hostOps1 (W5 m ρ c) (Proc.devRef .tc main_v27) = _
  generalize W5 m ρ c = V at h0 ⊢
  after_results_simp
  rw [h0]
  rfl

theorem c7_W6 : W6 (F := Ideal) m ρ c (Proc.devRef .tc main_c_7) = constantI S_ 32 0#32 := by
  show StableHlo.after hostOps1 (W5 m ρ c) (Proc.devRef .tc main_c_7) = _
  generalize W5 m ρ c = V
  after_results_simp

theorem arg0_W6 : W6 (F := Ideal) m ρ c (Proc.devRef .tc main_arg0) = arg m c main_arg0 := by fold_launch

theorem hp_W7 : W7 (F := Ideal) m ρ c (Proc.devRef .tc main_v28) = L1.hPad (arg m c main_arg0) := by
  have h0 := arg0_W6 m ρ c
  have h1 := c7_W6 m ρ c
  show StableHlo.after hostOps1_1 (W6 m ρ c) (Proc.devRef .tc main_v28) = _
  generalize W6 m ρ c = V at h0 h1 ⊢
  after_results_simp
  rw [h0, h1]
  rfl

theorem c8_W8 : W8 (F := Ideal) m ρ c (Proc.devRef .tc main_c_8) = constantI S_ 32 0#32 := by
  show StableHlo.after hostOps1_2 (W7 m ρ c) (Proc.devRef .tc main_c_8) = _
  generalize W7 m ρ c = V
  after_results_simp

theorem agg_W8 : W8 (F := Ideal) m ρ c (Proc.devRef .tc main_v26) = L1.agg (arg m c main_arg0) (arg m c main_arg1) (arg m c main_arg2) (arg m c main_arg3) (arg m c main_arg4) (arg m c main_arg5) := by
  fold_carry agg_W6 m ρ c

theorem aggPad_of (V : Valuation τ sig (Elt Ideal)) (X : FA S100000x8) (hX : V (Proc.devRef .tc main_v26) = X)
    (hk : V (Proc.devRef .tc main_c_8) = constantI S_ 32 0#32) :
    StableHlo.after (hostOps1_3 (F := Ideal)) V (Proc.devRef .tc main_v29) = L1.aggPad X := by
  after_results_simp
  rw [hX, hk]
  rfl

theorem aggP_W9 : W9 (F := Ideal) m ρ c (Proc.devRef .tc main_v29) = L1.aggPad (L1.agg (arg m c main_arg0) (arg m c main_arg1) (arg m c main_arg2) (arg m c main_arg3) (arg m c main_arg4) (arg m c main_arg5)) :=
  aggPad_of (W8 m ρ c) _ (agg_W8 m ρ c) (c8_W8 m ρ c)

theorem c9_W10 : W10 (F := Ideal) m ρ c (Proc.devRef .tc main_c_9) = constantI S_ 32 0#32 := by
  show StableHlo.after hostOps1_4 (W9 m ρ c) (Proc.devRef .tc main_c_9) = _
  generalize W9 m ρ c = V
  after_results_simp

theorem cinv_W10 : W10 (F := Ideal) m ρ c (Proc.devRef .tc main_v12) = cinv (arg m c main_arg1) := by fold_carry cinv_W1 m ρ c

theorem cinvPad_of (V : Valuation τ sig (Elt Ideal)) (X : FA S100000x1) (hX : V (Proc.devRef .tc main_v12) = X)
    (hk : V (Proc.devRef .tc main_c_9) = constantI S_ 32 0#32) :
    StableHlo.after (hostOps1_5 (F := Ideal)) V (Proc.devRef .tc main_v30)
      = cPad X := by
  after_results_simp
  rw [hX, hk]
  rfl

theorem cP_W11 : W11 (F := Ideal) m ρ c (Proc.devRef .tc main_v30) = cPad (cinv (arg m c main_arg1)) :=
  cinvPad_of (W10 m ρ c) _ (cinv_W10 m ρ c) (c9_W10 m ρ c)

theorem hp_W11 : W11 (F := Ideal) m ρ c (Proc.devRef .tc main_v28) = L1.hPad (arg m c main_arg0) := by
  fold_carry hp_W7 m ρ c

theorem b2_W11 : W11 (F := Ideal) m ρ c (Proc.devRef .tc main_v27) = shapeCast S1x8 (arg m c main_arg7) shapeCasts_S8_S1x8 := by
  fold_carry b2_W6 m ρ c

theorem aggP_W11 : W11 (F := Ideal) m ρ c (Proc.devRef .tc main_v29) = L1.aggPad (L1.agg (arg m c main_arg0) (arg m c main_arg1) (arg m c main_arg2) (arg m c main_arg3) (arg m c main_arg4) (arg m c main_arg5)) := by
  fold_carry aggP_W9 m ρ c

theorem arg6_W11 : W11 (F := Ideal) m ρ c (Proc.devRef .tc main_arg6) = arg m c main_arg6 := by fold_launch

theorem outP_W12 : W12 (F := Ideal) m ρ c (Proc.devRef .tc main_v31)
    = L1.NodeG (L1.hPad (arg m c main_arg0)) (arg m c main_arg6) (shapeCast S1x8 (arg m c main_arg7) shapeCasts_S8_S1x8)
        (L1.aggPad (L1.agg (arg m c main_arg0) (arg m c main_arg1) (arg m c main_arg2) (arg m c main_arg3) (arg m c main_arg4) (arg m c main_arg5)))
        (cPad (cinv (arg m c main_arg1))) := by
  refine (W12_arr m ρ c 5).trans ((L1.node_out (V11 m ρ) c).trans ?_)
  dsimp only [V11]
  rw [hp_W11 m ρ c, arg6_W11 m ρ c, b2_W11 m ρ c, aggP_W11 m ρ c, cP_W11 m ρ c]

end Cert.KernelIdeal.KV.F1

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem fold1 (c : Dev nD) :
    extractStridedSlice S100000x8 ![0, 0] (W12 (F := Ideal) m ρ c (Proc.devRef .tc main_v31)) slices_S102400x8_S100000x8_0_0
        = L1.layer (arg m c main_arg0) (arg m c main_arg1) (arg m c main_arg2) (arg m c main_arg3) (arg m c main_arg4) (arg m c main_arg5) (arg m c main_arg6) (arg m c main_arg7)
      ∧ W12 (F := Ideal) m ρ c (Proc.devRef .tc main_v1) = src (arg m c main_arg1)
      ∧ W12 (F := Ideal) m ρ c (Proc.devRef .tc main_v3) = dst (arg m c main_arg1)
      ∧ W12 (F := Ideal) m ρ c (Proc.devRef .tc main_v12) = cinv (arg m c main_arg1) := by
  refine ⟨?_, ?_, ?_, ?_⟩
  · rw [F1.outP_W12 m ρ c]; unfold L1.layer; rfl
  · fold_carry F1.src_W1 m ρ c
  · fold_carry F1.dst_W1 m ρ c
  · fold_carry F1.cinv_W1 m ρ c

end Cert.KernelIdeal.KV

end
-- ==== Proof.KEdge2.lean ====
import proofs.«109075_j6828998001340_1_alg».proof.Proof.Gen.KernelIdeal.Frame
import proofs.«109075_j6828998001340_1_alg».proof.Proof.KDefs2
import proofs.«109075_j6828998001340_1_alg».proof.Proof.KLib

noncomputable section

open scoped BigOperators

namespace Cert.KernelIdeal.KV.L2.Edge

open Cert.KernelIdeal Cert.KernelIdeal.Gen Cert.KernelIdeal.KV Cert.KernelIdeal.KV.L2 Idealize.ShloMosaic Idealize.ShloMosaic.TcCoe Idealize.ShloMosaic.ValueIdx Idealize.SL.Sem

theorem proj_at (x0 : Vec Ideal S4096x8 .f32) (x2 : Vec Ideal S8x48 .f32) (r : Fin 4096) (q : Fin 48) :
    k2_pay2 (F := Ideal) x0 x2 (ix2 r q) = ∑ i : Fin 8, x0 (ix2 r i) * x2 (ix2 i q) := by
  unfold k2_pay2
  refine (mm_at _ _ r q).trans ?_
  simp only [truncf_apply, shapeCast_self]

theorem slice0_at (P : FVec Ideal S4096x48 .f32) (r : Fin 4096) (o : Fin 16) :
    extractStridedSlice S4096x16 ![0, 0] P slices_S4096x48_o0_0_S4096x16 (ix2 r o) = P (ix2 r (⟨0 * 16 + o.val, by omega⟩ : Fin 48)) :=
  extractStridedSlice_apply _ P _ (ix2 r o) _ (fun a => by match a with | ⟨0, _⟩ => (show r.val = 0 + r.val; omega) | ⟨1, _⟩ => (show 0 * 16 + o.val = 0 + o.val; omega))

theorem slice1_at (P : FVec Ideal S4096x48 .f32) (r : Fin 4096) (o : Fin 16) :
    extractStridedSlice S4096x16 ![0, 16] P slices_S4096x48_o0_16_S4096x16 (ix2 r o) = P (ix2 r (⟨1 * 16 + o.val, by omega⟩ : Fin 48)) :=
  extractStridedSlice_apply _ P _ (ix2 r o) _ (fun a => by match a with | ⟨0, _⟩ => (show r.val = 0 + r.val; omega) | ⟨1, _⟩ => (show 1 * 16 + o.val = 16 + o.val; omega))

theorem slice2_at (P : FVec Ideal S4096x48 .f32) (r : Fin 4096) (o : Fin 16) :
    extractStridedSlice S4096x16 ![0, 32] P slices_S4096x48_o0_32_S4096x16 (ix2 r o) = P (ix2 r (⟨2 * 16 + o.val, by omega⟩ : Fin 48)) :=
  extractStridedSlice_apply _ P _ (ix2 r o) _ (fun a => by match a with | ⟨0, _⟩ => (show r.val = 0 + r.val; omega) | ⟨1, _⟩ => (show 2 * 16 + o.val = 32 + o.val; omega))

theorem coords_eq (v6 : Vec Ideal S4096x3 .f32) : k2_pay3 (F := Ideal) v6 = v6 := by
  unfold k2_pay3; exact shapeCast_self _ _

theorem widths1_at (v35 : Vec Ideal S1x3 .f32) (d : Fin 3) : k2_pay5 (F := Ideal) v35 (ix1 d) = v35 (ix2 (0 : Fin 1) d) := by
  unfold k2_pay5; exact cast3_at v35 d

theorem centred1_at (v6 : Vec Ideal S4096x3 .f32) (v33 : Vec Ideal S1x3 .f32) (r : Fin 4096) (d : Fin 3) :
    k2_pay6 (F := Ideal) v6 v33 (ix2 r d) = v6 (ix2 r d) - v33 (ix2 (0 : Fin 1) d) := by
  unfold k2_pay6
  refine (diff_at (k2_pay3 (F := Ideal) v6) v33 r d).trans ?_
  rw [coords_eq]

theorem term0_at (v0 : Vec Ideal S4096x8 .f32) (v3 : Vec Ideal S8x48 .f32) (v6 : Vec Ideal S4096x3 .f32) (v9 v11 : Vec Ideal S1x3 .f32)
    (r : Fin 4096) (o : Fin 16) :
    k2_pay4 (F := Ideal) v0 v3 v6 v9 v11 (ix2 r o)
      = Ideal.ofBits .f32 0x00000000#32 + k2_pay2 (F := Ideal) v0 v3 (ix2 r (⟨0 * 16 + o.val, by omega⟩ : Fin 48))
          * Ideal.exp (Ideal.ofBits .f32 0xBF000000#32 * ∑ d : Fin 3,
              Ideal.div ((v6 (ix2 r d) - v9 (ix2 (0 : Fin 1) d)) * (v6 (ix2 r d) - v9 (ix2 (0 : Fin 1) d)))
                (Ideal.ofBits .f32 0x26901D7D#32 + v11 (ix2 (0 : Fin 1) d) * v11 (ix2 (0 : Fin 1) d))) := by
  unfold k2_pay4
  show Ideal.ofBits .f32 0x00000000#32
      + extractStridedSlice S4096x16 ![0, 0] (k2_pay2 (F := Ideal) v0 v3) slices_S4096x48_o0_0_S4096x16 (ix2 r o)
        * broadcastTo S4096x16 _ broadcasts_S4096x1_S4096x16 (ix2 r o) = _
  rw [slice0_at, weight_at]
  simp only [diff_at, cast13_at, cast3_at, coords_eq]

theorem stored_at (v5 : FVec Ideal S4096x48 .f32) (v7 : FVec Ideal S4096x3 .f32) (v32 : FVec Ideal S4096x16 .f32) (v36 : FVec Ideal S3 .f32)
    (v39 : FVec Ideal S4096x3 .f32) (v57 v59 : Vec Ideal S1x3 .f32) (r : Fin 4096) (o : Fin 16) :
    k2_pay1 (F := Ideal) v5 v7 v32 v36 v39 v57 v59 (ix2 r o)
      = v32 (ix2 r o)
        + v5 (ix2 r (⟨1 * 16 + o.val, by omega⟩ : Fin 48))
          * Ideal.exp (Ideal.ofBits .f32 0xBF000000#32 * ∑ d : Fin 3,
              Ideal.div (v39 (ix2 r d) * v39 (ix2 r d)) (Ideal.ofBits .f32 0x26901D7D#32 + v36 (ix1 d) * v36 (ix1 d)))
        + v5 (ix2 r (⟨2 * 16 + o.val, by omega⟩ : Fin 48))
          * Ideal.exp (Ideal.ofBits .f32 0xBF000000#32 * ∑ d : Fin 3,
              Ideal.div ((v7 (ix2 r d) - v57 (ix2 (0 : Fin 1) d)) * (v7 (ix2 r d) - v57 (ix2 (0 : Fin 1) d)))
                (Ideal.ofBits .f32 0x26901D7D#32 + v59 (ix2 (0 : Fin 1) d) * v59 (ix2 (0 : Fin 1) d))) := by
  unfold k2_pay1
  show v32 (ix2 r o)
      + extractStridedSlice S4096x16 ![0, 16] v5 slices_S4096x48_o0_16_S4096x16 (ix2 r o) * broadcastTo S4096x16 _ broadcasts_S4096x1_S4096x16 (ix2 r o)
      + extractStridedSlice S4096x16 ![0, 32] v5 slices_S4096x48_o0_32_S4096x16 (ix2 r o) * broadcastTo S4096x16 _ broadcasts_S4096x1_S4096x16 (ix2 r o) = _
  rw [slice1_at, slice2_at, weight_at, weight_at]
  simp only [diff_at, cast13_at, cast3_at]

theorem block_at (x0 : Vec Ideal S4096x8 .f32) (x1 : Vec Ideal S4096x3 .f32) (x2 : Vec Ideal S8x48 .f32) (x3 x4 : Vec Ideal S3x3 .f32)
    (r : Fin 4096) (o : Fin 16) :
    out2_5 (F := Ideal) x0 x1 x2 x3 x4 (ix2 r o)
      = Cert.GMM.edgeMsg (by decide) (fun d => x0 (ix2 r d)) (fun d => x1 (ix2 r d)) (fun a b => x2 (ix2 a b)) (fun a b => x3 (ix2 a b))
          (fun a b => x4 (ix2 a b)) o := by
  unfold out2_5
  rw [View.canon_unit_zero hz]
  simp only [View.ld_unit_zero (S := S4096x8) hz, View.ld_unit_zero (S := S8x48) hz, View.ld_unit_zero (S := S4096x3) hz]
  rw [stored_at, term0_at]
  simp only [proj_at, coords_eq, widths1_at, centred1_at, ld_row x3 0 (by omega) inb_S3x3_S1x3_0_0, ld_row x4 0 (by omega) inb_S3x3_S1x3_0_0,
    ld_row x3 1 (by omega) inb_S3x3_S1x3_1_0, ld_row x4 1 (by omega) inb_S3x3_S1x3_1_0,
    ld_row x3 2 (by omega) inb_S3x3_S1x3_2_0, ld_row x4 2 (by omega) inb_S3x3_S1x3_2_0]
  unfold Cert.GMM.edgeMsg Cert.GMM.proj Cert.GMM.gauss
  rw [Ideal.ofBits_zero_f32, zero_add]
  refine Eq.trans ?_ (Fin.sum_univ_three _).symm
  rfl

theorem point_eq (xp : FA S3203072x8) (eap : FA S3203072x3) (g : FA S8x48) (mu sg : FA S3x3)
    (x0 : Vec Ideal S4096x8 .f32) (x1 : Vec Ideal S4096x3 .f32) (x2 : Vec Ideal S8x48 .f32) (x3 x4 : Vec Ideal S3x3 .f32)
    (r : Fin 4096) (o : Fin 16) (i : S3203072x16.Idx)
    (h0 : ∀ d : Fin 8, x0 (ix2 r d) = xp (ix2 (r0 i) d))
    (h1 : ∀ d : Fin 3, x1 (ix2 r d) = eap (ix2 (r0 i) d))
    (h2 : ∀ (a : Fin 8) (b : Fin 48), x2 (ix2 a b) = g (ix2 a b))
    (h3 : ∀ (a : Fin 3) (b : Fin 3), x3 (ix2 a b) = mu (ix2 a b))
    (h4 : ∀ (a : Fin 3) (b : Fin 3), x4 (ix2 a b) = sg (ix2 a b))
    (ho : o = c1 i) :
    out2_5 (F := Ideal) x0 x1 x2 x3 x4 (ix2 r o) = EdgeG xp eap g mu sg i := by
  rw [block_at]
  unfold EdgeG
  rw [funext h0, funext h1, funext fun a => funext (h2 a), funext fun a => funext (h3 a), funext fun a => funext (h4 a), ho]

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

theorem flushed_eq (c : Dev nD) (t : Fin cfg2.N) :
    (dat2 (F := Ideal) V c).flushed 5 t
      = ((cfg2.win 5).blk t).view.read (Elt Ideal) (EdgeG (V c main_v40) (V c main_v41) (V c main_arg8) (V c main_arg9) (V c main_arg10)) := by
  show (cfg2.win 5).cut (grid2.coords t) ((dat2 V c).after 5 t) = _
  rw [after2_5]
  obtain ⟨e00, e01, e10, e11, e20, e21, e30, e31, e40, e41, e50, e51⟩ := idx_facts t
  funext j
  have hj0 : (j 0).val < 4096 := (j 0).isLt
  have hj1 : (j 1).val < 16 := (j 1).isLt
  have ej : win2_5.xinj (grid2.coords t) j = ix2 (⟨(j 0).val, hj0⟩ : Fin 4096) (⟨(j 1).val, hj1⟩ : Fin 16) :=
    funext fun a => by match a with | ⟨0, _⟩ => rfl | ⟨1, _⟩ => rfl
  show out2_5 (iblk2 V c 0 t) (iblk2 V c 1 t) (iblk2 V c 2 t) (iblk2 V c 3 t) (iblk2 V c 4 t) (win2_5.xinj (grid2.coords t) j)
      = EdgeG (V c main_v40) (V c main_v41) (V c main_arg8) (V c main_arg9) (V c main_arg10) (((cfg2.win 5).blk t).view.emb j)
  rw [ej]
  refine point_eq (V c main_v40) (V c main_v41) (V c main_arg8) (V c main_arg9) (V c main_arg10)
    (iblk2 V c 0 t) (iblk2 V c 1 t) (iblk2 V c 2 t) (iblk2 V c 3 t) (iblk2 V c 4 t) ⟨(j 0).val, hj0⟩ ⟨(j 1).val, hj1⟩
    (((cfg2.win 5).blk t).view.emb j) (fun d => ?_) (fun d => ?_) (fun a b => ?_) (fun a b => ?_) (fun a b => ?_) ?_
  · show V c main_v40 (((cfg2.win 0).blk t).view.emb (ix2 (⟨(j 0).val, hj0⟩ : Fin 4096) d)) = _
    refine congrArg (V c main_v40) (funext fun a => Fin.ext ?_)
    match a with
    | ⟨0, _⟩ => show win2_0.index t (0 : Fin 2) * 4096 + 1 * (j 0).val = win2_5.index t (0 : Fin 2) * 4096 + 1 * (j 0).val; omega
    | ⟨1, _⟩ => show win2_0.index t (1 : Fin 2) * 8 + 1 * d.val = d.val; omega
  · show V c main_v41 (((cfg2.win 1).blk t).view.emb (ix2 (⟨(j 0).val, hj0⟩ : Fin 4096) d)) = _
    refine congrArg (V c main_v41) (funext fun a => Fin.ext ?_)
    match a with
    | ⟨0, _⟩ => show win2_1.index t (0 : Fin 2) * 4096 + 1 * (j 0).val = win2_5.index t (0 : Fin 2) * 4096 + 1 * (j 0).val; omega
    | ⟨1, _⟩ => show win2_1.index t (1 : Fin 2) * 3 + 1 * d.val = d.val; omega
  · show V c main_arg8 (((cfg2.win 2).blk t).view.emb (ix2 a b)) = _
    refine congrArg (V c main_arg8) (funext fun x => Fin.ext ?_)
    match x with
    | ⟨0, _⟩ => show win2_2.index t (0 : Fin 2) * 8 + 1 * a.val = a.val; omega
    | ⟨1, _⟩ => show win2_2.index t (1 : Fin 2) * 48 + 1 * b.val = b.val; omega
  · show V c main_arg9 (((cfg2.win 3).blk t).view.emb (ix2 a b)) = _
    refine congrArg (V c main_arg9) (funext fun x => Fin.ext ?_)
    match x with
    | ⟨0, _⟩ => show win2_3.index t (0 : Fin 2) * 3 + 1 * a.val = a.val; omega
    | ⟨1, _⟩ => show win2_3.index t (1 : Fin 2) * 3 + 1 * b.val = b.val; omega
  · show V c main_arg10 (((cfg2.win 4).blk t).view.emb (ix2 a b)) = _
    refine congrArg (V c main_arg10) (funext fun x => Fin.ext ?_)
    match x with
    | ⟨0, _⟩ => show win2_4.index t (0 : Fin 2) * 3 + 1 * a.val = a.val; omega
    | ⟨1, _⟩ => show win2_4.index t (1 : Fin 2) * 3 + 1 * b.val = b.val; omega
  · refine Fin.ext ?_
    show (j 1).val = win2_5.index t (1 : Fin 2) * 16 + 1 * (j 1).val
    omega

theorem mem_blk (t : Fin cfg2.N) (i : S3203072x16.Idx) :
    i ∈ ((cfg2.win 5).blk t).view.set ↔ ∀ a : Fin 2, win2_5.index t a * S4096x16.size a ≤ (i a).val ∧ (i a).val < win2_5.index t a * S4096x16.size a + S4096x16.size a := by
  show i ∈ ((View.whole main_v42).slice (win2_5.rect t)).set ↔ _
  rw [View.set_slice_whole, Rect.mem_set_unit]
  exact Iff.rfl

theorem cover (i : S3203072x16.Idx) : ∃ t : Fin cfg2.N, (cfg2.win 5).flush t = true ∧ i ∈ ((cfg2.win 5).blk t).view.set := by
  have hi0 : (i 0).val < 3203072 := (i 0).isLt
  have hi1 : (i 1).val < 16 := (i 1).isLt
  have hN : cfg2.N = 782 := N_2
  refine ⟨⟨(i 0).val / 4096, by rw [hN]; omega⟩, flush2_5 _, ?_⟩
  obtain ⟨-, -, -, -, -, -, -, -, -, -, e50, e51⟩ := idx_facts ⟨(i 0).val / 4096, by rw [hN]; omega⟩
  rw [mem_blk]
  intro a
  match a with
  | ⟨0, _⟩ =>
    show win2_5.index _ (0 : Fin 2) * 4096 ≤ (i 0).val ∧ (i 0).val < win2_5.index _ (0 : Fin 2) * 4096 + 4096
    rw [e50]; show (i 0).val / 4096 * 4096 ≤ (i 0).val ∧ (i 0).val < (i 0).val / 4096 * 4096 + 4096; omega
  | ⟨1, _⟩ =>
    show win2_5.index _ (1 : Fin 2) * 16 ≤ (i 1).val ∧ (i 1).val < win2_5.index _ (1 : Fin 2) * 16 + 16
    rw [e51]; omega

end Cert.KernelIdeal.KV.L2.Edge

namespace Cert.KernelIdeal.KV.L2

open Cert.KernelIdeal Cert.KernelIdeal.Gen Cert.KernelIdeal.KV Idealize.ShloMosaic Idealize.ShloMosaic.TcCoe Idealize.ShloMosaic.ValueIdx Idealize.SL.Sem

variable (V : (c : Dev nD) → (b : Ref sig .tc) → Buf (Elt Ideal) ((c : Thread nD τ).loc b))

theorem edge_out (c : Dev nD) :
    (Cert.KernelIdeal.Gen.dat2 (F := Ideal) V c).arrAt 5 cfg2.N
      = EdgeG (V c main_v40) (V c main_v41) (V c main_arg8) (V c main_arg9) (V c main_arg10) :=
  (Cert.KernelIdeal.Gen.dat2 (F := Ideal) V c).arrAt_eq_of_cover 5 (EdgeG (V c main_v40) (V c main_v41) (V c main_arg8) (V c main_arg9) (V c main_arg10))
    (fun t _ => Edge.flushed_eq V c t) Edge.cover

end Cert.KernelIdeal.KV.L2

end
-- ==== Proof.KNode2.lean ====
import proofs.«109075_j6828998001340_1_alg».proof.Proof.Gen.KernelIdeal.Frame
import proofs.«109075_j6828998001340_1_alg».proof.Proof.KDefs2
import proofs.«109075_j6828998001340_1_alg».proof.Proof.KUnit
import proofs.«109075_j6828998001340_1_alg».proof.Proof.KLib

noncomputable section

namespace Cert.KernelIdeal.KV.L2

open Cert.KernelIdeal Cert.KernelIdeal.Gen Cert.KernelIdeal.KV Idealize.ShloMosaic Idealize.ShloMosaic.TcCoe Idealize.ShloMosaic.ValueIdx Idealize.SL.Sem

open scoped BigOperators

variable (V : (c : Dev nD) → (b : Ref sig .tc) → Buf (Elt Ideal) ((c : Thread nD τ).loc b))

theorem root_at (a : FVec Ideal S4096x8 .bf16) (b : FVec Ideal S8x16 .bf16) (r : Fin 4096) (o : Fin 16) :
    matmul dot_S4096x8_S8x16_S4096x16_1_0_0_1_n_n none a b (constant (F := Ideal) S4096x16 .f32 0x00000000#32) (ix2 r o)
      = ∑ k : Fin 8, a (ix2 r k) * b (ix2 k o) :=
  mm_at a b r o

def pre (x0 : Vec Ideal S4096x8 .f32) (x1 : Vec Ideal S8x16 .f32) (x2 : Vec Ideal S1x16 .f32) (x3 : Vec Ideal S4096x16 .f32)
    (x4 : Vec Ideal S4096x1 .f32) : FVec Ideal S4096x16 .f32 :=
  addf
    (addf
      (mulf (shapeCast S4096x16 x3 shapeCasts_S4096x16_S4096x16)
        (broadcastTo S4096x16 (shapeCast S4096x1 x4 shapeCasts_S4096x1_S4096x1) broadcasts_S4096x1_S4096x16))
      (matmul dot_S4096x8_S8x16_S4096x16_1_0_0_1_n_n none
        (truncf .bf16 (shapeCast S4096x8 x0 shapeCasts_S4096x8_S4096x8) bitsLt_bf16_f32) (truncf .bf16 x1 bitsLt_bf16_f32)
        (constant S4096x16 .f32 0x00000000#32)))
    (broadcastTo S4096x16 (shapeCast S1x16 (shapeCast S1x16 x2 shapeCasts_S1x16_S1x16) shapeCasts_S1x16_S1x16) broadcasts_S1x16_S4096x16)

theorem pre_at (x0 : Vec Ideal S4096x8 .f32) (x1 : Vec Ideal S8x16 .f32) (x2 : Vec Ideal S1x16 .f32) (x3 : Vec Ideal S4096x16 .f32)
    (x4 : Vec Ideal S4096x1 .f32) (r : Fin 4096) (o : Fin 16) :
    pre x0 x1 x2 x3 x4 (ix2 r o)
      = x3 (ix2 r o) * x4 (ix2 r (0 : Fin 1)) + Cert.GMM.lin (fun d => x0 (ix2 r d)) (fun a b => x1 (ix2 a b)) o
        + x2 (ix2 (0 : Fin 1) o) := by
  unfold pre
  rw [addf_apply, addf_apply, mulf_apply, shapeCast_self, shapeCast_self, shapeCast_self, shapeCast_self, shapeCast_self,
    col_at, broadcastTo_1b_ab_apply, root_at]
  rfl

theorem pay_eq (x0 : Vec Ideal S4096x8 .f32) (x1 : Vec Ideal S8x16 .f32) (x2 : Vec Ideal S1x16 .f32) (x3 : Vec Ideal S4096x16 .f32)
    (x4 : Vec Ideal S4096x1 .f32) :
    k3_pay1 (F := Ideal) x0 x1 x3 x4 x2 = unitOn (pre x0 x1 x2 x3 x4) := rfl

theorem block_at (x0 : Vec Ideal S4096x8 .f32) (x1 : Vec Ideal S8x16 .f32) (x2 : Vec Ideal S1x16 .f32) (x3 : Vec Ideal S4096x16 .f32)
    (x4 : Vec Ideal S4096x1 .f32) (r : Fin 4096) (o : Fin 16) :
    out3_5 (F := Ideal) x0 x1 x2 x3 x4 (ix2 r o)
      = Cert.GMM.nodeK Cert.GMM.elu (fun d => x0 (ix2 r d)) (fun a b => x1 (ix2 a b)) (fun o' => x2 (ix2 (0 : Fin 1) o'))
          (x3 (ix2 r o)) (x4 (ix2 r (0 : Fin 1))) o := by
  unfold out3_5
  rw [View.canon_unit_zero hz]
  simp only [View.ld_unit_zero (S := S4096x8) hz, View.ld_unit_zero (S := S8x16) hz, View.ld_unit_zero (S := S4096x16) hz,
    View.ld_unit_zero (S := S4096x1) hz, View.ld_unit_zero (S := S1x16) hz]
  rw [pay_eq, unitOn_at, pre_at]
  rfl

theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem point_eq (hp : FA S102400x8) (root : FA S8x16) (b2 : FA S1x16) (aggp : FA S102400x16) (cp : FA S102400x1)
    (x0 : Vec Ideal S4096x8 .f32) (x1 : Vec Ideal S8x16 .f32) (x2 : Vec Ideal S1x16 .f32) (x3 : Vec Ideal S4096x16 .f32)
    (x4 : Vec Ideal S4096x1 .f32) (r : Fin 4096) (o : Fin 16) (i : S102400x16.Idx)
    (h0 : ∀ d : Fin 8, x0 (ix2 r d) = hp (ix2 (r0 i) d))
    (h1 : ∀ (a : Fin 8) (b : Fin 16), x1 (ix2 a b) = root (ix2 a b))
    (h2 : ∀ b : Fin 16, x2 (ix2 (0 : Fin 1) b) = b2 (ix2 (0 : Fin 1) b))
    (h3 : x3 (ix2 r o) = aggp (ix2 (r0 i) (c1 i)))
    (h4 : x4 (ix2 r (0 : Fin 1)) = cp (ix2 (r0 i) (0 : Fin 1)))
    (ho : o = c1 i) :
    out3_5 (F := Ideal) x0 x1 x2 x3 x4 (ix2 r o) = NodeG hp root b2 aggp cp i := by
  rw [block_at]
  unfold NodeG
  rw [funext h0, funext fun a => funext (h1 a), funext h2, h3, h4, ho]

theorem flushed_eq (c : Dev nD) (t : Fin cfg3.N) :
    (Cert.KernelIdeal.Gen.dat3 (F := Ideal) V c).flushed 5 t = ((cfg3.win 5).blk t).view.read (Elt Ideal) (NodeG (V c main_v48) (V c main_arg11) (V c main_v47) (V c main_v49) (V c main_v50)) := by
  show (cfg3.win 5).cut (grid3.coords t) ((Cert.KernelIdeal.Gen.dat3 (F := Ideal) V c).after 5 t) = _
  rw [after3_5]
  obtain ⟨e00, e01, e10, e11, e20, e21, e30, e31, e40, e41, e50, e51⟩ := idx_facts t
  funext j
  have hj0 : (j 0).val < 4096 := (j 0).isLt
  have hj1 : (j 1).val < 16 := (j 1).isLt
  have ej : win3_5.xinj (grid3.coords t) j = ix2 (⟨(j 0).val, hj0⟩ : Fin 4096) (⟨(j 1).val, hj1⟩ : Fin 16) :=
    funext fun a => by match a with | ⟨0, _⟩ => rfl | ⟨1, _⟩ => rfl
  show out3_5 (iblk3 V c 0 t) (iblk3 V c 1 t) (iblk3 V c 2 t) (iblk3 V c 3 t) (iblk3 V c 4 t) (win3_5.xinj (grid3.coords t) j)
      = NodeG (V c main_v48) (V c main_arg11) (V c main_v47) (V c main_v49) (V c main_v50) (((cfg3.win 5).blk t).view.emb j)
  rw [ej]
  refine point_eq (V c main_v48) (V c main_arg11) (V c main_v47) (V c main_v49) (V c main_v50)
    (iblk3 V c 0 t) (iblk3 V c 1 t) (iblk3 V c 2 t) (iblk3 V c 3 t) (iblk3 V c 4 t) ⟨(j 0).val, hj0⟩ ⟨(j 1).val, hj1⟩
    (((cfg3.win 5).blk t).view.emb j) (fun d => ?_) (fun a b => ?_) (fun b => ?_) ?_ ?_ ?_
  · show V c main_v48 (((cfg3.win 0).blk t).view.emb (ix2 (⟨(j 0).val, hj0⟩ : Fin 4096) d)) = _
    refine congrArg (V c main_v48) (funext fun a => Fin.ext ?_)
    match a with
    | ⟨0, _⟩ => show win3_0.index t (0 : Fin 2) * 4096 + 1 * (j 0).val = win3_5.index t (0 : Fin 2) * 4096 + 1 * (j 0).val; omega
    | ⟨1, _⟩ => show win3_0.index t (1 : Fin 2) * 8 + 1 * d.val = d.val; omega
  · show V c main_arg11 (((cfg3.win 1).blk t).view.emb (ix2 a b)) = _
    refine congrArg (V c main_arg11) (funext fun x => Fin.ext ?_)
    match x with
    | ⟨0, _⟩ => show win3_1.index t (0 : Fin 2) * 8 + 1 * a.val = a.val; omega
    | ⟨1, _⟩ => show win3_1.index t (1 : Fin 2) * 16 + 1 * b.val = b.val; omega
  · show V c main_v47 (((cfg3.win 2).blk t).view.emb (ix2 (0 : Fin 1) b)) = _
    refine congrArg (V c main_v47) (funext fun x => Fin.ext ?_)
    match x with
    | ⟨0, _⟩ => show win3_2.index t (0 : Fin 2) * 1 + 1 * 0 = 0; omega
    | ⟨1, _⟩ => show win3_2.index t (1 : Fin 2) * 16 + 1 * b.val = b.val; omega
  · show V c main_v49 (((cfg3.win 3).blk t).view.emb (ix2 (⟨(j 0).val, hj0⟩ : Fin 4096) (⟨(j 1).val, hj1⟩ : Fin 16))) = _
    refine congrArg (V c main_v49) (funext fun a => Fin.ext ?_)
    match a with
    | ⟨0, _⟩ => show win3_3.index t (0 : Fin 2) * 4096 + 1 * (j 0).val = win3_5.index t (0 : Fin 2) * 4096 + 1 * (j 0).val; omega
    | ⟨1, _⟩ => show win3_3.index t (1 : Fin 2) * 16 + 1 * (j 1).val = win3_5.index t (1 : Fin 2) * 16 + 1 * (j 1).val; omega
  · show V c main_v50 (((cfg3.win 4).blk t).view.emb (ix2 (⟨(j 0).val, hj0⟩ : Fin 4096) (0 : Fin 1))) = _
    refine congrArg (V c main_v50) (funext fun a => Fin.ext ?_)
    match a with
    | ⟨0, _⟩ => show win3_4.index t (0 : Fin 2) * 4096 + 1 * (j 0).val = win3_5.index t (0 : Fin 2) * 4096 + 1 * (j 0).val; omega
    | ⟨1, _⟩ => show win3_4.index t (1 : Fin 2) * 1 + 1 * 0 = 0; omega
  · refine Fin.ext ?_
    show (j 1).val = win3_5.index t (1 : Fin 2) * 16 + 1 * (j 1).val
    omega

theorem mem_blk (t : Fin cfg3.N) (i : S102400x16.Idx) :
    i ∈ ((cfg3.win 5).blk t).view.set
      ↔ ∀ a : Fin 2, win3_5.index t a * S4096x16.size a ≤ (i a).val ∧ (i a).val < win3_5.index t a * S4096x16.size a + S4096x16.size a := by
  show i ∈ ((View.whole main_v51).slice (win3_5.rect t)).set ↔ _
  rw [View.set_slice_whole, Rect.mem_set_unit]
  exact Iff.rfl

theorem cover (i : S102400x16.Idx) : ∃ t : Fin cfg3.N, (cfg3.win 5).flush t = true ∧ i ∈ ((cfg3.win 5).blk t).view.set := by
  have hi0 : (i 0).val < 102400 := (i 0).isLt
  have hi1 : (i 1).val < 16 := (i 1).isLt
  obtain ⟨t, ht⟩ : ∃ t : Fin cfg3.N, t.val = (i 0).val / 4096 :=
    ⟨⟨(i 0).val / 4096, by rw [show cfg3.N = 25 from N_3]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 4096 ≤ (i 0).val ∧ (i 0).val < win3_5.index t (0 : Fin 2) * 4096 + 4096
    rw [e0, ht]; omega
  | ⟨1, _⟩ =>
    show win3_5.index t (1 : Fin 2) * (16) ≤ (i 1).val ∧ (i 1).val < win3_5.index t (1 : Fin 2) * (16) + 16
    rw [e1]; omega

theorem node_out (c : Dev nD) :
    (Cert.KernelIdeal.Gen.dat3 (F := Ideal) V c).arrAt 5 cfg3.N
      = NodeG (V c main_v48) (V c main_arg11) (V c main_v47) (V c main_v49) (V c main_v50) :=
  (Cert.KernelIdeal.Gen.dat3 (F := Ideal) V c).arrAt_eq_of_cover 5
    (NodeG (V c main_v48) (V c main_arg11) (V c main_v47) (V c main_v49) (V c main_v50))
    (fun t _ => flushed_eq V c t) cover

end Cert.KernelIdeal.KV.L2

end
-- ==== Proof.KFold2.lean ====
import proofs.«109075_j6828998001340_1_alg».proof.Proof.KFoldIface
import proofs.«109075_j6828998001340_1_alg».proof.Proof.KEdge2
import proofs.«109075_j6828998001340_1_alg».proof.Proof.KNode2
import Idealize.ShloMosaic.Lib.ValueIdx
import Idealize.ShloMosaic.Lib.Pipeline.Value
import Idealize.ShloMosaic.Lib.StableHlo.Run

set_option maxRecDepth 16384

noncomputable section

namespace Cert.KernelIdeal.KV.F2

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD) (hin : FA S100000x8)

def Entry : Prop :=
  extractStridedSlice S100000x8 ![0, 0] (W12 (F := Ideal) m ρ c (Proc.devRef .tc main_v31)) slices_S102400x8_S100000x8_0_0 = hin
    ∧ W12 (F := Ideal) m ρ c (Proc.devRef .tc main_v1) = src (arg m c main_arg1)
    ∧ W12 (F := Ideal) m ρ c (Proc.devRef .tc main_v3) = dst (arg m c main_arg1)
    ∧ W12 (F := Ideal) m ρ c (Proc.devRef .tc main_v12) = cinv (arg m c main_arg1)

section Stretches

variable (V : Valuation τ sig (Elt Ideal))

theorem hin_stage
    (h : extractStridedSlice S100000x8 ![0, 0] (V (Proc.devRef .tc main_v31)) slices_S102400x8_S100000x8_0_0 = hin) :
    StableHlo.after hostOps2 V (Proc.devRef .tc main_v32) = hin := by
  after_results
  exact h

theorem xj_stage (a1 : IA S2x3200000)
    (h : extractStridedSlice S100000x8 ![0, 0] (V (Proc.devRef .tc main_v31)) slices_S102400x8_S100000x8_0_0 = hin)
    (hs : V (Proc.devRef .tc main_v1) = src a1) :
    StableHlo.after hostOps2 V (Proc.devRef .tc main_v39)
      = Host.gather gather_S100000x8_S3200000x1_S3200000x8_1_0_n_n_0_1_18 hin (srcIdx a1) := by
  after_results
  rw [hs, h]
  all_goals rfl

theorem zero1_stage : StableHlo.after hostOps2 V (Proc.devRef .tc main_c_12) = constantI S_ 32 0#32 := by
  after_results
  all_goals rfl

theorem xjPad_stage (x : FA S3200000x8) (h1 : V (Proc.devRef .tc main_v39) = x)
    (h2 : V (Proc.devRef .tc main_c_12) = constantI S_ 32 0#32) :
    StableHlo.after hostOps2_1 V (Proc.devRef .tc main_v40)
      = pad S3203072x8 ![0, 0] ![3072, 0] ![0, 0] x padv pads_S3200000x8_S3203072x8_030720_000 h_S_ := by
  after_results
  rw [h1, h2]
  all_goals rfl

theorem zero2_stage : StableHlo.after hostOps2_2 V (Proc.devRef .tc main_c_13) = constantI S_ 32 0#32 := by
  after_results
  all_goals rfl

theorem eaPad_stage (ea : FA S3200000x3) (h1 : V (Proc.devRef .tc main_arg2) = ea)
    (h2 : V (Proc.devRef .tc main_c_13) = constantI S_ 32 0#32) :
    StableHlo.after hostOps2_3 V (Proc.devRef .tc main_v41)
      = pad S3203072x3 ![0, 0] ![3072, 0] ![0, 0] ea padv pads_S3200000x3_S3203072x3_030720_000 h_S_ := by
  after_results
  rw [h1, h2]
  all_goals rfl

theorem agg_stage (M : FA S3203072x16) (d : IA S3200000) (h1 : V (Proc.devRef .tc main_v42) = M)
    (h2 : V (Proc.devRef .tc main_v3) = d) :
    StableHlo.after hostOps3 V (Proc.devRef .tc main_v46)
      = Host.scatterAdd (F := Ideal) scatter_S100000x16_S3200000x1_S3200000x16_1_0_0_1
          (broadcastInDim S100000x16 ![] bcast_S_S100000x16 (constant (F := Ideal) S_ .f32 0x00000000#32))
          (broadcastInDim S3200000x1 ![0] bcast_S3200000_S3200000x1_0 d)
          (extractStridedSlice S3200000x16 ![0, 0] M slices_S3203072x16_S3200000x16_0_0) := by
  after_results
  rw [h1, h2]
  all_goals rfl

theorem b2_stage (b : FA S16) (h : V (Proc.devRef .tc main_arg12) = b) :
    StableHlo.after hostOps3 V (Proc.devRef .tc main_v47) = shapeCast S1x16 b shapeCasts_S16_S1x16 := by
  after_results
  rw [h]
  all_goals rfl

theorem zero3_stage : StableHlo.after hostOps3 V (Proc.devRef .tc main_c_15) = constantI S_ 32 0#32 := by
  after_results
  all_goals rfl

theorem hp_stage (x : FA S100000x8) (h1 : V (Proc.devRef .tc main_v32) = x)
    (h2 : V (Proc.devRef .tc main_c_15) = constantI S_ 32 0#32) :
    StableHlo.after hostOps3_1 V (Proc.devRef .tc main_v48) = L2.hPad x := by
  after_results
  rw [h1, h2]
  all_goals rfl

theorem zero4_stage : StableHlo.after hostOps3_2 V (Proc.devRef .tc main_c_16) = constantI S_ 32 0#32 := by
  after_results
  all_goals rfl

theorem aggP_stage (A : FA S100000x16) (h1 : V (Proc.devRef .tc main_v46) = A)
    (h2 : V (Proc.devRef .tc main_c_16) = constantI S_ 32 0#32) :
    StableHlo.after hostOps3_3 V (Proc.devRef .tc main_v49) = L2.aggPad A := by
  after_results
  rw [h1, h2]
  all_goals rfl

theorem zero5_stage : StableHlo.after hostOps3_4 V (Proc.devRef .tc main_c_17) = constantI S_ 32 0#32 := by
  after_results
  all_goals rfl

theorem cP_stage (C : FA S100000x1) (h1 : V (Proc.devRef .tc main_v12) = C)
    (h2 : V (Proc.devRef .tc main_c_17) = constantI S_ 32 0#32) :
    StableHlo.after hostOps3_5 V (Proc.devRef .tc main_v50)
      = cPad C := by
  after_results
  rw [h1, h2]
  all_goals rfl

end Stretches

theorem hin_W13 (H : Entry m ρ c hin) : W13 (F := Ideal) m ρ c (Proc.devRef .tc main_v32) = hin :=
  hin_stage hin _ H.1

theorem xj_W13 (H : Entry m ρ c hin) : W13 (F := Ideal) m ρ c (Proc.devRef .tc main_v39)
    = Host.gather gather_S100000x8_S3200000x1_S3200000x8_1_0_n_n_0_1_18 hin (srcIdx (arg m c main_arg1)) :=
  xj_stage hin _ _ H.1 H.2.1

theorem xjPad_W14 (H : Entry m ρ c hin) :
    W14 (F := Ideal) m ρ c (Proc.devRef .tc main_v40) = L2.xjPad hin (arg m c main_arg1) := by
  unfold L2.xjPad
  exact xjPad_stage _ _ (xj_W13 m ρ c hin H) (zero1_stage _)

theorem ea_W15 : W15 (F := Ideal) m ρ c (Proc.devRef .tc main_arg2) = arg m c main_arg2 := by fold_launch

theorem eaPad_W16 : W16 (F := Ideal) m ρ c (Proc.devRef .tc main_v41) = L2.eaPad (arg m c main_arg2) := by
  unfold L2.eaPad
  exact eaPad_stage _ _ (ea_W15 m ρ c) (zero2_stage _)

theorem xjPad_W16 (H : Entry m ρ c hin) :
    W16 (F := Ideal) m ρ c (Proc.devRef .tc main_v40) = L2.xjPad hin (arg m c main_arg1) := by
  fold_carry xjPad_W14 m ρ c hin H

theorem g_W16 : W16 (F := Ideal) m ρ c (Proc.devRef .tc main_arg8) = arg m c main_arg8 := by fold_launch

theorem mu_W16 : W16 (F := Ideal) m ρ c (Proc.devRef .tc main_arg9) = arg m c main_arg9 := by fold_launch

theorem sg_W16 : W16 (F := Ideal) m ρ c (Proc.devRef .tc main_arg10) = arg m c main_arg10 := by fold_launch

theorem msgP_W17 (H : Entry m ρ c hin) : W17 (F := Ideal) m ρ c (Proc.devRef .tc main_v42)
    = L2.EdgeG (L2.xjPad hin (arg m c main_arg1)) (L2.eaPad (arg m c main_arg2)) (arg m c main_arg8) (arg m c main_arg9)
        (arg m c main_arg10) := by
  refine (W17_arr m ρ c 5).trans ((L2.edge_out (V16 m ρ) c).trans ?_)
  dsimp only [V16]
  rw [xjPad_W16 m ρ c hin H, eaPad_W16 m ρ c, g_W16 m ρ c, mu_W16 m ρ c, sg_W16 m ρ c]

theorem dst_W17 (H : Entry m ρ c hin) : W17 (F := Ideal) m ρ c (Proc.devRef .tc main_v3) = dst (arg m c main_arg1) := by
  obtain ⟨-, -, h_dst, -⟩ := H
  fold_carry h_dst

theorem b_W17 : W17 (F := Ideal) m ρ c (Proc.devRef .tc main_arg12) = arg m c main_arg12 := by fold_launch

theorem agg_W18 (H : Entry m ρ c hin) : W18 (F := Ideal) m ρ c (Proc.devRef .tc main_v46)
    = L2.agg hin (arg m c main_arg1) (arg m c main_arg2) (arg m c main_arg8) (arg m c main_arg9) (arg m c main_arg10) := by
  unfold L2.agg L2.msg dstIdx
  exact agg_stage _ _ _ (msgP_W17 m ρ c hin H) (dst_W17 m ρ c hin H)

theorem b2_W18 : W18 (F := Ideal) m ρ c (Proc.devRef .tc main_v47) = shapeCast S1x16 (arg m c main_arg12) shapeCasts_S16_S1x16 :=
  b2_stage _ _ (b_W17 m ρ c)

theorem hin_W18 (H : Entry m ρ c hin) : W18 (F := Ideal) m ρ c (Proc.devRef .tc main_v32) = hin := by
  fold_carry hin_W13 m ρ c hin H

theorem hp_W19 (H : Entry m ρ c hin) : W19 (F := Ideal) m ρ c (Proc.devRef .tc main_v48) = L2.hPad hin :=
  hp_stage _ _ (hin_W18 m ρ c hin H) (zero3_stage _)

theorem agg_W20 (H : Entry m ρ c hin) : W20 (F := Ideal) m ρ c (Proc.devRef .tc main_v46)
    = L2.agg hin (arg m c main_arg1) (arg m c main_arg2) (arg m c main_arg8) (arg m c main_arg9) (arg m c main_arg10) := by
  fold_carry agg_W18 m ρ c hin H

theorem aggP_W21 (H : Entry m ρ c hin) : W21 (F := Ideal) m ρ c (Proc.devRef .tc main_v49)
    = L2.aggPad (L2.agg hin (arg m c main_arg1) (arg m c main_arg2) (arg m c main_arg8) (arg m c main_arg9) (arg m c main_arg10)) :=
  aggP_stage _ _ (agg_W20 m ρ c hin H) (zero4_stage _)

theorem cinv_W22 (H : Entry m ρ c hin) : W22 (F := Ideal) m ρ c (Proc.devRef .tc main_v12) = cinv (arg m c main_arg1) := by
  obtain ⟨-, -, -, h_cinv⟩ := H
  fold_carry h_cinv

theorem cP_W23 (H : Entry m ρ c hin) : W23 (F := Ideal) m ρ c (Proc.devRef .tc main_v50)
    = cPad (cinv (arg m c main_arg1)) :=
  cP_stage _ _ (cinv_W22 m ρ c hin H) (zero5_stage _)

theorem hp_W23 (H : Entry m ρ c hin) : W23 (F := Ideal) m ρ c (Proc.devRef .tc main_v48) = L2.hPad hin := by
  fold_carry hp_W19 m ρ c hin H

theorem root_W23 : W23 (F := Ideal) m ρ c (Proc.devRef .tc main_arg11) = arg m c main_arg11 := by fold_launch

theorem b2_W23 : W23 (F := Ideal) m ρ c (Proc.devRef .tc main_v47) = shapeCast S1x16 (arg m c main_arg12) shapeCasts_S16_S1x16 := by
  fold_carry b2_W18 m ρ c

theorem aggP_W23 (H : Entry m ρ c hin) : W23 (F := Ideal) m ρ c (Proc.devRef .tc main_v49)
    = L2.aggPad (L2.agg hin (arg m c main_arg1) (arg m c main_arg2) (arg m c main_arg8) (arg m c main_arg9) (arg m c main_arg10)) := by
  fold_carry aggP_W21 m ρ c hin H

theorem outP_W24 (H : Entry m ρ c hin) : W24 (F := Ideal) m ρ c (Proc.devRef .tc main_v51)
    = L2.NodeG (L2.hPad hin)
        (arg m c main_arg11) (shapeCast S1x16 (arg m c main_arg12) shapeCasts_S16_S1x16)
        (L2.aggPad (L2.agg hin (arg m c main_arg1) (arg m c main_arg2) (arg m c main_arg8) (arg m c main_arg9) (arg m c main_arg10)))
        (cPad (cinv (arg m c main_arg1))) := by
  refine (W24_arr m ρ c 5).trans ((L2.node_out (V23 m ρ) c).trans ?_)
  dsimp only [V23]
  rw [hp_W23 m ρ c hin H, root_W23 m ρ c, b2_W23 m ρ c, aggP_W23 m ρ c hin H, cP_W23 m ρ c hin H]

end Cert.KernelIdeal.KV.F2

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem fold2 (c : Dev nD) (hin : FA S100000x8)
    (h_in : extractStridedSlice S100000x8 ![0, 0] (W12 (F := Ideal) m ρ c (Proc.devRef .tc main_v31)) slices_S102400x8_S100000x8_0_0 = hin)
    (h_src : W12 (F := Ideal) m ρ c (Proc.devRef .tc main_v1) = src (arg m c main_arg1))
    (h_dst : W12 (F := Ideal) m ρ c (Proc.devRef .tc main_v3) = dst (arg m c main_arg1))
    (h_cinv : W12 (F := Ideal) m ρ c (Proc.devRef .tc main_v12) = cinv (arg m c main_arg1)) :
    extractStridedSlice S100000x16 ![0, 0] (W24 (F := Ideal) m ρ c (Proc.devRef .tc main_v51)) slices_S102400x16_S100000x16_0_0
        = L2.layer hin (arg m c main_arg1) (arg m c main_arg2) (arg m c main_arg8) (arg m c main_arg9) (arg m c main_arg10)
            (arg m c main_arg11) (arg m c main_arg12)
      ∧ W24 (F := Ideal) m ρ c (Proc.devRef .tc main_v1) = src (arg m c main_arg1)
      ∧ W24 (F := Ideal) m ρ c (Proc.devRef .tc main_v3) = dst (arg m c main_arg1)
      ∧ W24 (F := Ideal) m ρ c (Proc.devRef .tc main_v12) = cinv (arg m c main_arg1) := by
  have H : F2.Entry m ρ c hin := ⟨h_in, h_src, h_dst, h_cinv⟩
  refine ⟨?_, ?_, ?_, ?_⟩
  · unfold L2.layer
    rw [F2.outP_W24 m ρ c hin H]
  · fold_carry h_src
  · fold_carry h_dst
  · fold_carry h_cinv

end Cert.KernelIdeal.KV

end
-- ==== Proof.KEdge3.lean ====
import proofs.«109075_j6828998001340_1_alg».proof.Proof.Gen.KernelIdeal.Frame
import proofs.«109075_j6828998001340_1_alg».proof.Proof.KDefs3
import proofs.«109075_j6828998001340_1_alg».proof.Proof.KLib

noncomputable section

open scoped BigOperators

namespace Cert.KernelIdeal.KV.L3.Edge

open Cert.KernelIdeal Cert.KernelIdeal.Gen Cert.KernelIdeal.KV Cert.KernelIdeal.KV.L3 Idealize.ShloMosaic Idealize.ShloMosaic.TcCoe Idealize.ShloMosaic.ValueIdx Idealize.SL.Sem

theorem proj_at (x0 : Vec Ideal S4096x16 .f32) (x2 : Vec Ideal S16x24 .f32) (r : Fin 4096) (q : Fin 24) :
    k4_pay2 (F := Ideal) x0 x2 (ix2 r q) = ∑ i : Fin 16, x0 (ix2 r i) * x2 (ix2 i q) := by
  unfold k4_pay2
  refine (mm_at _ _ r q).trans ?_
  simp only [truncf_apply, shapeCast_self]

theorem slice0_at (P : FVec Ideal S4096x24 .f32) (r : Fin 4096) (o : Fin 8) :
    extractStridedSlice S4096x8 ![0, 0] P slices_S4096x24_o0_0_S4096x8 (ix2 r o) = P (ix2 r (⟨0 * 8 + o.val, by omega⟩ : Fin 24)) :=
  extractStridedSlice_apply _ P _ (ix2 r o) _ (fun a => by match a with | ⟨0, _⟩ => (show r.val = 0 + r.val; omega) | ⟨1, _⟩ => (show 0 * 8 + o.val = 0 + o.val; omega))

theorem slice1_at (P : FVec Ideal S4096x24 .f32) (r : Fin 4096) (o : Fin 8) :
    extractStridedSlice S4096x8 ![0, 8] P slices_S4096x24_o0_8_S4096x8 (ix2 r o) = P (ix2 r (⟨1 * 8 + o.val, by omega⟩ : Fin 24)) :=
  extractStridedSlice_apply _ P _ (ix2 r o) _ (fun a => by match a with | ⟨0, _⟩ => (show r.val = 0 + r.val; omega) | ⟨1, _⟩ => (show 1 * 8 + o.val = 8 + o.val; omega))

theorem slice2_at (P : FVec Ideal S4096x24 .f32) (r : Fin 4096) (o : Fin 8) :
    extractStridedSlice S4096x8 ![0, 16] P slices_S4096x24_o0_16_S4096x8 (ix2 r o) = P (ix2 r (⟨2 * 8 + o.val, by omega⟩ : Fin 24)) :=
  extractStridedSlice_apply _ P _ (ix2 r o) _ (fun a => by match a with | ⟨0, _⟩ => (show r.val = 0 + r.val; omega) | ⟨1, _⟩ => (show 2 * 8 + o.val = 16 + o.val; omega))

theorem coords_eq (v6 : Vec Ideal S4096x3 .f32) : k4_pay3 (F := Ideal) v6 = v6 := by
  unfold k4_pay3; exact shapeCast_self _ _

theorem widths1_at (v35 : Vec Ideal S1x3 .f32) (d : Fin 3) : k4_pay5 (F := Ideal) v35 (ix1 d) = v35 (ix2 (0 : Fin 1) d) := by
  unfold k4_pay5; exact cast3_at v35 d

theorem centred1_at (v6 : Vec Ideal S4096x3 .f32) (v33 : Vec Ideal S1x3 .f32) (r : Fin 4096) (d : Fin 3) :
    k4_pay6 (F := Ideal) v6 v33 (ix2 r d) = v6 (ix2 r d) - v33 (ix2 (0 : Fin 1) d) := by
  unfold k4_pay6
  refine (diff_at (k4_pay3 (F := Ideal) v6) v33 r d).trans ?_
  rw [coords_eq]

theorem term0_at (v0 : Vec Ideal S4096x16 .f32) (v3 : Vec Ideal S16x24 .f32) (v6 : Vec Ideal S4096x3 .f32) (v9 v11 : Vec Ideal S1x3 .f32)
    (r : Fin 4096) (o : Fin 8) :
    k4_pay4 (F := Ideal) v0 v3 v6 v9 v11 (ix2 r o)
      = Ideal.ofBits .f32 0x00000000#32 + k4_pay2 (F := Ideal) v0 v3 (ix2 r (⟨0 * 8 + o.val, by omega⟩ : Fin 24))
          * Ideal.exp (Ideal.ofBits .f32 0xBF000000#32 * ∑ d : Fin 3,
              Ideal.div ((v6 (ix2 r d) - v9 (ix2 (0 : Fin 1) d)) * (v6 (ix2 r d) - v9 (ix2 (0 : Fin 1) d)))
                (Ideal.ofBits .f32 0x26901D7D#32 + v11 (ix2 (0 : Fin 1) d) * v11 (ix2 (0 : Fin 1) d))) := by
  unfold k4_pay4
  show Ideal.ofBits .f32 0x00000000#32
      + extractStridedSlice S4096x8 ![0, 0] (k4_pay2 (F := Ideal) v0 v3) slices_S4096x24_o0_0_S4096x8 (ix2 r o)
        * broadcastTo S4096x8 _ broadcasts_S4096x1_S4096x8 (ix2 r o) = _
  rw [slice0_at, weight_at]
  simp only [diff_at, cast13_at, cast3_at, coords_eq]

theorem stored_at (v5 : FVec Ideal S4096x24 .f32) (v7 : FVec Ideal S4096x3 .f32) (v32 : FVec Ideal S4096x8 .f32) (v36 : FVec Ideal S3 .f32)
    (v39 : FVec Ideal S4096x3 .f32) (v57 v59 : Vec Ideal S1x3 .f32) (r : Fin 4096) (o : Fin 8) :
    k4_pay1 (F := Ideal) v5 v7 v32 v36 v39 v57 v59 (ix2 r o)
      = v32 (ix2 r o)
        + v5 (ix2 r (⟨1 * 8 + o.val, by omega⟩ : Fin 24))
          * Ideal.exp (Ideal.ofBits .f32 0xBF000000#32 * ∑ d : Fin 3,
              Ideal.div (v39 (ix2 r d) * v39 (ix2 r d)) (Ideal.ofBits .f32 0x26901D7D#32 + v36 (ix1 d) * v36 (ix1 d)))
        + v5 (ix2 r (⟨2 * 8 + o.val, by omega⟩ : Fin 24))
          * Ideal.exp (Ideal.ofBits .f32 0xBF000000#32 * ∑ d : Fin 3,
              Ideal.div ((v7 (ix2 r d) - v57 (ix2 (0 : Fin 1) d)) * (v7 (ix2 r d) - v57 (ix2 (0 : Fin 1) d)))
                (Ideal.ofBits .f32 0x26901D7D#32 + v59 (ix2 (0 : Fin 1) d) * v59 (ix2 (0 : Fin 1) d))) := by
  unfold k4_pay1
  show v32 (ix2 r o)
      + extractStridedSlice S4096x8 ![0, 8] v5 slices_S4096x24_o0_8_S4096x8 (ix2 r o) * broadcastTo S4096x8 _ broadcasts_S4096x1_S4096x8 (ix2 r o)
      + extractStridedSlice S4096x8 ![0, 16] v5 slices_S4096x24_o0_16_S4096x8 (ix2 r o) * broadcastTo S4096x8 _ broadcasts_S4096x1_S4096x8 (ix2 r o) = _
  rw [slice1_at, slice2_at, weight_at, weight_at]
  simp only [diff_at, cast13_at, cast3_at]

theorem block_at (x0 : Vec Ideal S4096x16 .f32) (x1 : Vec Ideal S4096x3 .f32) (x2 : Vec Ideal S16x24 .f32) (x3 x4 : Vec Ideal S3x3 .f32)
    (r : Fin 4096) (o : Fin 8) :
    out4_5 (F := Ideal) x0 x1 x2 x3 x4 (ix2 r o)
      = Cert.GMM.edgeMsg (by decide) (fun d => x0 (ix2 r d)) (fun d => x1 (ix2 r d)) (fun a b => x2 (ix2 a b)) (fun a b => x3 (ix2 a b))
          (fun a b => x4 (ix2 a b)) o := by
  unfold out4_5
  rw [View.canon_unit_zero hz]
  simp only [View.ld_unit_zero (S := S4096x16) hz, View.ld_unit_zero (S := S16x24) hz, View.ld_unit_zero (S := S4096x3) hz]
  rw [stored_at, term0_at]
  simp only [proj_at, coords_eq, widths1_at, centred1_at, ld_row x3 0 (by omega) inb_S3x3_S1x3_0_0, ld_row x4 0 (by omega) inb_S3x3_S1x3_0_0,
    ld_row x3 1 (by omega) inb_S3x3_S1x3_1_0, ld_row x4 1 (by omega) inb_S3x3_S1x3_1_0,
    ld_row x3 2 (by omega) inb_S3x3_S1x3_2_0, ld_row x4 2 (by omega) inb_S3x3_S1x3_2_0]
  unfold Cert.GMM.edgeMsg Cert.GMM.proj Cert.GMM.gauss
  rw [Ideal.ofBits_zero_f32, zero_add]
  refine Eq.trans ?_ (Fin.sum_univ_three _).symm
  rfl

theorem point_eq (xp : FA S3203072x16) (eap : FA S3203072x3) (g : FA S16x24) (mu sg : FA S3x3)
    (x0 : Vec Ideal S4096x16 .f32) (x1 : Vec Ideal S4096x3 .f32) (x2 : Vec Ideal S16x24 .f32) (x3 x4 : Vec Ideal S3x3 .f32)
    (r : Fin 4096) (o : Fin 8) (i : S3203072x8.Idx)
    (h0 : ∀ d : Fin 16, x0 (ix2 r d) = xp (ix2 (r0 i) d))
    (h1 : ∀ d : Fin 3, x1 (ix2 r d) = eap (ix2 (r0 i) d))
    (h2 : ∀ (a : Fin 16) (b : Fin 24), x2 (ix2 a b) = g (ix2 a b))
    (h3 : ∀ (a : Fin 3) (b : Fin 3), x3 (ix2 a b) = mu (ix2 a b))
    (h4 : ∀ (a : Fin 3) (b : Fin 3), x4 (ix2 a b) = sg (ix2 a b))
    (ho : o = c1 i) :
    out4_5 (F := Ideal) x0 x1 x2 x3 x4 (ix2 r o) = EdgeG xp eap g mu sg i := by
  rw [block_at]
  unfold EdgeG
  rw [funext h0, funext h1, funext fun a => funext (h2 a), funext fun a => funext (h3 a), funext fun a => funext (h4 a), ho]

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

theorem flushed_eq (c : Dev nD) (t : Fin cfg4.N) :
    (dat4 (F := Ideal) V c).flushed 5 t
      = ((cfg4.win 5).blk t).view.read (Elt Ideal) (EdgeG (V c main_v60) (V c main_v61) (V c main_arg13) (V c main_arg14) (V c main_arg15)) := by
  show (cfg4.win 5).cut (grid4.coords t) ((dat4 V c).after 5 t) = _
  rw [after4_5]
  obtain ⟨e00, e01, e10, e11, e20, e21, e30, e31, e40, e41, e50, e51⟩ := idx_facts t
  funext j
  have hj0 : (j 0).val < 4096 := (j 0).isLt
  have hj1 : (j 1).val < 8 := (j 1).isLt
  have ej : win4_5.xinj (grid4.coords t) j = ix2 (⟨(j 0).val, hj0⟩ : Fin 4096) (⟨(j 1).val, hj1⟩ : Fin 8) :=
    funext fun a => by match a with | ⟨0, _⟩ => rfl | ⟨1, _⟩ => rfl
  show out4_5 (iblk4 V c 0 t) (iblk4 V c 1 t) (iblk4 V c 2 t) (iblk4 V c 3 t) (iblk4 V c 4 t) (win4_5.xinj (grid4.coords t) j)
      = EdgeG (V c main_v60) (V c main_v61) (V c main_arg13) (V c main_arg14) (V c main_arg15) (((cfg4.win 5).blk t).view.emb j)
  rw [ej]
  refine point_eq (V c main_v60) (V c main_v61) (V c main_arg13) (V c main_arg14) (V c main_arg15)
    (iblk4 V c 0 t) (iblk4 V c 1 t) (iblk4 V c 2 t) (iblk4 V c 3 t) (iblk4 V c 4 t) ⟨(j 0).val, hj0⟩ ⟨(j 1).val, hj1⟩
    (((cfg4.win 5).blk t).view.emb j) (fun d => ?_) (fun d => ?_) (fun a b => ?_) (fun a b => ?_) (fun a b => ?_) ?_
  · show V c main_v60 (((cfg4.win 0).blk t).view.emb (ix2 (⟨(j 0).val, hj0⟩ : Fin 4096) d)) = _
    refine congrArg (V c main_v60) (funext fun a => Fin.ext ?_)
    match a with
    | ⟨0, _⟩ => show win4_0.index t (0 : Fin 2) * 4096 + 1 * (j 0).val = win4_5.index t (0 : Fin 2) * 4096 + 1 * (j 0).val; omega
    | ⟨1, _⟩ => show win4_0.index t (1 : Fin 2) * 16 + 1 * d.val = d.val; omega
  · show V c main_v61 (((cfg4.win 1).blk t).view.emb (ix2 (⟨(j 0).val, hj0⟩ : Fin 4096) d)) = _
    refine congrArg (V c main_v61) (funext fun a => Fin.ext ?_)
    match a with
    | ⟨0, _⟩ => show win4_1.index t (0 : Fin 2) * 4096 + 1 * (j 0).val = win4_5.index t (0 : Fin 2) * 4096 + 1 * (j 0).val; omega
    | ⟨1, _⟩ => show win4_1.index t (1 : Fin 2) * 3 + 1 * d.val = d.val; omega
  · show V c main_arg13 (((cfg4.win 2).blk t).view.emb (ix2 a b)) = _
    refine congrArg (V c main_arg13) (funext fun x => Fin.ext ?_)
    match x with
    | ⟨0, _⟩ => show win4_2.index t (0 : Fin 2) * 16 + 1 * a.val = a.val; omega
    | ⟨1, _⟩ => show win4_2.index t (1 : Fin 2) * 24 + 1 * b.val = b.val; omega
  · show V c main_arg14 (((cfg4.win 3).blk t).view.emb (ix2 a b)) = _
    refine congrArg (V c main_arg14) (funext fun x => Fin.ext ?_)
    match x with
    | ⟨0, _⟩ => show win4_3.index t (0 : Fin 2) * 3 + 1 * a.val = a.val; omega
    | ⟨1, _⟩ => show win4_3.index t (1 : Fin 2) * 3 + 1 * b.val = b.val; omega
  · show V c main_arg15 (((cfg4.win 4).blk t).view.emb (ix2 a b)) = _
    refine congrArg (V c main_arg15) (funext fun x => Fin.ext ?_)
    match x with
    | ⟨0, _⟩ => show win4_4.index t (0 : Fin 2) * 3 + 1 * a.val = a.val; omega
    | ⟨1, _⟩ => show win4_4.index t (1 : Fin 2) * 3 + 1 * b.val = b.val; omega
  · refine Fin.ext ?_
    show (j 1).val = win4_5.index t (1 : Fin 2) * 8 + 1 * (j 1).val
    omega

theorem mem_blk (t : Fin cfg4.N) (i : S3203072x8.Idx) :
    i ∈ ((cfg4.win 5).blk t).view.set ↔ ∀ a : Fin 2, win4_5.index t a * S4096x8.size a ≤ (i a).val ∧ (i a).val < win4_5.index t a * S4096x8.size a + S4096x8.size a := by
  show i ∈ ((View.whole main_v62).slice (win4_5.rect t)).set ↔ _
  rw [View.set_slice_whole, Rect.mem_set_unit]
  exact Iff.rfl

theorem cover (i : S3203072x8.Idx) : ∃ t : Fin cfg4.N, (cfg4.win 5).flush t = true ∧ i ∈ ((cfg4.win 5).blk t).view.set := by
  have hi0 : (i 0).val < 3203072 := (i 0).isLt
  have hi1 : (i 1).val < 8 := (i 1).isLt
  have hN : cfg4.N = 782 := N_4
  refine ⟨⟨(i 0).val / 4096, by rw [hN]; omega⟩, flush4_5 _, ?_⟩
  obtain ⟨-, -, -, -, -, -, -, -, -, -, e50, e51⟩ := idx_facts ⟨(i 0).val / 4096, by rw [hN]; omega⟩
  rw [mem_blk]
  intro a
  match a with
  | ⟨0, _⟩ =>
    show win4_5.index _ (0 : Fin 2) * 4096 ≤ (i 0).val ∧ (i 0).val < win4_5.index _ (0 : Fin 2) * 4096 + 4096
    rw [e50]; show (i 0).val / 4096 * 4096 ≤ (i 0).val ∧ (i 0).val < (i 0).val / 4096 * 4096 + 4096; omega
  | ⟨1, _⟩ =>
    show win4_5.index _ (1 : Fin 2) * 8 ≤ (i 1).val ∧ (i 1).val < win4_5.index _ (1 : Fin 2) * 8 + 8
    rw [e51]; omega

end Cert.KernelIdeal.KV.L3.Edge

namespace Cert.KernelIdeal.KV.L3

open Cert.KernelIdeal Cert.KernelIdeal.Gen Cert.KernelIdeal.KV Idealize.ShloMosaic Idealize.ShloMosaic.TcCoe Idealize.ShloMosaic.ValueIdx Idealize.SL.Sem

variable (V : (c : Dev nD) → (b : Ref sig .tc) → Buf (Elt Ideal) ((c : Thread nD τ).loc b))

theorem edge_out (c : Dev nD) :
    (Cert.KernelIdeal.Gen.dat4 (F := Ideal) V c).arrAt 5 cfg4.N
      = EdgeG (V c main_v60) (V c main_v61) (V c main_arg13) (V c main_arg14) (V c main_arg15) :=
  (Cert.KernelIdeal.Gen.dat4 (F := Ideal) V c).arrAt_eq_of_cover 5 (EdgeG (V c main_v60) (V c main_v61) (V c main_arg13) (V c main_arg14) (V c main_arg15))
    (fun t _ => Edge.flushed_eq V c t) Edge.cover

end Cert.KernelIdeal.KV.L3

end
-- ==== Proof.KNode3.lean ====
import proofs.«109075_j6828998001340_1_alg».proof.Proof.Gen.KernelIdeal.Frame
import proofs.«109075_j6828998001340_1_alg».proof.Proof.KDefs3
import proofs.«109075_j6828998001340_1_alg».proof.Proof.KUnit
import proofs.«109075_j6828998001340_1_alg».proof.Proof.KLib

noncomputable section

namespace Cert.KernelIdeal.KV.L3

open Cert.KernelIdeal Cert.KernelIdeal.Gen Cert.KernelIdeal.KV Idealize.ShloMosaic Idealize.ShloMosaic.TcCoe Idealize.ShloMosaic.ValueIdx Idealize.SL.Sem

open scoped BigOperators

variable (V : (c : Dev nD) → (b : Ref sig .tc) → Buf (Elt Ideal) ((c : Thread nD τ).loc b))

theorem root_at (a : FVec Ideal S4096x16 .bf16) (b : FVec Ideal S16x8 .bf16) (r : Fin 4096) (o : Fin 8) :
    matmul dot_S4096x16_S16x8_S4096x8_1_0_0_1_n_n none a b (constant (F := Ideal) S4096x8 .f32 0x00000000#32) (ix2 r o)
      = ∑ k : Fin 16, a (ix2 r k) * b (ix2 k o) :=
  mm_at a b r o

def pre (x0 : Vec Ideal S4096x16 .f32) (x1 : Vec Ideal S16x8 .f32) (x2 : Vec Ideal S1x8 .f32) (x3 : Vec Ideal S4096x8 .f32)
    (x4 : Vec Ideal S4096x1 .f32) : FVec Ideal S4096x8 .f32 :=
  addf
    (addf
      (mulf (shapeCast S4096x8 x3 shapeCasts_S4096x8_S4096x8)
        (broadcastTo S4096x8 (shapeCast S4096x1 x4 shapeCasts_S4096x1_S4096x1) broadcasts_S4096x1_S4096x8))
      (matmul dot_S4096x16_S16x8_S4096x8_1_0_0_1_n_n none
        (truncf .bf16 (shapeCast S4096x16 x0 shapeCasts_S4096x16_S4096x16) bitsLt_bf16_f32) (truncf .bf16 x1 bitsLt_bf16_f32)
        (constant S4096x8 .f32 0x00000000#32)))
    (broadcastTo S4096x8 (shapeCast S1x8 (shapeCast S1x8 x2 shapeCasts_S1x8_S1x8) shapeCasts_S1x8_S1x8) broadcasts_S1x8_S4096x8)

theorem pre_at (x0 : Vec Ideal S4096x16 .f32) (x1 : Vec Ideal S16x8 .f32) (x2 : Vec Ideal S1x8 .f32) (x3 : Vec Ideal S4096x8 .f32)
    (x4 : Vec Ideal S4096x1 .f32) (r : Fin 4096) (o : Fin 8) :
    pre x0 x1 x2 x3 x4 (ix2 r o)
      = x3 (ix2 r o) * x4 (ix2 r (0 : Fin 1)) + Cert.GMM.lin (fun d => x0 (ix2 r d)) (fun a b => x1 (ix2 a b)) o
        + x2 (ix2 (0 : Fin 1) o) := by
  unfold pre
  rw [addf_apply, addf_apply, mulf_apply, shapeCast_self, shapeCast_self, shapeCast_self, shapeCast_self, shapeCast_self,
    col_at, broadcastTo_1b_ab_apply, root_at]
  rfl

theorem pay_eq (x0 : Vec Ideal S4096x16 .f32) (x1 : Vec Ideal S16x8 .f32) (x2 : Vec Ideal S1x8 .f32) (x3 : Vec Ideal S4096x8 .f32)
    (x4 : Vec Ideal S4096x1 .f32) :
    k5_pay1 (F := Ideal) x0 x1 x3 x4 x2 = unitOn (pre x0 x1 x2 x3 x4) := rfl

theorem block_at (x0 : Vec Ideal S4096x16 .f32) (x1 : Vec Ideal S16x8 .f32) (x2 : Vec Ideal S1x8 .f32) (x3 : Vec Ideal S4096x8 .f32)
    (x4 : Vec Ideal S4096x1 .f32) (r : Fin 4096) (o : Fin 8) :
    out5_5 (F := Ideal) x0 x1 x2 x3 x4 (ix2 r o)
      = Cert.GMM.nodeK Cert.GMM.elu (fun d => x0 (ix2 r d)) (fun a b => x1 (ix2 a b)) (fun o' => x2 (ix2 (0 : Fin 1) o'))
          (x3 (ix2 r o)) (x4 (ix2 r (0 : Fin 1))) o := by
  unfold out5_5
  rw [View.canon_unit_zero hz]
  simp only [View.ld_unit_zero (S := S4096x16) hz, View.ld_unit_zero (S := S16x8) hz, View.ld_unit_zero (S := S4096x8) hz,
    View.ld_unit_zero (S := S4096x1) hz, View.ld_unit_zero (S := S1x8) hz]
  rw [pay_eq, unitOn_at, pre_at]
  rfl

theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem point_eq (hp : FA S102400x16) (root : FA S16x8) (b2 : FA S1x8) (aggp : FA S102400x8) (cp : FA S102400x1)
    (x0 : Vec Ideal S4096x16 .f32) (x1 : Vec Ideal S16x8 .f32) (x2 : Vec Ideal S1x8 .f32) (x3 : Vec Ideal S4096x8 .f32)
    (x4 : Vec Ideal S4096x1 .f32) (r : Fin 4096) (o : Fin 8) (i : S102400x8.Idx)
    (h0 : ∀ d : Fin 16, x0 (ix2 r d) = hp (ix2 (r0 i) d))
    (h1 : ∀ (a : Fin 16) (b : Fin 8), x1 (ix2 a b) = root (ix2 a b))
    (h2 : ∀ b : Fin 8, x2 (ix2 (0 : Fin 1) b) = b2 (ix2 (0 : Fin 1) b))
    (h3 : x3 (ix2 r o) = aggp (ix2 (r0 i) (c1 i)))
    (h4 : x4 (ix2 r (0 : Fin 1)) = cp (ix2 (r0 i) (0 : Fin 1)))
    (ho : o = c1 i) :
    out5_5 (F := Ideal) x0 x1 x2 x3 x4 (ix2 r o) = NodeG hp root b2 aggp cp i := by
  rw [block_at]
  unfold NodeG
  rw [funext h0, funext fun a => funext (h1 a), funext h2, h3, h4, ho]

theorem flushed_eq (c : Dev nD) (t : Fin cfg5.N) :
    (Cert.KernelIdeal.Gen.dat5 (F := Ideal) V c).flushed 5 t = ((cfg5.win 5).blk t).view.read (Elt Ideal) (NodeG (V c main_v68) (V c main_arg16) (V c main_v67) (V c main_v69) (V c main_v70)) := by
  show (cfg5.win 5).cut (grid5.coords t) ((Cert.KernelIdeal.Gen.dat5 (F := Ideal) V c).after 5 t) = _
  rw [after5_5]
  obtain ⟨e00, e01, e10, e11, e20, e21, e30, e31, e40, e41, e50, e51⟩ := idx_facts t
  funext j
  have hj0 : (j 0).val < 4096 := (j 0).isLt
  have hj1 : (j 1).val < 8 := (j 1).isLt
  have ej : win5_5.xinj (grid5.coords t) j = ix2 (⟨(j 0).val, hj0⟩ : Fin 4096) (⟨(j 1).val, hj1⟩ : Fin 8) :=
    funext fun a => by match a with | ⟨0, _⟩ => rfl | ⟨1, _⟩ => rfl
  show out5_5 (iblk5 V c 0 t) (iblk5 V c 1 t) (iblk5 V c 2 t) (iblk5 V c 3 t) (iblk5 V c 4 t) (win5_5.xinj (grid5.coords t) j)
      = NodeG (V c main_v68) (V c main_arg16) (V c main_v67) (V c main_v69) (V c main_v70) (((cfg5.win 5).blk t).view.emb j)
  rw [ej]
  refine point_eq (V c main_v68) (V c main_arg16) (V c main_v67) (V c main_v69) (V c main_v70)
    (iblk5 V c 0 t) (iblk5 V c 1 t) (iblk5 V c 2 t) (iblk5 V c 3 t) (iblk5 V c 4 t) ⟨(j 0).val, hj0⟩ ⟨(j 1).val, hj1⟩
    (((cfg5.win 5).blk t).view.emb j) (fun d => ?_) (fun a b => ?_) (fun b => ?_) ?_ ?_ ?_
  · show V c main_v68 (((cfg5.win 0).blk t).view.emb (ix2 (⟨(j 0).val, hj0⟩ : Fin 4096) d)) = _
    refine congrArg (V c main_v68) (funext fun a => Fin.ext ?_)
    match a with
    | ⟨0, _⟩ => show win5_0.index t (0 : Fin 2) * 4096 + 1 * (j 0).val = win5_5.index t (0 : Fin 2) * 4096 + 1 * (j 0).val; omega
    | ⟨1, _⟩ => show win5_0.index t (1 : Fin 2) * 16 + 1 * d.val = d.val; omega
  · show V c main_arg16 (((cfg5.win 1).blk t).view.emb (ix2 a b)) = _
    refine congrArg (V c main_arg16) (funext fun x => Fin.ext ?_)
    match x with
    | ⟨0, _⟩ => show win5_1.index t (0 : Fin 2) * 16 + 1 * a.val = a.val; omega
    | ⟨1, _⟩ => show win5_1.index t (1 : Fin 2) * 8 + 1 * b.val = b.val; omega
  · show V c main_v67 (((cfg5.win 2).blk t).view.emb (ix2 (0 : Fin 1) b)) = _
    refine congrArg (V c main_v67) (funext fun x => Fin.ext ?_)
    match x with
    | ⟨0, _⟩ => show win5_2.index t (0 : Fin 2) * 1 + 1 * 0 = 0; omega
    | ⟨1, _⟩ => show win5_2.index t (1 : Fin 2) * 8 + 1 * b.val = b.val; omega
  · show V c main_v69 (((cfg5.win 3).blk t).view.emb (ix2 (⟨(j 0).val, hj0⟩ : Fin 4096) (⟨(j 1).val, hj1⟩ : Fin 8))) = _
    refine congrArg (V c main_v69) (funext fun a => Fin.ext ?_)
    match a with
    | ⟨0, _⟩ => show win5_3.index t (0 : Fin 2) * 4096 + 1 * (j 0).val = win5_5.index t (0 : Fin 2) * 4096 + 1 * (j 0).val; omega
    | ⟨1, _⟩ => show win5_3.index t (1 : Fin 2) * 8 + 1 * (j 1).val = win5_5.index t (1 : Fin 2) * 8 + 1 * (j 1).val; omega
  · show V c main_v70 (((cfg5.win 4).blk t).view.emb (ix2 (⟨(j 0).val, hj0⟩ : Fin 4096) (0 : Fin 1))) = _
    refine congrArg (V c main_v70) (funext fun a => Fin.ext ?_)
    match a with
    | ⟨0, _⟩ => show win5_4.index t (0 : Fin 2) * 4096 + 1 * (j 0).val = win5_5.index t (0 : Fin 2) * 4096 + 1 * (j 0).val; omega
    | ⟨1, _⟩ => show win5_4.index t (1 : Fin 2) * 1 + 1 * 0 = 0; omega
  · refine Fin.ext ?_
    show (j 1).val = win5_5.index t (1 : Fin 2) * 8 + 1 * (j 1).val
    omega

theorem mem_blk (t : Fin cfg5.N) (i : S102400x8.Idx) :
    i ∈ ((cfg5.win 5).blk t).view.set
      ↔ ∀ a : Fin 2, win5_5.index t a * S4096x8.size a ≤ (i a).val ∧ (i a).val < win5_5.index t a * S4096x8.size a + S4096x8.size a := by
  show i ∈ ((View.whole main_v71).slice (win5_5.rect t)).set ↔ _
  rw [View.set_slice_whole, Rect.mem_set_unit]
  exact Iff.rfl

theorem cover (i : S102400x8.Idx) : ∃ t : Fin cfg5.N, (cfg5.win 5).flush t = true ∧ i ∈ ((cfg5.win 5).blk t).view.set := by
  have hi0 : (i 0).val < 102400 := (i 0).isLt
  have hi1 : (i 1).val < 8 := (i 1).isLt
  obtain ⟨t, ht⟩ : ∃ t : Fin cfg5.N, t.val = (i 0).val / 4096 :=
    ⟨⟨(i 0).val / 4096, by rw [show cfg5.N = 25 from N_5]; omega⟩, rfl⟩
  obtain ⟨-, -, -, -, -, -, -, -, -, -, e0, e1⟩ := idx_facts t
  refine ⟨t, flush5_5 t, ?_⟩
  rw [mem_blk]
  intro a
  match a with
  | ⟨0, _⟩ =>
    show win5_5.index t (0 : Fin 2) * 4096 ≤ (i 0).val ∧ (i 0).val < win5_5.index t (0 : Fin 2) * 4096 + 4096
    rw [e0, ht]; omega
  | ⟨1, _⟩ =>
    show win5_5.index t (1 : Fin 2) * (8) ≤ (i 1).val ∧ (i 1).val < win5_5.index t (1 : Fin 2) * (8) + 8
    rw [e1]; omega

theorem node_out (c : Dev nD) :
    (Cert.KernelIdeal.Gen.dat5 (F := Ideal) V c).arrAt 5 cfg5.N
      = NodeG (V c main_v68) (V c main_arg16) (V c main_v67) (V c main_v69) (V c main_v70) :=
  (Cert.KernelIdeal.Gen.dat5 (F := Ideal) V c).arrAt_eq_of_cover 5
    (NodeG (V c main_v68) (V c main_arg16) (V c main_v67) (V c main_v69) (V c main_v70))
    (fun t _ => flushed_eq V c t) cover

end Cert.KernelIdeal.KV.L3

end
-- ==== Proof.KFold3.lean ====
import proofs.«109075_j6828998001340_1_alg».proof.Proof.KFoldIface
import proofs.«109075_j6828998001340_1_alg».proof.Proof.KEdge3
import proofs.«109075_j6828998001340_1_alg».proof.Proof.KNode3
import Idealize.ShloMosaic.Lib.ValueIdx
import Idealize.ShloMosaic.Lib.Pipeline.Value
import Idealize.ShloMosaic.Lib.StableHlo.Run

set_option maxRecDepth 16384

noncomputable section

namespace Cert.KernelIdeal.KV.F3

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD) (hin : FA S100000x16)

def Entry : Prop :=
  extractStridedSlice S100000x16 ![0, 0] (W24 (F := Ideal) m ρ c (Proc.devRef .tc main_v51)) slices_S102400x16_S100000x16_0_0 = hin
    ∧ W24 (F := Ideal) m ρ c (Proc.devRef .tc main_v1) = src (arg m c main_arg1)
    ∧ W24 (F := Ideal) m ρ c (Proc.devRef .tc main_v3) = dst (arg m c main_arg1)
    ∧ W24 (F := Ideal) m ρ c (Proc.devRef .tc main_v12) = cinv (arg m c main_arg1)

section Stretches

variable (V : Valuation τ sig (Elt Ideal))

theorem hin_stage
    (h : extractStridedSlice S100000x16 ![0, 0] (V (Proc.devRef .tc main_v51)) slices_S102400x16_S100000x16_0_0 = hin) :
    StableHlo.after hostOps4 V (Proc.devRef .tc main_v52) = hin := by
  after_results
  exact h

theorem xj_stage (a1 : IA S2x3200000)
    (h : extractStridedSlice S100000x16 ![0, 0] (V (Proc.devRef .tc main_v51)) slices_S102400x16_S100000x16_0_0 = hin)
    (hs : V (Proc.devRef .tc main_v1) = src a1) :
    StableHlo.after hostOps4 V (Proc.devRef .tc main_v59)
      = Host.gather gather_S100000x16_S3200000x1_S3200000x16_1_0_n_n_0_1_116 hin (srcIdx a1) := by
  after_results
  rw [hs, h]
  all_goals rfl

theorem zero1_stage : StableHlo.after hostOps4 V (Proc.devRef .tc main_c_20) = constantI S_ 32 0#32 := by
  after_results
  all_goals rfl

theorem xjPad_stage (x : FA S3200000x16) (h1 : V (Proc.devRef .tc main_v59) = x)
    (h2 : V (Proc.devRef .tc main_c_20) = constantI S_ 32 0#32) :
    StableHlo.after hostOps4_1 V (Proc.devRef .tc main_v60)
      = pad S3203072x16 ![0, 0] ![3072, 0] ![0, 0] x padv pads_S3200000x16_S3203072x16_030720_000 h_S_ := by
  after_results
  rw [h1, h2]
  all_goals rfl

theorem zero2_stage : StableHlo.after hostOps4_2 V (Proc.devRef .tc main_c_21) = constantI S_ 32 0#32 := by
  after_results
  all_goals rfl

theorem eaPad_stage (ea : FA S3200000x3) (h1 : V (Proc.devRef .tc main_arg2) = ea)
    (h2 : V (Proc.devRef .tc main_c_21) = constantI S_ 32 0#32) :
    StableHlo.after hostOps4_3 V (Proc.devRef .tc main_v61)
      = pad S3203072x3 ![0, 0] ![3072, 0] ![0, 0] ea padv pads_S3200000x3_S3203072x3_030720_000 h_S_ := by
  after_results
  rw [h1, h2]
  all_goals rfl

theorem agg_stage (M : FA S3203072x8) (d : IA S3200000) (h1 : V (Proc.devRef .tc main_v62) = M)
    (h2 : V (Proc.devRef .tc main_v3) = d) :
    StableHlo.after hostOps5 V (Proc.devRef .tc main_v66)
      = Host.scatterAdd (F := Ideal) scatter_S100000x8_S3200000x1_S3200000x8_1_0_0_1
          (broadcastInDim S100000x8 ![] bcast_S_S100000x8 (constant (F := Ideal) S_ .f32 0x00000000#32))
          (broadcastInDim S3200000x1 ![0] bcast_S3200000_S3200000x1_0 d)
          (extractStridedSlice S3200000x8 ![0, 0] M slices_S3203072x8_S3200000x8_0_0) := by
  after_results
  rw [h1, h2]
  all_goals rfl

theorem b2_stage (b : FA S8) (h : V (Proc.devRef .tc main_arg17) = b) :
    StableHlo.after hostOps5 V (Proc.devRef .tc main_v67) = shapeCast S1x8 b shapeCasts_S8_S1x8 := by
  after_results
  rw [h]
  all_goals rfl

theorem zero3_stage : StableHlo.after hostOps5 V (Proc.devRef .tc main_c_23) = constantI S_ 32 0#32 := by
  after_results
  all_goals rfl

theorem hp_stage (x : FA S100000x16) (h1 : V (Proc.devRef .tc main_v52) = x)
    (h2 : V (Proc.devRef .tc main_c_23) = constantI S_ 32 0#32) :
    StableHlo.after hostOps5_1 V (Proc.devRef .tc main_v68) = L3.hPad x := by
  after_results
  rw [h1, h2]
  all_goals rfl

theorem zero4_stage : StableHlo.after hostOps5_2 V (Proc.devRef .tc main_c_24) = constantI S_ 32 0#32 := by
  after_results
  all_goals rfl

theorem aggP_stage (A : FA S100000x8) (h1 : V (Proc.devRef .tc main_v66) = A)
    (h2 : V (Proc.devRef .tc main_c_24) = constantI S_ 32 0#32) :
    StableHlo.after hostOps5_3 V (Proc.devRef .tc main_v69) = L3.aggPad A := by
  after_results
  rw [h1, h2]
  all_goals rfl

theorem zero5_stage : StableHlo.after hostOps5_4 V (Proc.devRef .tc main_c_25) = constantI S_ 32 0#32 := by
  after_results
  all_goals rfl

theorem cP_stage (C : FA S100000x1) (h1 : V (Proc.devRef .tc main_v12) = C)
    (h2 : V (Proc.devRef .tc main_c_25) = constantI S_ 32 0#32) :
    StableHlo.after hostOps5_5 V (Proc.devRef .tc main_v70)
      = cPad C := by
  after_results
  rw [h1, h2]
  all_goals rfl

end Stretches

theorem hin_W25 (H : Entry m ρ c hin) : W25 (F := Ideal) m ρ c (Proc.devRef .tc main_v52) = hin :=
  hin_stage hin _ H.1

theorem xj_W25 (H : Entry m ρ c hin) : W25 (F := Ideal) m ρ c (Proc.devRef .tc main_v59)
    = Host.gather gather_S100000x16_S3200000x1_S3200000x16_1_0_n_n_0_1_116 hin (srcIdx (arg m c main_arg1)) :=
  xj_stage hin _ _ H.1 H.2.1

theorem xjPad_W26 (H : Entry m ρ c hin) :
    W26 (F := Ideal) m ρ c (Proc.devRef .tc main_v60) = L3.xjPad hin (arg m c main_arg1) := by
  unfold L3.xjPad
  exact xjPad_stage _ _ (xj_W25 m ρ c hin H) (zero1_stage _)

theorem ea_W27 : W27 (F := Ideal) m ρ c (Proc.devRef .tc main_arg2) = arg m c main_arg2 := by fold_launch

theorem eaPad_W28 : W28 (F := Ideal) m ρ c (Proc.devRef .tc main_v61) = L3.eaPad (arg m c main_arg2) := by
  unfold L3.eaPad
  exact eaPad_stage _ _ (ea_W27 m ρ c) (zero2_stage _)

theorem xjPad_W28 (H : Entry m ρ c hin) :
    W28 (F := Ideal) m ρ c (Proc.devRef .tc main_v60) = L3.xjPad hin (arg m c main_arg1) := by
  fold_carry xjPad_W26 m ρ c hin H

theorem g_W28 : W28 (F := Ideal) m ρ c (Proc.devRef .tc main_arg13) = arg m c main_arg13 := by fold_launch

theorem mu_W28 : W28 (F := Ideal) m ρ c (Proc.devRef .tc main_arg14) = arg m c main_arg14 := by fold_launch

theorem sg_W28 : W28 (F := Ideal) m ρ c (Proc.devRef .tc main_arg15) = arg m c main_arg15 := by fold_launch

theorem msgP_W29 (H : Entry m ρ c hin) : W29 (F := Ideal) m ρ c (Proc.devRef .tc main_v62)
    = L3.EdgeG (L3.xjPad hin (arg m c main_arg1)) (L3.eaPad (arg m c main_arg2)) (arg m c main_arg13) (arg m c main_arg14)
        (arg m c main_arg15) := by
  refine (W29_arr m ρ c 5).trans ((L3.edge_out (V28 m ρ) c).trans ?_)
  dsimp only [V28]
  rw [xjPad_W28 m ρ c hin H, eaPad_W28 m ρ c, g_W28 m ρ c, mu_W28 m ρ c, sg_W28 m ρ c]

theorem dst_W29 (H : Entry m ρ c hin) : W29 (F := Ideal) m ρ c (Proc.devRef .tc main_v3) = dst (arg m c main_arg1) := by
  obtain ⟨-, -, h_dst, -⟩ := H
  fold_carry h_dst

theorem b_W29 : W29 (F := Ideal) m ρ c (Proc.devRef .tc main_arg17) = arg m c main_arg17 := by fold_launch

theorem agg_W30 (H : Entry m ρ c hin) : W30 (F := Ideal) m ρ c (Proc.devRef .tc main_v66)
    = L3.agg hin (arg m c main_arg1) (arg m c main_arg2) (arg m c main_arg13) (arg m c main_arg14) (arg m c main_arg15) := by
  unfold L3.agg L3.msg dstIdx
  exact agg_stage _ _ _ (msgP_W29 m ρ c hin H) (dst_W29 m ρ c hin H)

theorem b2_W30 : W30 (F := Ideal) m ρ c (Proc.devRef .tc main_v67) = shapeCast S1x8 (arg m c main_arg17) shapeCasts_S8_S1x8 :=
  b2_stage _ _ (b_W29 m ρ c)

theorem hin_W30 (H : Entry m ρ c hin) : W30 (F := Ideal) m ρ c (Proc.devRef .tc main_v52) = hin := by
  fold_carry hin_W25 m ρ c hin H

theorem hp_W31 (H : Entry m ρ c hin) : W31 (F := Ideal) m ρ c (Proc.devRef .tc main_v68) = L3.hPad hin :=
  hp_stage _ _ (hin_W30 m ρ c hin H) (zero3_stage _)

theorem agg_W32 (H : Entry m ρ c hin) : W32 (F := Ideal) m ρ c (Proc.devRef .tc main_v66)
    = L3.agg hin (arg m c main_arg1) (arg m c main_arg2) (arg m c main_arg13) (arg m c main_arg14) (arg m c main_arg15) := by
  fold_carry agg_W30 m ρ c hin H

theorem aggP_W33 (H : Entry m ρ c hin) : W33 (F := Ideal) m ρ c (Proc.devRef .tc main_v69)
    = L3.aggPad (L3.agg hin (arg m c main_arg1) (arg m c main_arg2) (arg m c main_arg13) (arg m c main_arg14) (arg m c main_arg15)) :=
  aggP_stage _ _ (agg_W32 m ρ c hin H) (zero4_stage _)

theorem cinv_W34 (H : Entry m ρ c hin) : W34 (F := Ideal) m ρ c (Proc.devRef .tc main_v12) = cinv (arg m c main_arg1) := by
  obtain ⟨-, -, -, h_cinv⟩ := H
  fold_carry h_cinv

theorem cP_W35 (H : Entry m ρ c hin) : W35 (F := Ideal) m ρ c (Proc.devRef .tc main_v70)
    = cPad (cinv (arg m c main_arg1)) :=
  cP_stage _ _ (cinv_W34 m ρ c hin H) (zero5_stage _)

theorem hp_W35 (H : Entry m ρ c hin) : W35 (F := Ideal) m ρ c (Proc.devRef .tc main_v68) = L3.hPad hin := by
  fold_carry hp_W31 m ρ c hin H

theorem root_W35 : W35 (F := Ideal) m ρ c (Proc.devRef .tc main_arg16) = arg m c main_arg16 := by fold_launch

theorem b2_W35 : W35 (F := Ideal) m ρ c (Proc.devRef .tc main_v67) = shapeCast S1x8 (arg m c main_arg17) shapeCasts_S8_S1x8 := by
  fold_carry b2_W30 m ρ c

theorem aggP_W35 (H : Entry m ρ c hin) : W35 (F := Ideal) m ρ c (Proc.devRef .tc main_v69)
    = L3.aggPad (L3.agg hin (arg m c main_arg1) (arg m c main_arg2) (arg m c main_arg13) (arg m c main_arg14) (arg m c main_arg15)) := by
  fold_carry aggP_W33 m ρ c hin H

theorem outP_W36 (H : Entry m ρ c hin) : W36 (F := Ideal) m ρ c (Proc.devRef .tc main_v71)
    = L3.NodeG (L3.hPad hin)
        (arg m c main_arg16) (shapeCast S1x8 (arg m c main_arg17) shapeCasts_S8_S1x8)
        (L3.aggPad (L3.agg hin (arg m c main_arg1) (arg m c main_arg2) (arg m c main_arg13) (arg m c main_arg14) (arg m c main_arg15)))
        (cPad (cinv (arg m c main_arg1))) := by
  refine (W36_arr m ρ c 5).trans ((L3.node_out (V35 m ρ) c).trans ?_)
  dsimp only [V35]
  rw [hp_W35 m ρ c hin H, root_W35 m ρ c, b2_W35 m ρ c, aggP_W35 m ρ c hin H, cP_W35 m ρ c hin H]

end Cert.KernelIdeal.KV.F3

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem fold3 (c : Dev nD) (hin : FA S100000x16)
    (h_in : extractStridedSlice S100000x16 ![0, 0] (W24 (F := Ideal) m ρ c (Proc.devRef .tc main_v51)) slices_S102400x16_S100000x16_0_0 = hin)
    (h_src : W24 (F := Ideal) m ρ c (Proc.devRef .tc main_v1) = src (arg m c main_arg1))
    (h_dst : W24 (F := Ideal) m ρ c (Proc.devRef .tc main_v3) = dst (arg m c main_arg1))
    (h_cinv : W24 (F := Ideal) m ρ c (Proc.devRef .tc main_v12) = cinv (arg m c main_arg1)) :
    extractStridedSlice S100000x8 ![0, 0] (W36 (F := Ideal) m ρ c (Proc.devRef .tc main_v71)) slices_S102400x8_S100000x8_0_0
        = L3.layer hin (arg m c main_arg1) (arg m c main_arg2) (arg m c main_arg13) (arg m c main_arg14) (arg m c main_arg15)
            (arg m c main_arg16) (arg m c main_arg17)
      ∧ W36 (F := Ideal) m ρ c (Proc.devRef .tc main_v1) = src (arg m c main_arg1)
      ∧ W36 (F := Ideal) m ρ c (Proc.devRef .tc main_v3) = dst (arg m c main_arg1)
      ∧ W36 (F := Ideal) m ρ c (Proc.devRef .tc main_v12) = cinv (arg m c main_arg1) := by
  have H : F3.Entry m ρ c hin := ⟨h_in, h_src, h_dst, h_cinv⟩
  refine ⟨?_, ?_, ?_, ?_⟩
  · unfold L3.layer
    rw [F3.outP_W36 m ρ c hin H]
  · fold_carry h_src
  · fold_carry h_dst
  · fold_carry h_cinv

end Cert.KernelIdeal.KV

end
-- ==== Proof.KEdge4.lean ====
import proofs.«109075_j6828998001340_1_alg».proof.Proof.Gen.KernelIdeal.Frame
import proofs.«109075_j6828998001340_1_alg».proof.Proof.KDefs4
import proofs.«109075_j6828998001340_1_alg».proof.Proof.KLib

noncomputable section

open scoped BigOperators

namespace Cert.KernelIdeal.KV.L4.Edge

open Cert.KernelIdeal Cert.KernelIdeal.Gen Cert.KernelIdeal.KV Cert.KernelIdeal.KV.L4 Idealize.ShloMosaic Idealize.ShloMosaic.TcCoe Idealize.ShloMosaic.ValueIdx Idealize.SL.Sem

theorem proj_at (x0 : Vec Ideal S4096x8 .f32) (x2 : Vec Ideal S8x12 .f32) (r : Fin 4096) (q : Fin 12) :
    k6_pay2 (F := Ideal) x0 x2 (ix2 r q) = ∑ i : Fin 8, x0 (ix2 r i) * x2 (ix2 i q) := by
  unfold k6_pay2
  refine (mm_at _ _ r q).trans ?_
  simp only [truncf_apply, shapeCast_self]

theorem slice0_at (P : FVec Ideal S4096x12 .f32) (r : Fin 4096) (o : Fin 4) :
    extractStridedSlice S4096x4 ![0, 0] P slices_S4096x12_o0_0_S4096x4 (ix2 r o) = P (ix2 r (⟨0 * 4 + o.val, by omega⟩ : Fin 12)) :=
  extractStridedSlice_apply _ P _ (ix2 r o) _ (fun a => by match a with | ⟨0, _⟩ => (show r.val = 0 + r.val; omega) | ⟨1, _⟩ => (show 0 * 4 + o.val = 0 + o.val; omega))

theorem slice1_at (P : FVec Ideal S4096x12 .f32) (r : Fin 4096) (o : Fin 4) :
    extractStridedSlice S4096x4 ![0, 4] P slices_S4096x12_o0_4_S4096x4 (ix2 r o) = P (ix2 r (⟨1 * 4 + o.val, by omega⟩ : Fin 12)) :=
  extractStridedSlice_apply _ P _ (ix2 r o) _ (fun a => by match a with | ⟨0, _⟩ => (show r.val = 0 + r.val; omega) | ⟨1, _⟩ => (show 1 * 4 + o.val = 4 + o.val; omega))

theorem slice2_at (P : FVec Ideal S4096x12 .f32) (r : Fin 4096) (o : Fin 4) :
    extractStridedSlice S4096x4 ![0, 8] P slices_S4096x12_o0_8_S4096x4 (ix2 r o) = P (ix2 r (⟨2 * 4 + o.val, by omega⟩ : Fin 12)) :=
  extractStridedSlice_apply _ P _ (ix2 r o) _ (fun a => by match a with | ⟨0, _⟩ => (show r.val = 0 + r.val; omega) | ⟨1, _⟩ => (show 2 * 4 + o.val = 8 + o.val; omega))

theorem coords_eq (v6 : Vec Ideal S4096x3 .f32) : k6_pay3 (F := Ideal) v6 = v6 := by
  unfold k6_pay3; exact shapeCast_self _ _

theorem widths1_at (v35 : Vec Ideal S1x3 .f32) (d : Fin 3) : k6_pay5 (F := Ideal) v35 (ix1 d) = v35 (ix2 (0 : Fin 1) d) := by
  unfold k6_pay5; exact cast3_at v35 d

theorem centred1_at (v6 : Vec Ideal S4096x3 .f32) (v33 : Vec Ideal S1x3 .f32) (r : Fin 4096) (d : Fin 3) :
    k6_pay6 (F := Ideal) v6 v33 (ix2 r d) = v6 (ix2 r d) - v33 (ix2 (0 : Fin 1) d) := by
  unfold k6_pay6
  refine (diff_at (k6_pay3 (F := Ideal) v6) v33 r d).trans ?_
  rw [coords_eq]

theorem term0_at (v0 : Vec Ideal S4096x8 .f32) (v3 : Vec Ideal S8x12 .f32) (v6 : Vec Ideal S4096x3 .f32) (v9 v11 : Vec Ideal S1x3 .f32)
    (r : Fin 4096) (o : Fin 4) :
    k6_pay4 (F := Ideal) v0 v3 v6 v9 v11 (ix2 r o)
      = Ideal.ofBits .f32 0x00000000#32 + k6_pay2 (F := Ideal) v0 v3 (ix2 r (⟨0 * 4 + o.val, by omega⟩ : Fin 12))
          * Ideal.exp (Ideal.ofBits .f32 0xBF000000#32 * ∑ d : Fin 3,
              Ideal.div ((v6 (ix2 r d) - v9 (ix2 (0 : Fin 1) d)) * (v6 (ix2 r d) - v9 (ix2 (0 : Fin 1) d)))
                (Ideal.ofBits .f32 0x26901D7D#32 + v11 (ix2 (0 : Fin 1) d) * v11 (ix2 (0 : Fin 1) d))) := by
  unfold k6_pay4
  show Ideal.ofBits .f32 0x00000000#32
      + extractStridedSlice S4096x4 ![0, 0] (k6_pay2 (F := Ideal) v0 v3) slices_S4096x12_o0_0_S4096x4 (ix2 r o)
        * broadcastTo S4096x4 _ broadcasts_S4096x1_S4096x4 (ix2 r o) = _
  rw [slice0_at, weight_at]
  simp only [diff_at, cast13_at, cast3_at, coords_eq]

theorem stored_at (v5 : FVec Ideal S4096x12 .f32) (v7 : FVec Ideal S4096x3 .f32) (v32 : FVec Ideal S4096x4 .f32) (v36 : FVec Ideal S3 .f32)
    (v39 : FVec Ideal S4096x3 .f32) (v57 v59 : Vec Ideal S1x3 .f32) (r : Fin 4096) (o : Fin 4) :
    k6_pay1 (F := Ideal) v5 v7 v32 v36 v39 v57 v59 (ix2 r o)
      = v32 (ix2 r o)
        + v5 (ix2 r (⟨1 * 4 + o.val, by omega⟩ : Fin 12))
          * Ideal.exp (Ideal.ofBits .f32 0xBF000000#32 * ∑ d : Fin 3,
              Ideal.div (v39 (ix2 r d) * v39 (ix2 r d)) (Ideal.ofBits .f32 0x26901D7D#32 + v36 (ix1 d) * v36 (ix1 d)))
        + v5 (ix2 r (⟨2 * 4 + o.val, by omega⟩ : Fin 12))
          * Ideal.exp (Ideal.ofBits .f32 0xBF000000#32 * ∑ d : Fin 3,
              Ideal.div ((v7 (ix2 r d) - v57 (ix2 (0 : Fin 1) d)) * (v7 (ix2 r d) - v57 (ix2 (0 : Fin 1) d)))
                (Ideal.ofBits .f32 0x26901D7D#32 + v59 (ix2 (0 : Fin 1) d) * v59 (ix2 (0 : Fin 1) d))) := by
  unfold k6_pay1
  show v32 (ix2 r o)
      + extractStridedSlice S4096x4 ![0, 4] v5 slices_S4096x12_o0_4_S4096x4 (ix2 r o) * broadcastTo S4096x4 _ broadcasts_S4096x1_S4096x4 (ix2 r o)
      + extractStridedSlice S4096x4 ![0, 8] v5 slices_S4096x12_o0_8_S4096x4 (ix2 r o) * broadcastTo S4096x4 _ broadcasts_S4096x1_S4096x4 (ix2 r o) = _
  rw [slice1_at, slice2_at, weight_at, weight_at]
  simp only [diff_at, cast13_at, cast3_at]

theorem block_at (x0 : Vec Ideal S4096x8 .f32) (x1 : Vec Ideal S4096x3 .f32) (x2 : Vec Ideal S8x12 .f32) (x3 x4 : Vec Ideal S3x3 .f32)
    (r : Fin 4096) (o : Fin 4) :
    out6_5 (F := Ideal) x0 x1 x2 x3 x4 (ix2 r o)
      = Cert.GMM.edgeMsg (by decide) (fun d => x0 (ix2 r d)) (fun d => x1 (ix2 r d)) (fun a b => x2 (ix2 a b)) (fun a b => x3 (ix2 a b))
          (fun a b => x4 (ix2 a b)) o := by
  unfold out6_5
  rw [View.canon_unit_zero hz]
  simp only [View.ld_unit_zero (S := S4096x8) hz, View.ld_unit_zero (S := S8x12) hz, View.ld_unit_zero (S := S4096x3) hz]
  rw [stored_at, term0_at]
  simp only [proj_at, coords_eq, widths1_at, centred1_at, ld_row x3 0 (by omega) inb_S3x3_S1x3_0_0, ld_row x4 0 (by omega) inb_S3x3_S1x3_0_0,
    ld_row x3 1 (by omega) inb_S3x3_S1x3_1_0, ld_row x4 1 (by omega) inb_S3x3_S1x3_1_0,
    ld_row x3 2 (by omega) inb_S3x3_S1x3_2_0, ld_row x4 2 (by omega) inb_S3x3_S1x3_2_0]
  unfold Cert.GMM.edgeMsg Cert.GMM.proj Cert.GMM.gauss
  rw [Ideal.ofBits_zero_f32, zero_add]
  refine Eq.trans ?_ (Fin.sum_univ_three _).symm
  rfl

theorem point_eq (xp : FA S3203072x8) (eap : FA S3203072x3) (g : FA S8x12) (mu sg : FA S3x3)
    (x0 : Vec Ideal S4096x8 .f32) (x1 : Vec Ideal S4096x3 .f32) (x2 : Vec Ideal S8x12 .f32) (x3 x4 : Vec Ideal S3x3 .f32)
    (r : Fin 4096) (o : Fin 4) (i : S3203072x4.Idx)
    (h0 : ∀ d : Fin 8, x0 (ix2 r d) = xp (ix2 (r0 i) d))
    (h1 : ∀ d : Fin 3, x1 (ix2 r d) = eap (ix2 (r0 i) d))
    (h2 : ∀ (a : Fin 8) (b : Fin 12), x2 (ix2 a b) = g (ix2 a b))
    (h3 : ∀ (a : Fin 3) (b : Fin 3), x3 (ix2 a b) = mu (ix2 a b))
    (h4 : ∀ (a : Fin 3) (b : Fin 3), x4 (ix2 a b) = sg (ix2 a b))
    (ho : o = c1 i) :
    out6_5 (F := Ideal) x0 x1 x2 x3 x4 (ix2 r o) = EdgeG xp eap g mu sg i := by
  rw [block_at]
  unfold EdgeG
  rw [funext h0, funext h1, funext fun a => funext (h2 a), funext fun a => funext (h3 a), funext fun a => funext (h4 a), ho]

theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

theorem flushed_eq (c : Dev nD) (t : Fin cfg6.N) :
    (dat6 (F := Ideal) V c).flushed 5 t
      = ((cfg6.win 5).blk t).view.read (Elt Ideal) (EdgeG (V c main_v80) (V c main_v81) (V c main_arg18) (V c main_arg19) (V c main_arg20)) := by
  show (cfg6.win 5).cut (grid6.coords t) ((dat6 V c).after 5 t) = _
  rw [after6_5]
  obtain ⟨e00, e01, e10, e11, e20, e21, e30, e31, e40, e41, e50, e51⟩ := idx_facts t
  funext j
  have hj0 : (j 0).val < 4096 := (j 0).isLt
  have hj1 : (j 1).val < 4 := (j 1).isLt
  have ej : win6_5.xinj (grid6.coords t) j = ix2 (⟨(j 0).val, hj0⟩ : Fin 4096) (⟨(j 1).val, hj1⟩ : Fin 4) :=
    funext fun a => by match a with | ⟨0, _⟩ => rfl | ⟨1, _⟩ => rfl
  show out6_5 (iblk6 V c 0 t) (iblk6 V c 1 t) (iblk6 V c 2 t) (iblk6 V c 3 t) (iblk6 V c 4 t) (win6_5.xinj (grid6.coords t) j)
      = EdgeG (V c main_v80) (V c main_v81) (V c main_arg18) (V c main_arg19) (V c main_arg20) (((cfg6.win 5).blk t).view.emb j)
  rw [ej]
  refine point_eq (V c main_v80) (V c main_v81) (V c main_arg18) (V c main_arg19) (V c main_arg20)
    (iblk6 V c 0 t) (iblk6 V c 1 t) (iblk6 V c 2 t) (iblk6 V c 3 t) (iblk6 V c 4 t) ⟨(j 0).val, hj0⟩ ⟨(j 1).val, hj1⟩
    (((cfg6.win 5).blk t).view.emb j) (fun d => ?_) (fun d => ?_) (fun a b => ?_) (fun a b => ?_) (fun a b => ?_) ?_
  · show V c main_v80 (((cfg6.win 0).blk t).view.emb (ix2 (⟨(j 0).val, hj0⟩ : Fin 4096) d)) = _
    refine congrArg (V c main_v80) (funext fun a => Fin.ext ?_)
    match a with
    | ⟨0, _⟩ => show win6_0.index t (0 : Fin 2) * 4096 + 1 * (j 0).val = win6_5.index t (0 : Fin 2) * 4096 + 1 * (j 0).val; omega
    | ⟨1, _⟩ => show win6_0.index t (1 : Fin 2) * 8 + 1 * d.val = d.val; omega
  · show V c main_v81 (((cfg6.win 1).blk t).view.emb (ix2 (⟨(j 0).val, hj0⟩ : Fin 4096) d)) = _
    refine congrArg (V c main_v81) (funext fun a => Fin.ext ?_)
    match a with
    | ⟨0, _⟩ => show win6_1.index t (0 : Fin 2) * 4096 + 1 * (j 0).val = win6_5.index t (0 : Fin 2) * 4096 + 1 * (j 0).val; omega
    | ⟨1, _⟩ => show win6_1.index t (1 : Fin 2) * 3 + 1 * d.val = d.val; omega
  · show V c main_arg18 (((cfg6.win 2).blk t).view.emb (ix2 a b)) = _
    refine congrArg (V c main_arg18) (funext fun x => Fin.ext ?_)
    match x with
    | ⟨0, _⟩ => show win6_2.index t (0 : Fin 2) * 8 + 1 * a.val = a.val; omega
    | ⟨1, _⟩ => show win6_2.index t (1 : Fin 2) * 12 + 1 * b.val = b.val; omega
  · show V c main_arg19 (((cfg6.win 3).blk t).view.emb (ix2 a b)) = _
    refine congrArg (V c main_arg19) (funext fun x => Fin.ext ?_)
    match x with
    | ⟨0, _⟩ => show win6_3.index t (0 : Fin 2) * 3 + 1 * a.val = a.val; omega
    | ⟨1, _⟩ => show win6_3.index t (1 : Fin 2) * 3 + 1 * b.val = b.val; omega
  · show V c main_arg20 (((cfg6.win 4).blk t).view.emb (ix2 a b)) = _
    refine congrArg (V c main_arg20) (funext fun x => Fin.ext ?_)
    match x with
    | ⟨0, _⟩ => show win6_4.index t (0 : Fin 2) * 3 + 1 * a.val = a.val; omega
    | ⟨1, _⟩ => show win6_4.index t (1 : Fin 2) * 3 + 1 * b.val = b.val; omega
  · refine Fin.ext ?_
    show (j 1).val = win6_5.index t (1 : Fin 2) * 4 + 1 * (j 1).val
    omega

theorem mem_blk (t : Fin cfg6.N) (i : S3203072x4.Idx) :
    i ∈ ((cfg6.win 5).blk t).view.set ↔ ∀ a : Fin 2, win6_5.index t a * S4096x4.size a ≤ (i a).val ∧ (i a).val < win6_5.index t a * S4096x4.size a + S4096x4.size a := by
  show i ∈ ((View.whole main_v82).slice (win6_5.rect t)).set ↔ _
  rw [View.set_slice_whole, Rect.mem_set_unit]
  exact Iff.rfl

theorem cover (i : S3203072x4.Idx) : ∃ t : Fin cfg6.N, (cfg6.win 5).flush t = true ∧ i ∈ ((cfg6.win 5).blk t).view.set := by
  have hi0 : (i 0).val < 3203072 := (i 0).isLt
  have hi1 : (i 1).val < 4 := (i 1).isLt
  have hN : cfg6.N = 782 := N_6
  refine ⟨⟨(i 0).val / 4096, by rw [hN]; omega⟩, flush6_5 _, ?_⟩
  obtain ⟨-, -, -, -, -, -, -, -, -, -, e50, e51⟩ := idx_facts ⟨(i 0).val / 4096, by rw [hN]; omega⟩
  rw [mem_blk]
  intro a
  match a with
  | ⟨0, _⟩ =>
    show win6_5.index _ (0 : Fin 2) * 4096 ≤ (i 0).val ∧ (i 0).val < win6_5.index _ (0 : Fin 2) * 4096 + 4096
    rw [e50]; show (i 0).val / 4096 * 4096 ≤ (i 0).val ∧ (i 0).val < (i 0).val / 4096 * 4096 + 4096; omega
  | ⟨1, _⟩ =>
    show win6_5.index _ (1 : Fin 2) * 4 ≤ (i 1).val ∧ (i 1).val < win6_5.index _ (1 : Fin 2) * 4 + 4
    rw [e51]; omega

end Cert.KernelIdeal.KV.L4.Edge

namespace Cert.KernelIdeal.KV.L4

open Cert.KernelIdeal Cert.KernelIdeal.Gen Cert.KernelIdeal.KV Idealize.ShloMosaic Idealize.ShloMosaic.TcCoe Idealize.ShloMosaic.ValueIdx Idealize.SL.Sem

variable (V : (c : Dev nD) → (b : Ref sig .tc) → Buf (Elt Ideal) ((c : Thread nD τ).loc b))

theorem edge_out (c : Dev nD) :
    (Cert.KernelIdeal.Gen.dat6 (F := Ideal) V c).arrAt 5 cfg6.N
      = EdgeG (V c main_v80) (V c main_v81) (V c main_arg18) (V c main_arg19) (V c main_arg20) :=
  (Cert.KernelIdeal.Gen.dat6 (F := Ideal) V c).arrAt_eq_of_cover 5 (EdgeG (V c main_v80) (V c main_v81) (V c main_arg18) (V c main_arg19) (V c main_arg20))
    (fun t _ => Edge.flushed_eq V c t) Edge.cover

end Cert.KernelIdeal.KV.L4

end
-- ==== Proof.KNode4.lean ====
import proofs.«109075_j6828998001340_1_alg».proof.Proof.KLib
import proofs.«109075_j6828998001340_1_alg».proof.Proof.Gen.KernelIdeal.Frame
import proofs.«109075_j6828998001340_1_alg».proof.Proof.KDefs4

noncomputable section

namespace Cert.KernelIdeal.KV.L4

open Cert.KernelIdeal Cert.KernelIdeal.Gen Cert.KernelIdeal.KV Idealize.ShloMosaic Idealize.ShloMosaic.TcCoe Idealize.ShloMosaic.ValueIdx Idealize.SL.Sem

open scoped BigOperators

variable (V : (c : Dev nD) → (b : Ref sig .tc) → Buf (Elt Ideal) ((c : Thread nD τ).loc b))

theorem root_at (a : FVec Ideal S4096x8 .bf16) (b : FVec Ideal S8x4 .bf16) (r : Fin 4096) (o : Fin 4) :
    matmul dot_S4096x8_S8x4_S4096x4_1_0_0_1_n_n none a b (constant (F := Ideal) S4096x4 .f32 0x00000000#32) (ix2 r o)
      = ∑ k : Fin 8, a (ix2 r k) * b (ix2 k o) :=
  mm_at a b r o

def pre (x0 : Vec Ideal S4096x8 .f32) (x1 : Vec Ideal S8x4 .f32) (x2 : Vec Ideal S1x4 .f32) (x3 : Vec Ideal S4096x4 .f32)
    (x4 : Vec Ideal S4096x1 .f32) : FVec Ideal S4096x4 .f32 :=
  addf
    (addf
      (mulf (shapeCast S4096x4 x3 shapeCasts_S4096x4_S4096x4)
        (broadcastTo S4096x4 (shapeCast S4096x1 x4 shapeCasts_S4096x1_S4096x1) broadcasts_S4096x1_S4096x4))
      (matmul dot_S4096x8_S8x4_S4096x4_1_0_0_1_n_n none
        (truncf .bf16 (shapeCast S4096x8 x0 shapeCasts_S4096x8_S4096x8) bitsLt_bf16_f32) (truncf .bf16 x1 bitsLt_bf16_f32)
        (constant S4096x4 .f32 0x00000000#32)))
    (broadcastTo S4096x4 (shapeCast S1x4 (shapeCast S1x4 x2 shapeCasts_S1x4_S1x4) shapeCasts_S1x4_S1x4) broadcasts_S1x4_S4096x4)

theorem pre_at (x0 : Vec Ideal S4096x8 .f32) (x1 : Vec Ideal S8x4 .f32) (x2 : Vec Ideal S1x4 .f32) (x3 : Vec Ideal S4096x4 .f32)
    (x4 : Vec Ideal S4096x1 .f32) (r : Fin 4096) (o : Fin 4) :
    pre x0 x1 x2 x3 x4 (ix2 r o)
      = x3 (ix2 r o) * x4 (ix2 r (0 : Fin 1)) + Cert.GMM.lin (fun d => x0 (ix2 r d)) (fun a b => x1 (ix2 a b)) o
        + x2 (ix2 (0 : Fin 1) o) := by
  unfold pre
  rw [addf_apply, addf_apply, mulf_apply, shapeCast_self, shapeCast_self, shapeCast_self, shapeCast_self, shapeCast_self,
    col_at, broadcastTo_1b_ab_apply, root_at]
  rfl

theorem pay_eq (x0 : Vec Ideal S4096x8 .f32) (x1 : Vec Ideal S8x4 .f32) (x2 : Vec Ideal S1x4 .f32) (x3 : Vec Ideal S4096x4 .f32)
    (x4 : Vec Ideal S4096x1 .f32) :
    k7_pay1 (F := Ideal) x0 x1 x3 x4 x2 = pre x0 x1 x2 x3 x4 := rfl

theorem block_at (x0 : Vec Ideal S4096x8 .f32) (x1 : Vec Ideal S8x4 .f32) (x2 : Vec Ideal S1x4 .f32) (x3 : Vec Ideal S4096x4 .f32)
    (x4 : Vec Ideal S4096x1 .f32) (r : Fin 4096) (o : Fin 4) :
    out7_5 (F := Ideal) x0 x1 x2 x3 x4 (ix2 r o)
      = Cert.GMM.nodeK id (fun d => x0 (ix2 r d)) (fun a b => x1 (ix2 a b)) (fun o' => x2 (ix2 (0 : Fin 1) o'))
          (x3 (ix2 r o)) (x4 (ix2 r (0 : Fin 1))) o := by
  unfold out7_5
  rw [View.canon_unit_zero hz]
  simp only [View.ld_unit_zero (S := S4096x8) hz, View.ld_unit_zero (S := S8x4) hz, View.ld_unit_zero (S := S4096x4) hz,
    View.ld_unit_zero (S := S4096x1) hz, View.ld_unit_zero (S := S1x4) hz]
  rw [pay_eq, pre_at]
  rfl

theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

theorem point_eq (hp : FA S102400x8) (root : FA S8x4) (b2 : FA S1x4) (aggp : FA S102400x4) (cp : FA S102400x1)
    (x0 : Vec Ideal S4096x8 .f32) (x1 : Vec Ideal S8x4 .f32) (x2 : Vec Ideal S1x4 .f32) (x3 : Vec Ideal S4096x4 .f32)
    (x4 : Vec Ideal S4096x1 .f32) (r : Fin 4096) (o : Fin 4) (i : S102400x4.Idx)
    (h0 : ∀ d : Fin 8, x0 (ix2 r d) = hp (ix2 (r0 i) d))
    (h1 : ∀ (a : Fin 8) (b : Fin 4), x1 (ix2 a b) = root (ix2 a b))
    (h2 : ∀ b : Fin 4, x2 (ix2 (0 : Fin 1) b) = b2 (ix2 (0 : Fin 1) b))
    (h3 : x3 (ix2 r o) = aggp (ix2 (r0 i) (c1 i)))
    (h4 : x4 (ix2 r (0 : Fin 1)) = cp (ix2 (r0 i) (0 : Fin 1)))
    (ho : o = c1 i) :
    out7_5 (F := Ideal) x0 x1 x2 x3 x4 (ix2 r o) = NodeG hp root b2 aggp cp i := by
  rw [block_at]
  unfold NodeG
  rw [funext h0, funext fun a => funext (h1 a), funext h2, h3, h4, ho]

theorem flushed_eq (c : Dev nD) (t : Fin cfg7.N) :
    (Cert.KernelIdeal.Gen.dat7 (F := Ideal) V c).flushed 5 t = ((cfg7.win 5).blk t).view.read (Elt Ideal) (NodeG (V c main_v88) (V c main_arg21) (V c main_v87) (V c main_v89) (V c main_v90)) := by
  show (cfg7.win 5).cut (grid7.coords t) ((Cert.KernelIdeal.Gen.dat7 (F := Ideal) V c).after 5 t) = _
  rw [after7_5]
  obtain ⟨e00, e01, e10, e11, e20, e21, e30, e31, e40, e41, e50, e51⟩ := idx_facts t
  funext j
  have hj0 : (j 0).val < 4096 := (j 0).isLt
  have hj1 : (j 1).val < 4 := (j 1).isLt
  have ej : win7_5.xinj (grid7.coords t) j = ix2 (⟨(j 0).val, hj0⟩ : Fin 4096) (⟨(j 1).val, hj1⟩ : Fin 4) :=
    funext fun a => by match a with | ⟨0, _⟩ => rfl | ⟨1, _⟩ => rfl
  show out7_5 (iblk7 V c 0 t) (iblk7 V c 1 t) (iblk7 V c 2 t) (iblk7 V c 3 t) (iblk7 V c 4 t) (win7_5.xinj (grid7.coords t) j)
      = NodeG (V c main_v88) (V c main_arg21) (V c main_v87) (V c main_v89) (V c main_v90) (((cfg7.win 5).blk t).view.emb j)
  rw [ej]
  refine point_eq (V c main_v88) (V c main_arg21) (V c main_v87) (V c main_v89) (V c main_v90)
    (iblk7 V c 0 t) (iblk7 V c 1 t) (iblk7 V c 2 t) (iblk7 V c 3 t) (iblk7 V c 4 t) ⟨(j 0).val, hj0⟩ ⟨(j 1).val, hj1⟩
    (((cfg7.win 5).blk t).view.emb j) (fun d => ?_) (fun a b => ?_) (fun b => ?_) ?_ ?_ ?_
  · show V c main_v88 (((cfg7.win 0).blk t).view.emb (ix2 (⟨(j 0).val, hj0⟩ : Fin 4096) d)) = _
    refine congrArg (V c main_v88) (funext fun a => Fin.ext ?_)
    match a with
    | ⟨0, _⟩ => show win7_0.index t (0 : Fin 2) * 4096 + 1 * (j 0).val = win7_5.index t (0 : Fin 2) * 4096 + 1 * (j 0).val; omega
    | ⟨1, _⟩ => show win7_0.index t (1 : Fin 2) * 8 + 1 * d.val = d.val; omega
  · show V c main_arg21 (((cfg7.win 1).blk t).view.emb (ix2 a b)) = _
    refine congrArg (V c main_arg21) (funext fun x => Fin.ext ?_)
    match x with
    | ⟨0, _⟩ => show win7_1.index t (0 : Fin 2) * 8 + 1 * a.val = a.val; omega
    | ⟨1, _⟩ => show win7_1.index t (1 : Fin 2) * 4 + 1 * b.val = b.val; omega
  · show V c main_v87 (((cfg7.win 2).blk t).view.emb (ix2 (0 : Fin 1) b)) = _
    refine congrArg (V c main_v87) (funext fun x => Fin.ext ?_)
    match x with
    | ⟨0, _⟩ => show win7_2.index t (0 : Fin 2) * 1 + 1 * 0 = 0; omega
    | ⟨1, _⟩ => show win7_2.index t (1 : Fin 2) * 4 + 1 * b.val = b.val; omega
  · show V c main_v89 (((cfg7.win 3).blk t).view.emb (ix2 (⟨(j 0).val, hj0⟩ : Fin 4096) (⟨(j 1).val, hj1⟩ : Fin 4))) = _
    refine congrArg (V c main_v89) (funext fun a => Fin.ext ?_)
    match a with
    | ⟨0, _⟩ => show win7_3.index t (0 : Fin 2) * 4096 + 1 * (j 0).val = win7_5.index t (0 : Fin 2) * 4096 + 1 * (j 0).val; omega
    | ⟨1, _⟩ => show win7_3.index t (1 : Fin 2) * 4 + 1 * (j 1).val = win7_5.index t (1 : Fin 2) * 4 + 1 * (j 1).val; omega
  · show V c main_v90 (((cfg7.win 4).blk t).view.emb (ix2 (⟨(j 0).val, hj0⟩ : Fin 4096) (0 : Fin 1))) = _
    refine congrArg (V c main_v90) (funext fun a => Fin.ext ?_)
    match a with
    | ⟨0, _⟩ => show win7_4.index t (0 : Fin 2) * 4096 + 1 * (j 0).val = win7_5.index t (0 : Fin 2) * 4096 + 1 * (j 0).val; omega
    | ⟨1, _⟩ => show win7_4.index t (1 : Fin 2) * 1 + 1 * 0 = 0; omega
  · refine Fin.ext ?_
    show (j 1).val = win7_5.index t (1 : Fin 2) * 4 + 1 * (j 1).val
    omega

theorem mem_blk (t : Fin cfg7.N) (i : S102400x4.Idx) :
    i ∈ ((cfg7.win 5).blk t).view.set
      ↔ ∀ a : Fin 2, win7_5.index t a * S4096x4.size a ≤ (i a).val ∧ (i a).val < win7_5.index t a * S4096x4.size a + S4096x4.size a := by
  show i ∈ ((View.whole main_v91).slice (win7_5.rect t)).set ↔ _
  rw [View.set_slice_whole, Rect.mem_set_unit]
  exact Iff.rfl

theorem cover (i : S102400x4.Idx) : ∃ t : Fin cfg7.N, (cfg7.win 5).flush t = true ∧ i ∈ ((cfg7.win 5).blk t).view.set := by
  have hi0 : (i 0).val < 102400 := (i 0).isLt
  have hi1 : (i 1).val < 4 := (i 1).isLt
  obtain ⟨t, ht⟩ : ∃ t : Fin cfg7.N, t.val = (i 0).val / 4096 :=
    ⟨⟨(i 0).val / 4096, by rw [show cfg7.N = 25 from N_7]; omega⟩, rfl⟩
  obtain ⟨-, -, -, -, -, -, -, -, -, -, e0, e1⟩ := idx_facts t
  refine ⟨t, flush7_5 t, ?_⟩
  rw [mem_blk]
  intro a
  match a with
  | ⟨0, _⟩ =>
    show win7_5.index t (0 : Fin 2) * 4096 ≤ (i 0).val ∧ (i 0).val < win7_5.index t (0 : Fin 2) * 4096 + 4096
    rw [e0, ht]; omega
  | ⟨1, _⟩ =>
    show win7_5.index t (1 : Fin 2) * (4) ≤ (i 1).val ∧ (i 1).val < win7_5.index t (1 : Fin 2) * (4) + 4
    rw [e1]; omega

theorem node_out (c : Dev nD) :
    (Cert.KernelIdeal.Gen.dat7 (F := Ideal) V c).arrAt 5 cfg7.N
      = NodeG (V c main_v88) (V c main_arg21) (V c main_v87) (V c main_v89) (V c main_v90) :=
  (Cert.KernelIdeal.Gen.dat7 (F := Ideal) V c).arrAt_eq_of_cover 5
    (NodeG (V c main_v88) (V c main_arg21) (V c main_v87) (V c main_v89) (V c main_v90))
    (fun t _ => flushed_eq V c t) cover

end Cert.KernelIdeal.KV.L4

end
-- ==== Proof.KFold4.lean ====
import proofs.«109075_j6828998001340_1_alg».proof.Proof.KFoldIface
import proofs.«109075_j6828998001340_1_alg».proof.Proof.KEdge4
import proofs.«109075_j6828998001340_1_alg».proof.Proof.KNode4
import Idealize.ShloMosaic.Lib.ValueIdx
import Idealize.ShloMosaic.Lib.Pipeline.Value
import Idealize.ShloMosaic.Lib.StableHlo.Run

set_option maxRecDepth 16384

noncomputable section

namespace Cert.KernelIdeal.KV.F4

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD) (hin : FA S100000x8)

def Entry : Prop :=
  extractStridedSlice S100000x8 ![0, 0] (W36 (F := Ideal) m ρ c (Proc.devRef .tc main_v71)) slices_S102400x8_S100000x8_0_0 = hin
    ∧ W36 (F := Ideal) m ρ c (Proc.devRef .tc main_v1) = src (arg m c main_arg1)
    ∧ W36 (F := Ideal) m ρ c (Proc.devRef .tc main_v3) = dst (arg m c main_arg1)
    ∧ W36 (F := Ideal) m ρ c (Proc.devRef .tc main_v12) = cinv (arg m c main_arg1)

section Stretches

variable (V : Valuation τ sig (Elt Ideal))

theorem hin_stage
    (h : extractStridedSlice S100000x8 ![0, 0] (V (Proc.devRef .tc main_v71)) slices_S102400x8_S100000x8_0_0 = hin) :
    StableHlo.after hostOps6 V (Proc.devRef .tc main_v72) = hin := by
  after_results
  exact h

theorem xj_stage (a1 : IA S2x3200000)
    (h : extractStridedSlice S100000x8 ![0, 0] (V (Proc.devRef .tc main_v71)) slices_S102400x8_S100000x8_0_0 = hin)
    (hs : V (Proc.devRef .tc main_v1) = src a1) :
    StableHlo.after hostOps6 V (Proc.devRef .tc main_v79)
      = Host.gather gather_S100000x8_S3200000x1_S3200000x8_1_0_n_n_0_1_18 hin (srcIdx a1) := by
  after_results
  rw [hs, h]
  all_goals rfl

theorem zero1_stage : StableHlo.after hostOps6 V (Proc.devRef .tc main_c_28) = constantI S_ 32 0#32 := by
  after_results
  all_goals rfl

theorem xjPad_stage (x : FA S3200000x8) (h1 : V (Proc.devRef .tc main_v79) = x)
    (h2 : V (Proc.devRef .tc main_c_28) = constantI S_ 32 0#32) :
    StableHlo.after hostOps6_1 V (Proc.devRef .tc main_v80)
      = pad S3203072x8 ![0, 0] ![3072, 0] ![0, 0] x padv pads_S3200000x8_S3203072x8_030720_000 h_S_ := by
  after_results
  rw [h1, h2]
  all_goals rfl

theorem zero2_stage : StableHlo.after hostOps6_2 V (Proc.devRef .tc main_c_29) = constantI S_ 32 0#32 := by
  after_results
  all_goals rfl

theorem eaPad_stage (ea : FA S3200000x3) (h1 : V (Proc.devRef .tc main_arg2) = ea)
    (h2 : V (Proc.devRef .tc main_c_29) = constantI S_ 32 0#32) :
    StableHlo.after hostOps6_3 V (Proc.devRef .tc main_v81)
      = pad S3203072x3 ![0, 0] ![3072, 0] ![0, 0] ea padv pads_S3200000x3_S3203072x3_030720_000 h_S_ := by
  after_results
  rw [h1, h2]
  all_goals rfl

theorem agg_stage (M : FA S3203072x4) (d : IA S3200000) (h1 : V (Proc.devRef .tc main_v82) = M)
    (h2 : V (Proc.devRef .tc main_v3) = d) :
    StableHlo.after hostOps7 V (Proc.devRef .tc main_v86)
      = Host.scatterAdd (F := Ideal) scatter_S100000x4_S3200000x1_S3200000x4_1_0_0_1
          (broadcastInDim S100000x4 ![] bcast_S_S100000x4 (constant (F := Ideal) S_ .f32 0x00000000#32))
          (broadcastInDim S3200000x1 ![0] bcast_S3200000_S3200000x1_0 d)
          (extractStridedSlice S3200000x4 ![0, 0] M slices_S3203072x4_S3200000x4_0_0) := by
  after_results
  rw [h1, h2]
  all_goals rfl

theorem b2_stage (b : FA S4) (h : V (Proc.devRef .tc main_arg22) = b) :
    StableHlo.after hostOps7 V (Proc.devRef .tc main_v87) = shapeCast S1x4 b shapeCasts_S4_S1x4 := by
  after_results
  rw [h]
  all_goals rfl

theorem zero3_stage : StableHlo.after hostOps7 V (Proc.devRef .tc main_c_31) = constantI S_ 32 0#32 := by
  after_results
  all_goals rfl

theorem hp_stage (x : FA S100000x8) (h1 : V (Proc.devRef .tc main_v72) = x)
    (h2 : V (Proc.devRef .tc main_c_31) = constantI S_ 32 0#32) :
    StableHlo.after hostOps7_1 V (Proc.devRef .tc main_v88) = L4.hPad x := by
  after_results
  rw [h1, h2]
  all_goals rfl

theorem zero4_stage : StableHlo.after hostOps7_2 V (Proc.devRef .tc main_c_32) = constantI S_ 32 0#32 := by
  after_results
  all_goals rfl

theorem aggP_stage (A : FA S100000x4) (h1 : V (Proc.devRef .tc main_v86) = A)
    (h2 : V (Proc.devRef .tc main_c_32) = constantI S_ 32 0#32) :
    StableHlo.after hostOps7_3 V (Proc.devRef .tc main_v89) = L4.aggPad A := by
  after_results
  rw [h1, h2]
  all_goals rfl

theorem zero5_stage : StableHlo.after hostOps7_4 V (Proc.devRef .tc main_c_33) = constantI S_ 32 0#32 := by
  after_results
  all_goals rfl

theorem cP_stage (C : FA S100000x1) (h1 : V (Proc.devRef .tc main_v12) = C)
    (h2 : V (Proc.devRef .tc main_c_33) = constantI S_ 32 0#32) :
    StableHlo.after hostOps7_5 V (Proc.devRef .tc main_v90)
      = cPad C := by
  after_results
  rw [h1, h2]
  all_goals rfl

end Stretches

theorem hin_W37 (H : Entry m ρ c hin) : W37 (F := Ideal) m ρ c (Proc.devRef .tc main_v72) = hin :=
  hin_stage hin _ H.1

theorem xj_W37 (H : Entry m ρ c hin) : W37 (F := Ideal) m ρ c (Proc.devRef .tc main_v79)
    = Host.gather gather_S100000x8_S3200000x1_S3200000x8_1_0_n_n_0_1_18 hin (srcIdx (arg m c main_arg1)) :=
  xj_stage hin _ _ H.1 H.2.1

theorem xjPad_W38 (H : Entry m ρ c hin) :
    W38 (F := Ideal) m ρ c (Proc.devRef .tc main_v80) = L4.xjPad hin (arg m c main_arg1) := by
  unfold L4.xjPad
  exact xjPad_stage _ _ (xj_W37 m ρ c hin H) (zero1_stage _)

theorem ea_W39 : W39 (F := Ideal) m ρ c (Proc.devRef .tc main_arg2) = arg m c main_arg2 := by fold_launch

theorem eaPad_W40 : W40 (F := Ideal) m ρ c (Proc.devRef .tc main_v81) = L4.eaPad (arg m c main_arg2) := by
  unfold L4.eaPad
  exact eaPad_stage _ _ (ea_W39 m ρ c) (zero2_stage _)

theorem xjPad_W40 (H : Entry m ρ c hin) :
    W40 (F := Ideal) m ρ c (Proc.devRef .tc main_v80) = L4.xjPad hin (arg m c main_arg1) := by
  fold_carry xjPad_W38 m ρ c hin H

theorem g_W40 : W40 (F := Ideal) m ρ c (Proc.devRef .tc main_arg18) = arg m c main_arg18 := by fold_launch

theorem mu_W40 : W40 (F := Ideal) m ρ c (Proc.devRef .tc main_arg19) = arg m c main_arg19 := by fold_launch

theorem sg_W40 : W40 (F := Ideal) m ρ c (Proc.devRef .tc main_arg20) = arg m c main_arg20 := by fold_launch

theorem msgP_W41 (H : Entry m ρ c hin) : W41 (F := Ideal) m ρ c (Proc.devRef .tc main_v82)
    = L4.EdgeG (L4.xjPad hin (arg m c main_arg1)) (L4.eaPad (arg m c main_arg2)) (arg m c main_arg18) (arg m c main_arg19)
        (arg m c main_arg20) := by
  refine (W41_arr m ρ c 5).trans ((L4.edge_out (V40 m ρ) c).trans ?_)
  dsimp only [V40]
  rw [xjPad_W40 m ρ c hin H, eaPad_W40 m ρ c, g_W40 m ρ c, mu_W40 m ρ c, sg_W40 m ρ c]

theorem dst_W41 (H : Entry m ρ c hin) : W41 (F := Ideal) m ρ c (Proc.devRef .tc main_v3) = dst (arg m c main_arg1) := by
  obtain ⟨-, -, h_dst, -⟩ := H
  fold_carry h_dst

theorem b_W41 : W41 (F := Ideal) m ρ c (Proc.devRef .tc main_arg22) = arg m c main_arg22 := by fold_launch

theorem agg_W42 (H : Entry m ρ c hin) : W42 (F := Ideal) m ρ c (Proc.devRef .tc main_v86)
    = L4.agg hin (arg m c main_arg1) (arg m c main_arg2) (arg m c main_arg18) (arg m c main_arg19) (arg m c main_arg20) := by
  unfold L4.agg L4.msg dstIdx
  exact agg_stage _ _ _ (msgP_W41 m ρ c hin H) (dst_W41 m ρ c hin H)

theorem b2_W42 : W42 (F := Ideal) m ρ c (Proc.devRef .tc main_v87) = shapeCast S1x4 (arg m c main_arg22) shapeCasts_S4_S1x4 :=
  b2_stage _ _ (b_W41 m ρ c)

theorem hin_W42 (H : Entry m ρ c hin) : W42 (F := Ideal) m ρ c (Proc.devRef .tc main_v72) = hin := by
  fold_carry hin_W37 m ρ c hin H

theorem hp_W43 (H : Entry m ρ c hin) : W43 (F := Ideal) m ρ c (Proc.devRef .tc main_v88) = L4.hPad hin :=
  hp_stage _ _ (hin_W42 m ρ c hin H) (zero3_stage _)

theorem agg_W44 (H : Entry m ρ c hin) : W44 (F := Ideal) m ρ c (Proc.devRef .tc main_v86)
    = L4.agg hin (arg m c main_arg1) (arg m c main_arg2) (arg m c main_arg18) (arg m c main_arg19) (arg m c main_arg20) := by
  fold_carry agg_W42 m ρ c hin H

theorem aggP_W45 (H : Entry m ρ c hin) : W45 (F := Ideal) m ρ c (Proc.devRef .tc main_v89)
    = L4.aggPad (L4.agg hin (arg m c main_arg1) (arg m c main_arg2) (arg m c main_arg18) (arg m c main_arg19) (arg m c main_arg20)) :=
  aggP_stage _ _ (agg_W44 m ρ c hin H) (zero4_stage _)

theorem cinv_W46 (H : Entry m ρ c hin) : W46 (F := Ideal) m ρ c (Proc.devRef .tc main_v12) = cinv (arg m c main_arg1) := by
  obtain ⟨-, -, -, h_cinv⟩ := H
  fold_carry h_cinv

theorem cP_W47 (H : Entry m ρ c hin) : W47 (F := Ideal) m ρ c (Proc.devRef .tc main_v90)
    = cPad (cinv (arg m c main_arg1)) :=
  cP_stage _ _ (cinv_W46 m ρ c hin H) (zero5_stage _)

theorem hp_W47 (H : Entry m ρ c hin) : W47 (F := Ideal) m ρ c (Proc.devRef .tc main_v88) = L4.hPad hin := by
  fold_carry hp_W43 m ρ c hin H

theorem root_W47 : W47 (F := Ideal) m ρ c (Proc.devRef .tc main_arg21) = arg m c main_arg21 := by fold_launch

theorem b2_W47 : W47 (F := Ideal) m ρ c (Proc.devRef .tc main_v87) = shapeCast S1x4 (arg m c main_arg22) shapeCasts_S4_S1x4 := by
  fold_carry b2_W42 m ρ c

theorem aggP_W47 (H : Entry m ρ c hin) : W47 (F := Ideal) m ρ c (Proc.devRef .tc main_v89)
    = L4.aggPad (L4.agg hin (arg m c main_arg1) (arg m c main_arg2) (arg m c main_arg18) (arg m c main_arg19) (arg m c main_arg20)) := by
  fold_carry aggP_W45 m ρ c hin H

theorem outP_W48 (H : Entry m ρ c hin) : W48 (F := Ideal) m ρ c (Proc.devRef .tc main_v91)
    = L4.NodeG (L4.hPad hin)
        (arg m c main_arg21) (shapeCast S1x4 (arg m c main_arg22) shapeCasts_S4_S1x4)
        (L4.aggPad (L4.agg hin (arg m c main_arg1) (arg m c main_arg2) (arg m c main_arg18) (arg m c main_arg19) (arg m c main_arg20)))
        (cPad (cinv (arg m c main_arg1))) := by
  refine (W48_arr m ρ c 5).trans ((L4.node_out (V47 m ρ) c).trans ?_)
  dsimp only [V47]
  rw [hp_W47 m ρ c hin H, root_W47 m ρ c, b2_W47 m ρ c, aggP_W47 m ρ c hin H, cP_W47 m ρ c hin H]

end Cert.KernelIdeal.KV.F4

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem fold4 (c : Dev nD) (hin : FA S100000x8)
    (h_in : extractStridedSlice S100000x8 ![0, 0] (W36 (F := Ideal) m ρ c (Proc.devRef .tc main_v71)) slices_S102400x8_S100000x8_0_0 = hin)
    (h_src : W36 (F := Ideal) m ρ c (Proc.devRef .tc main_v1) = src (arg m c main_arg1))
    (h_dst : W36 (F := Ideal) m ρ c (Proc.devRef .tc main_v3) = dst (arg m c main_arg1))
    (h_cinv : W36 (F := Ideal) m ρ c (Proc.devRef .tc main_v12) = cinv (arg m c main_arg1)) :
    extractStridedSlice S100000x4 ![0, 0] (W48 (F := Ideal) m ρ c (Proc.devRef .tc main_v91)) slices_S102400x4_S100000x4_0_0
        = L4.layer hin (arg m c main_arg1) (arg m c main_arg2) (arg m c main_arg18) (arg m c main_arg19) (arg m c main_arg20)
            (arg m c main_arg21) (arg m c main_arg22)
      ∧ W48 (F := Ideal) m ρ c (Proc.devRef .tc main_v1) = src (arg m c main_arg1)
      ∧ W48 (F := Ideal) m ρ c (Proc.devRef .tc main_v3) = dst (arg m c main_arg1)
      ∧ W48 (F := Ideal) m ρ c (Proc.devRef .tc main_v12) = cinv (arg m c main_arg1) := by
  have H : F4.Entry m ρ c hin := ⟨h_in, h_src, h_dst, h_cinv⟩
  refine ⟨?_, ?_, ?_, ?_⟩
  · unfold L4.layer
    rw [F4.outP_W48 m ρ c hin H]
  · fold_carry h_src
  · fold_carry h_dst
  · fold_carry h_cinv

end Cert.KernelIdeal.KV

end
-- ==== Proof.KFold.lean ====
import proofs.«109075_j6828998001340_1_alg».proof.Proof.KFoldIface
import proofs.«109075_j6828998001340_1_alg».proof.Proof.KFold1
import proofs.«109075_j6828998001340_1_alg».proof.Proof.KFold2
import proofs.«109075_j6828998001340_1_alg».proof.Proof.KFold3
import proofs.«109075_j6828998001340_1_alg».proof.Proof.KFold4

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem tail_out (c : Dev nD) :
    W49 (F := Ideal) m ρ c (Proc.devRef .tc main_v92)
      = extractStridedSlice S100000x4 ![0, 0] (W48 (F := Ideal) m ρ c (Proc.devRef .tc main_v91)) slices_S102400x4_S100000x4_0_0 := by
  show StableHlo.after hostOps8 (W48 (F := Ideal) m ρ c) (Proc.devRef .tc main_v92) = _
  generalize W48 (F := Ideal) m ρ c = V
  after_results

def kres (c : Dev nD) : Buf (Elt Ideal) ((c.tc : Thread nD τ).loc main_v92) :=
  L4.layer (L3.layer (L2.layer (L1.layer (arg m c main_arg0) (arg m c main_arg1) (arg m c main_arg2) (arg m c main_arg3) (arg m c main_arg4)
    (arg m c main_arg5) (arg m c main_arg6) (arg m c main_arg7))
    (arg m c main_arg1) (arg m c main_arg2) (arg m c main_arg8) (arg m c main_arg9) (arg m c main_arg10) (arg m c main_arg11) (arg m c main_arg12))
    (arg m c main_arg1) (arg m c main_arg2) (arg m c main_arg13) (arg m c main_arg14) (arg m c main_arg15) (arg m c main_arg16) (arg m c main_arg17))
    (arg m c main_arg1) (arg m c main_arg2) (arg m c main_arg18) (arg m c main_arg19) (arg m c main_arg20) (arg m c main_arg21) (arg m c main_arg22)

theorem fold_out (c : Dev nD) : W49 (F := Ideal) m ρ c (Proc.devRef .tc main_v92) = kres m c := by
  obtain ⟨h1, s1, d1, c1⟩ := fold1 m ρ c
  obtain ⟨h2, s2, d2, c2⟩ := fold2 m ρ c _ h1 s1 d1 c1
  obtain ⟨h3, s3, d3, c3⟩ := fold3 m ρ c _ h2 s2 d2 c2
  obtain ⟨h4, -, -, -⟩ := fold4 m ρ c _ h3 s3 d3 c3
  exact (tail_out m ρ c).trans h4

end Cert.KernelIdeal.KV

end
-- ==== Proof.ROps.lean ====
import proofs.«109075_j6828998001340_1_alg».proof.ReferenceIdeal
import proofs.«109075_j6828998001340_1_alg».proof.Proof.Gen.ReferenceIdeal
import Idealize.ShloMosaic.Lib.StableHlo.Run

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

abbrev opsL1 : List (HloOp τ sig (Elt F)) :=
  [ StableHlo.unary main_arg1 main_v0 ((extractStridedSlice S1x3200000 ![0, 0] · slices_S2x3200000_S1x3200000_0_0)),
    StableHlo.reshape main_v0 main_v1 rfl shapeCasts_S1x3200000_S3200000,
    StableHlo.unary main_arg1 main_v2 ((extractStridedSlice S1x3200000 ![1, 0] · slices_S2x3200000_S1x3200000_1_0)),
    StableHlo.reshape main_v2 main_v3 rfl shapeCasts_S1x3200000_S3200000,
    StableHlo.nullary main_c (constantI S_ 32 0#32),
    StableHlo.unary main_c main_v4 (broadcastInDim S3200000 ![] bcast_S_S3200000),
    StableHlo.binary main_v1 main_v4 main_v5 (cmpi .slt),
    StableHlo.nullary main_c_0 (constantI S_ 32 100000#32),
    StableHlo.unary main_c_0 main_v6 (broadcastInDim S3200000 ![] bcast_S_S3200000),
    StableHlo.binary main_v1 main_v6 main_v7 (addi),
    StableHlo.ternary main_v5 main_v7 main_v1 main_v8 (select),
    StableHlo.unary main_v8 main_v9 (broadcastInDim S3200000x1 ![0] bcast_S3200000_S3200000x1_0),
    StableHlo.binary main_arg0 main_v9 main_v10 ((fun x i => Host.gather gather_S100000x3_S3200000x1_S3200000x3_1_0_n_n_0_1_13 x i)),
    StableHlo.binary main_v10 main_arg3 main_v11 ((fun l r => Host.dotGeneral dot_S3200000x3_S3x24_S3200000x24_1_0_0_1_n_n none l r)),
    StableHlo.unary main_arg2 main_v12 (broadcastInDim S3200000x1x3 ![0, 2] bcast_S3200000x3_S3200000x1x3_0_2),
    StableHlo.unary main_arg4 main_v13 (broadcastInDim S1x3x3 ![1, 2] bcast_S3x3_S1x3x3_1_2),
    StableHlo.unary main_v12 main_v14 (broadcastInDim S3200000x3x3 ![0, 1, 2] bcast_S3200000x1x3_S3200000x3x3_0_1_2),
    StableHlo.unary main_v13 main_v15 (broadcastInDim S3200000x3x3 ![0, 1, 2] bcast_S1x3x3_S3200000x3x3_0_1_2),
    StableHlo.binary main_v14 main_v15 main_v16 (subf),
    StableHlo.binary main_v16 main_v16 main_v17 (mulf),
    StableHlo.unary main_arg5 main_v18 (broadcastInDim S1x3x3 ![1, 2] bcast_S3x3_S1x3x3_1_2),
    StableHlo.binary main_v18 main_v18 main_v19 (mulf),
    StableHlo.nullary main_cst (constant S_ .f32 0x26901D7D#32),
    StableHlo.unary main_cst main_v20 (broadcastInDim S1x3x3 ![] bcast_S_S1x3x3),
    StableHlo.binary main_v20 main_v19 main_v21 (addf),
    StableHlo.unary main_v21 main_v22 (broadcastInDim S3200000x3x3 ![0, 1, 2] bcast_S1x3x3_S3200000x3x3_0_1_2),
    StableHlo.binary main_v17 main_v22 main_v23 (Host.divf),
    StableHlo.nullary main_cst_1 (constant S_ .f32 0x00000000#32),
    StableHlo.binary main_v23 main_cst_1 main_v24 ((fun x v => Host.reduceAdd x v reducesTo_S3200000x3x3_S3200000x3_d2 h_S_)),
    StableHlo.nullary main_cst_2 (constant S_ .f32 0xBF000000#32),
    StableHlo.unary main_cst_2 main_v25 (broadcastInDim S3200000x3 ![] bcast_S_S3200000x3),
    StableHlo.binary main_v25 main_v24 main_v26 (mulf),
    StableHlo.unary main_v26 main_v27 (Host.exp),
    StableHlo.reshape main_v11 main_v28 rfl shapeCasts_S3200000x24_S3200000x3x8,
    StableHlo.unary main_v27 main_v29 (broadcastInDim S3200000x3x1 ![0, 1] bcast_S3200000x3_S3200000x3x1_0_1),
    StableHlo.unary main_v29 main_v30 (broadcastInDim S3200000x3x8 ![0, 1, 2] bcast_S3200000x3x1_S3200000x3x8_0_1_2),
    StableHlo.binary main_v28 main_v30 main_v31 (mulf),
    StableHlo.nullary main_cst_3 (constant S_ .f32 0x00000000#32),
    StableHlo.binary main_v31 main_cst_3 main_v32 ((fun x v => Host.reduceAdd x v reducesTo_S3200000x3x8_S3200000x8_d1 h_S_)),
    StableHlo.nullary main_cst_4 (constant S_ .f32 0x00000000#32),
    StableHlo.unary main_cst_4 main_v33 (broadcastInDim S100000x8 ![] bcast_S_S100000x8),
    StableHlo.unary main_v3 main_v34 (broadcastInDim S3200000x1 ![0] bcast_S3200000_S3200000x1_0),
    StableHlo.ternary main_v33 main_v34 main_v32 main_v35 ((fun x i u => Host.scatterAdd scatter_S100000x8_S3200000x1_S3200000x8_1_0_0_1 x i u)),
    StableHlo.nullary main_cst_5 (constant S_ .f32 0x3F800000#32),
    StableHlo.unary main_cst_5 main_v36 (broadcastInDim S3200000 ![] bcast_S_S3200000),
    StableHlo.nullary main_cst_6 (constant S_ .f32 0x00000000#32),
    StableHlo.unary main_cst_6 main_v37 (broadcastInDim S100000 ![] bcast_S_S100000),
    StableHlo.unary main_v3 main_v38 (broadcastInDim S3200000x1 ![0] bcast_S3200000_S3200000x1_0),
    StableHlo.ternary main_v37 main_v38 main_v36 main_v39 ((fun x i u => Host.scatterAdd scatter_S100000_S3200000x1_S3200000_n_0_0_1 x i u)),
    StableHlo.nullary main_cst_7 (constant S_ .f32 0x3F800000#32),
    StableHlo.unary main_cst_7 main_v40 (broadcastInDim S100000 ![] bcast_S_S100000),
    StableHlo.binary main_v39 main_v40 main_v41 (maximumf),
    StableHlo.unary main_v41 main_v42 (broadcastInDim S100000x1 ![0] bcast_S100000_S100000x1_0),
    StableHlo.unary main_v42 main_v43 (broadcastInDim S100000x8 ![0, 1] bcast_S100000x1_S100000x8_0_1),
    StableHlo.binary main_v35 main_v43 main_v44 (Host.divf),
    StableHlo.binary main_arg0 main_arg6 main_v45 ((fun l r => Host.dotGeneral dot_S100000x3_S3x8_S100000x8_1_0_0_1_n_n none l r)),
    StableHlo.binary main_v44 main_v45 main_v46 (addf),
    StableHlo.unary main_arg7 main_v47 (broadcastInDim S1x8 ![1] bcast_S8_S1x8_1),
    StableHlo.unary main_v47 main_v48 (broadcastInDim S100000x8 ![0, 1] bcast_S1x8_S100000x8_0_1),
    StableHlo.binary main_v46 main_v48 main_v49 (addf)]

abbrev opsL1_W : List (Ref sig .tc) := [main_v0, main_v1, main_v2, main_v3, main_c, main_v4, main_v5, main_c_0, main_v6, main_v7, main_v8, main_v9, main_v10, main_v11, main_v12, main_v13, main_v14, main_v15, main_v16, main_v17, main_v18, main_v19, main_cst, main_v20, main_v21, main_v22, main_v23, main_cst_1, main_v24, main_cst_2, main_v25, main_v26, main_v27, main_v28, main_v29, main_v30, main_v31, main_cst_3, main_v32, main_cst_4, main_v33, main_v34, main_v35, main_cst_5, main_v36, main_cst_6, main_v37, main_v38, main_v39, main_cst_7, main_v40, main_v41, main_v42, main_v43, main_v44, main_v45, main_v46, main_v47, main_v48, main_v49]

set_option maxRecDepth 8192 in
theorem opsL1_sub : (opsL1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

abbrev opsE1 : List (HloOp τ sig (Elt F)) :=
  [ StableHlo.TRef.nullary main_call0.cst (constant S_ .f32 0x00000000#32),
    StableHlo.TRef.unary main_call0.cst main_call0.v0 (broadcastInDim S100000x8 ![] bcast_S_S100000x8),
    StableHlo.TRef.binary (.of main_v49 : StableHlo.TRef sig ⟨S100000x8, .f32⟩) main_call0.v0 main_call0.v1 (cmpf .ogt),
    StableHlo.TRef.nullary main_call0.cst_0 (constant S_ .f32 0x00000000#32),
    StableHlo.TRef.unary main_call0.cst_0 main_call0.v2 (broadcastInDim S100000x8 ![] bcast_S_S100000x8),
    StableHlo.TRef.binary (.of main_v49 : StableHlo.TRef sig ⟨S100000x8, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x8 ![] bcast_S_S100000x8),
    StableHlo.TRef.ternary main_call0.v3 main_call0.call0.v1 (.of main_v49 : StableHlo.TRef sig ⟨S100000x8, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x8 ![] bcast_S_S100000x8),
    StableHlo.TRef.binary main_call0.v6 main_call0.v5 main_call0.v7 mulf,
    StableHlo.TRef.ternary main_call0.v1 (.of main_v49 : StableHlo.TRef sig ⟨S100000x8, .f32⟩) main_call0.v7 main_call0.call1.v0 select]

abbrev opsE1_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v50]

set_option maxRecDepth 8192 in
theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

abbrev opsL2 : List (HloOp τ sig (Elt F)) :=
  [ StableHlo.nullary main_c_8 (constantI S_ 32 0#32),
    StableHlo.unary main_c_8 main_v51 (broadcastInDim S3200000 ![] bcast_S_S3200000),
    StableHlo.binary main_v1 main_v51 main_v52 (cmpi .slt),
    StableHlo.nullary main_c_9 (constantI S_ 32 100000#32),
    StableHlo.unary main_c_9 main_v53 (broadcastInDim S3200000 ![] bcast_S_S3200000),
    StableHlo.binary main_v1 main_v53 main_v54 (addi),
    StableHlo.ternary main_v52 main_v54 main_v1 main_v55 (select),
    StableHlo.unary main_v55 main_v56 (broadcastInDim S3200000x1 ![0] bcast_S3200000_S3200000x1_0),
    StableHlo.binary main_v50 main_v56 main_v57 ((fun x i => Host.gather gather_S100000x8_S3200000x1_S3200000x8_1_0_n_n_0_1_18 x i)),
    StableHlo.binary main_v57 main_arg8 main_v58 ((fun l r => Host.dotGeneral dot_S3200000x8_S8x48_S3200000x48_1_0_0_1_n_n none l r)),
    StableHlo.unary main_arg2 main_v59 (broadcastInDim S3200000x1x3 ![0, 2] bcast_S3200000x3_S3200000x1x3_0_2),
    StableHlo.unary main_arg9 main_v60 (broadcastInDim S1x3x3 ![1, 2] bcast_S3x3_S1x3x3_1_2),
    StableHlo.unary main_v59 main_v61 (broadcastInDim S3200000x3x3 ![0, 1, 2] bcast_S3200000x1x3_S3200000x3x3_0_1_2),
    StableHlo.unary main_v60 main_v62 (broadcastInDim S3200000x3x3 ![0, 1, 2] bcast_S1x3x3_S3200000x3x3_0_1_2),
    StableHlo.binary main_v61 main_v62 main_v63 (subf),
    StableHlo.binary main_v63 main_v63 main_v64 (mulf),
    StableHlo.unary main_arg10 main_v65 (broadcastInDim S1x3x3 ![1, 2] bcast_S3x3_S1x3x3_1_2),
    StableHlo.binary main_v65 main_v65 main_v66 (mulf),
    StableHlo.nullary main_cst_10 (constant S_ .f32 0x26901D7D#32),
    StableHlo.unary main_cst_10 main_v67 (broadcastInDim S1x3x3 ![] bcast_S_S1x3x3),
    StableHlo.binary main_v67 main_v66 main_v68 (addf),
    StableHlo.unary main_v68 main_v69 (broadcastInDim S3200000x3x3 ![0, 1, 2] bcast_S1x3x3_S3200000x3x3_0_1_2),
    StableHlo.binary main_v64 main_v69 main_v70 (Host.divf),
    StableHlo.nullary main_cst_11 (constant S_ .f32 0x00000000#32),
    StableHlo.binary main_v70 main_cst_11 main_v71 ((fun x v => Host.reduceAdd x v reducesTo_S3200000x3x3_S3200000x3_d2 h_S_)),
    StableHlo.nullary main_cst_12 (constant S_ .f32 0xBF000000#32),
    StableHlo.unary main_cst_12 main_v72 (broadcastInDim S3200000x3 ![] bcast_S_S3200000x3),
    StableHlo.binary main_v72 main_v71 main_v73 (mulf),
    StableHlo.unary main_v73 main_v74 (Host.exp),
    StableHlo.reshape main_v58 main_v75 rfl shapeCasts_S3200000x48_S3200000x3x16,
    StableHlo.unary main_v74 main_v76 (broadcastInDim S3200000x3x1 ![0, 1] bcast_S3200000x3_S3200000x3x1_0_1),
    StableHlo.unary main_v76 main_v77 (broadcastInDim S3200000x3x16 ![0, 1, 2] bcast_S3200000x3x1_S3200000x3x16_0_1_2),
    StableHlo.binary main_v75 main_v77 main_v78 (mulf),
    StableHlo.nullary main_cst_13 (constant S_ .f32 0x00000000#32),
    StableHlo.binary main_v78 main_cst_13 main_v79 ((fun x v => Host.reduceAdd x v reducesTo_S3200000x3x16_S3200000x16_d1 h_S_)),
    StableHlo.nullary main_cst_14 (constant S_ .f32 0x00000000#32),
    StableHlo.unary main_cst_14 main_v80 (broadcastInDim S100000x16 ![] bcast_S_S100000x16),
    StableHlo.unary main_v3 main_v81 (broadcastInDim S3200000x1 ![0] bcast_S3200000_S3200000x1_0),
    StableHlo.ternary main_v80 main_v81 main_v79 main_v82 ((fun x i u => Host.scatterAdd scatter_S100000x16_S3200000x1_S3200000x16_1_0_0_1 x i u)),
    StableHlo.nullary main_cst_15 (constant S_ .f32 0x3F800000#32),
    StableHlo.unary main_cst_15 main_v83 (broadcastInDim S3200000 ![] bcast_S_S3200000),
    StableHlo.nullary main_cst_16 (constant S_ .f32 0x00000000#32),
    StableHlo.unary main_cst_16 main_v84 (broadcastInDim S100000 ![] bcast_S_S100000),
    StableHlo.unary main_v3 main_v85 (broadcastInDim S3200000x1 ![0] bcast_S3200000_S3200000x1_0),
    StableHlo.ternary main_v84 main_v85 main_v83 main_v86 ((fun x i u => Host.scatterAdd scatter_S100000_S3200000x1_S3200000_n_0_0_1 x i u)),
    StableHlo.nullary main_cst_17 (constant S_ .f32 0x3F800000#32),
    StableHlo.unary main_cst_17 main_v87 (broadcastInDim S100000 ![] bcast_S_S100000),
    StableHlo.binary main_v86 main_v87 main_v88 (maximumf),
    StableHlo.unary main_v88 main_v89 (broadcastInDim S100000x1 ![0] bcast_S100000_S100000x1_0),
    StableHlo.unary main_v89 main_v90 (broadcastInDim S100000x16 ![0, 1] bcast_S100000x1_S100000x16_0_1),
    StableHlo.binary main_v82 main_v90 main_v91 (Host.divf),
    StableHlo.binary main_v50 main_arg11 main_v92 ((fun l r => Host.dotGeneral dot_S100000x8_S8x16_S100000x16_1_0_0_1_n_n none l r)),
    StableHlo.binary main_v91 main_v92 main_v93 (addf),
    StableHlo.unary main_arg12 main_v94 (broadcastInDim S1x16 ![1] bcast_S16_S1x16_1),
    StableHlo.unary main_v94 main_v95 (broadcastInDim S100000x16 ![0, 1] bcast_S1x16_S100000x16_0_1),
    StableHlo.binary main_v93 main_v95 main_v96 (addf)]

abbrev opsL2_W : List (Ref sig .tc) := [main_c_8, main_v51, main_v52, main_c_9, main_v53, main_v54, main_v55, main_v56, main_v57, main_v58, main_v59, main_v60, main_v61, main_v62, main_v63, main_v64, main_v65, main_v66, main_cst_10, main_v67, main_v68, main_v69, main_v70, main_cst_11, main_v71, main_cst_12, main_v72, main_v73, main_v74, main_v75, main_v76, main_v77, main_v78, main_cst_13, main_v79, main_cst_14, main_v80, main_v81, main_v82, main_cst_15, main_v83, main_cst_16, main_v84, main_v85, main_v86, main_cst_17, main_v87, main_v88, main_v89, main_v90, main_v91, main_v92, main_v93, main_v94, main_v95, main_v96]

set_option maxRecDepth 8192 in
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

abbrev opsE2 : List (HloOp τ sig (Elt F)) :=
  [ StableHlo.TRef.nullary main_call1.cst (constant S_ .f32 0x00000000#32),
    StableHlo.TRef.unary main_call1.cst main_call1.v0 (broadcastInDim S100000x16 ![] bcast_S_S100000x16),
    StableHlo.TRef.binary (.of main_v96 : StableHlo.TRef sig ⟨S100000x16, .f32⟩) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (.of main_v96 : StableHlo.TRef sig ⟨S100000x16, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (.of main_v96 : StableHlo.TRef sig ⟨S100000x16, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (.of main_v96 : StableHlo.TRef sig ⟨S100000x16, .f32⟩) main_call1.v7 main_call1.call1.v0 select]

abbrev opsE2_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v97]

set_option maxRecDepth 8192 in
theorem opsE2_sub : (opsE2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

abbrev opsL3 : List (HloOp τ sig (Elt F)) :=
  [ StableHlo.nullary main_c_18 (constantI S_ 32 0#32),
    StableHlo.unary main_c_18 main_v98 (broadcastInDim S3200000 ![] bcast_S_S3200000),
    StableHlo.binary main_v1 main_v98 main_v99 (cmpi .slt),
    StableHlo.nullary main_c_19 (constantI S_ 32 100000#32),
    StableHlo.unary main_c_19 main_v100 (broadcastInDim S3200000 ![] bcast_S_S3200000),
    StableHlo.binary main_v1 main_v100 main_v101 (addi),
    StableHlo.ternary main_v99 main_v101 main_v1 main_v102 (select),
    StableHlo.unary main_v102 main_v103 (broadcastInDim S3200000x1 ![0] bcast_S3200000_S3200000x1_0),
    StableHlo.binary main_v97 main_v103 main_v104 ((fun x i => Host.gather gather_S100000x16_S3200000x1_S3200000x16_1_0_n_n_0_1_116 x i)),
    StableHlo.binary main_v104 main_arg13 main_v105 ((fun l r => Host.dotGeneral dot_S3200000x16_S16x24_S3200000x24_1_0_0_1_n_n none l r)),
    StableHlo.unary main_arg2 main_v106 (broadcastInDim S3200000x1x3 ![0, 2] bcast_S3200000x3_S3200000x1x3_0_2),
    StableHlo.unary main_arg14 main_v107 (broadcastInDim S1x3x3 ![1, 2] bcast_S3x3_S1x3x3_1_2),
    StableHlo.unary main_v106 main_v108 (broadcastInDim S3200000x3x3 ![0, 1, 2] bcast_S3200000x1x3_S3200000x3x3_0_1_2),
    StableHlo.unary main_v107 main_v109 (broadcastInDim S3200000x3x3 ![0, 1, 2] bcast_S1x3x3_S3200000x3x3_0_1_2),
    StableHlo.binary main_v108 main_v109 main_v110 (subf),
    StableHlo.binary main_v110 main_v110 main_v111 (mulf),
    StableHlo.unary main_arg15 main_v112 (broadcastInDim S1x3x3 ![1, 2] bcast_S3x3_S1x3x3_1_2),
    StableHlo.binary main_v112 main_v112 main_v113 (mulf),
    StableHlo.nullary main_cst_20 (constant S_ .f32 0x26901D7D#32),
    StableHlo.unary main_cst_20 main_v114 (broadcastInDim S1x3x3 ![] bcast_S_S1x3x3),
    StableHlo.binary main_v114 main_v113 main_v115 (addf),
    StableHlo.unary main_v115 main_v116 (broadcastInDim S3200000x3x3 ![0, 1, 2] bcast_S1x3x3_S3200000x3x3_0_1_2),
    StableHlo.binary main_v111 main_v116 main_v117 (Host.divf),
    StableHlo.nullary main_cst_21 (constant S_ .f32 0x00000000#32),
    StableHlo.binary main_v117 main_cst_21 main_v118 ((fun x v => Host.reduceAdd x v reducesTo_S3200000x3x3_S3200000x3_d2 h_S_)),
    StableHlo.nullary main_cst_22 (constant S_ .f32 0xBF000000#32),
    StableHlo.unary main_cst_22 main_v119 (broadcastInDim S3200000x3 ![] bcast_S_S3200000x3),
    StableHlo.binary main_v119 main_v118 main_v120 (mulf),
    StableHlo.unary main_v120 main_v121 (Host.exp),
    StableHlo.reshape main_v105 main_v122 rfl shapeCasts_S3200000x24_S3200000x3x8,
    StableHlo.unary main_v121 main_v123 (broadcastInDim S3200000x3x1 ![0, 1] bcast_S3200000x3_S3200000x3x1_0_1),
    StableHlo.unary main_v123 main_v124 (broadcastInDim S3200000x3x8 ![0, 1, 2] bcast_S3200000x3x1_S3200000x3x8_0_1_2),
    StableHlo.binary main_v122 main_v124 main_v125 (mulf),
    StableHlo.nullary main_cst_23 (constant S_ .f32 0x00000000#32),
    StableHlo.binary main_v125 main_cst_23 main_v126 ((fun x v => Host.reduceAdd x v reducesTo_S3200000x3x8_S3200000x8_d1 h_S_)),
    StableHlo.nullary main_cst_24 (constant S_ .f32 0x00000000#32),
    StableHlo.unary main_cst_24 main_v127 (broadcastInDim S100000x8 ![] bcast_S_S100000x8),
    StableHlo.unary main_v3 main_v128 (broadcastInDim S3200000x1 ![0] bcast_S3200000_S3200000x1_0),
    StableHlo.ternary main_v127 main_v128 main_v126 main_v129 ((fun x i u => Host.scatterAdd scatter_S100000x8_S3200000x1_S3200000x8_1_0_0_1 x i u)),
    StableHlo.nullary main_cst_25 (constant S_ .f32 0x3F800000#32),
    StableHlo.unary main_cst_25 main_v130 (broadcastInDim S3200000 ![] bcast_S_S3200000),
    StableHlo.nullary main_cst_26 (constant S_ .f32 0x00000000#32),
    StableHlo.unary main_cst_26 main_v131 (broadcastInDim S100000 ![] bcast_S_S100000),
    StableHlo.unary main_v3 main_v132 (broadcastInDim S3200000x1 ![0] bcast_S3200000_S3200000x1_0),
    StableHlo.ternary main_v131 main_v132 main_v130 main_v133 ((fun x i u => Host.scatterAdd scatter_S100000_S3200000x1_S3200000_n_0_0_1 x i u)),
    StableHlo.nullary main_cst_27 (constant S_ .f32 0x3F800000#32),
    StableHlo.unary main_cst_27 main_v134 (broadcastInDim S100000 ![] bcast_S_S100000),
    StableHlo.binary main_v133 main_v134 main_v135 (maximumf),
    StableHlo.unary main_v135 main_v136 (broadcastInDim S100000x1 ![0] bcast_S100000_S100000x1_0),
    StableHlo.unary main_v136 main_v137 (broadcastInDim S100000x8 ![0, 1] bcast_S100000x1_S100000x8_0_1),
    StableHlo.binary main_v129 main_v137 main_v138 (Host.divf),
    StableHlo.binary main_v97 main_arg16 main_v139 ((fun l r => Host.dotGeneral dot_S100000x16_S16x8_S100000x8_1_0_0_1_n_n none l r)),
    StableHlo.binary main_v138 main_v139 main_v140 (addf),
    StableHlo.unary main_arg17 main_v141 (broadcastInDim S1x8 ![1] bcast_S8_S1x8_1),
    StableHlo.unary main_v141 main_v142 (broadcastInDim S100000x8 ![0, 1] bcast_S1x8_S100000x8_0_1),
    StableHlo.binary main_v140 main_v142 main_v143 (addf)]

abbrev opsL3_W : List (Ref sig .tc) := [main_c_18, main_v98, main_v99, main_c_19, main_v100, main_v101, main_v102, main_v103, main_v104, main_v105, main_v106, main_v107, main_v108, main_v109, main_v110, main_v111, main_v112, main_v113, main_cst_20, main_v114, main_v115, main_v116, main_v117, main_cst_21, main_v118, main_cst_22, main_v119, main_v120, main_v121, main_v122, main_v123, main_v124, main_v125, main_cst_23, main_v126, main_cst_24, main_v127, main_v128, main_v129, main_cst_25, main_v130, main_cst_26, main_v131, main_v132, main_v133, main_cst_27, main_v134, main_v135, main_v136, main_v137, main_v138, main_v139, main_v140, main_v141, main_v142, main_v143]

set_option maxRecDepth 8192 in
theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

abbrev opsE3 : List (HloOp τ sig (Elt F)) :=
  [ StableHlo.TRef.nullary main_call2.cst (constant S_ .f32 0x00000000#32),
    StableHlo.TRef.unary main_call2.cst main_call2.v0 (broadcastInDim S100000x8 ![] bcast_S_S100000x8),
    StableHlo.TRef.binary (.of main_v143 : StableHlo.TRef sig ⟨S100000x8, .f32⟩) main_call2.v0 main_call2.v1 (cmpf .ogt),
    StableHlo.TRef.nullary main_call2.cst_0 (constant S_ .f32 0x00000000#32),
    StableHlo.TRef.unary main_call2.cst_0 main_call2.v2 (broadcastInDim S100000x8 ![] bcast_S_S100000x8),
    StableHlo.TRef.binary (.of main_v143 : StableHlo.TRef sig ⟨S100000x8, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x8 ![] bcast_S_S100000x8),
    StableHlo.TRef.ternary main_call2.v3 main_call2.call0.v1 (.of main_v143 : StableHlo.TRef sig ⟨S100000x8, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x8 ![] bcast_S_S100000x8),
    StableHlo.TRef.binary main_call2.v6 main_call2.v5 main_call2.v7 mulf,
    StableHlo.TRef.ternary main_call2.v1 (.of main_v143 : StableHlo.TRef sig ⟨S100000x8, .f32⟩) main_call2.v7 main_call2.call1.v0 select]

abbrev opsE3_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v144]

set_option maxRecDepth 8192 in
theorem opsE3_sub : (opsE3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

abbrev opsL4 : List (HloOp τ sig (Elt F)) :=
  [ StableHlo.nullary main_c_28 (constantI S_ 32 0#32),
    StableHlo.unary main_c_28 main_v145 (broadcastInDim S3200000 ![] bcast_S_S3200000),
    StableHlo.binary main_v1 main_v145 main_v146 (cmpi .slt),
    StableHlo.nullary main_c_29 (constantI S_ 32 100000#32),
    StableHlo.unary main_c_29 main_v147 (broadcastInDim S3200000 ![] bcast_S_S3200000),
    StableHlo.binary main_v1 main_v147 main_v148 (addi),
    StableHlo.ternary main_v146 main_v148 main_v1 main_v149 (select),
    StableHlo.unary main_v149 main_v150 (broadcastInDim S3200000x1 ![0] bcast_S3200000_S3200000x1_0),
    StableHlo.binary main_v144 main_v150 main_v151 ((fun x i => Host.gather gather_S100000x8_S3200000x1_S3200000x8_1_0_n_n_0_1_18 x i)),
    StableHlo.binary main_v151 main_arg18 main_v152 ((fun l r => Host.dotGeneral dot_S3200000x8_S8x12_S3200000x12_1_0_0_1_n_n none l r)),
    StableHlo.unary main_arg2 main_v153 (broadcastInDim S3200000x1x3 ![0, 2] bcast_S3200000x3_S3200000x1x3_0_2),
    StableHlo.unary main_arg19 main_v154 (broadcastInDim S1x3x3 ![1, 2] bcast_S3x3_S1x3x3_1_2),
    StableHlo.unary main_v153 main_v155 (broadcastInDim S3200000x3x3 ![0, 1, 2] bcast_S3200000x1x3_S3200000x3x3_0_1_2),
    StableHlo.unary main_v154 main_v156 (broadcastInDim S3200000x3x3 ![0, 1, 2] bcast_S1x3x3_S3200000x3x3_0_1_2),
    StableHlo.binary main_v155 main_v156 main_v157 (subf),
    StableHlo.binary main_v157 main_v157 main_v158 (mulf),
    StableHlo.unary main_arg20 main_v159 (broadcastInDim S1x3x3 ![1, 2] bcast_S3x3_S1x3x3_1_2),
    StableHlo.binary main_v159 main_v159 main_v160 (mulf),
    StableHlo.nullary main_cst_30 (constant S_ .f32 0x26901D7D#32),
    StableHlo.unary main_cst_30 main_v161 (broadcastInDim S1x3x3 ![] bcast_S_S1x3x3),
    StableHlo.binary main_v161 main_v160 main_v162 (addf),
    StableHlo.unary main_v162 main_v163 (broadcastInDim S3200000x3x3 ![0, 1, 2] bcast_S1x3x3_S3200000x3x3_0_1_2),
    StableHlo.binary main_v158 main_v163 main_v164 (Host.divf),
    StableHlo.nullary main_cst_31 (constant S_ .f32 0x00000000#32),
    StableHlo.binary main_v164 main_cst_31 main_v165 ((fun x v => Host.reduceAdd x v reducesTo_S3200000x3x3_S3200000x3_d2 h_S_)),
    StableHlo.nullary main_cst_32 (constant S_ .f32 0xBF000000#32),
    StableHlo.unary main_cst_32 main_v166 (broadcastInDim S3200000x3 ![] bcast_S_S3200000x3),
    StableHlo.binary main_v166 main_v165 main_v167 (mulf),
    StableHlo.unary main_v167 main_v168 (Host.exp),
    StableHlo.reshape main_v152 main_v169 rfl shapeCasts_S3200000x12_S3200000x3x4,
    StableHlo.unary main_v168 main_v170 (broadcastInDim S3200000x3x1 ![0, 1] bcast_S3200000x3_S3200000x3x1_0_1),
    StableHlo.unary main_v170 main_v171 (broadcastInDim S3200000x3x4 ![0, 1, 2] bcast_S3200000x3x1_S3200000x3x4_0_1_2),
    StableHlo.binary main_v169 main_v171 main_v172 (mulf),
    StableHlo.nullary main_cst_33 (constant S_ .f32 0x00000000#32),
    StableHlo.binary main_v172 main_cst_33 main_v173 ((fun x v => Host.reduceAdd x v reducesTo_S3200000x3x4_S3200000x4_d1 h_S_)),
    StableHlo.nullary main_cst_34 (constant S_ .f32 0x00000000#32),
    StableHlo.unary main_cst_34 main_v174 (broadcastInDim S100000x4 ![] bcast_S_S100000x4),
    StableHlo.unary main_v3 main_v175 (broadcastInDim S3200000x1 ![0] bcast_S3200000_S3200000x1_0),
    StableHlo.ternary main_v174 main_v175 main_v173 main_v176 ((fun x i u => Host.scatterAdd scatter_S100000x4_S3200000x1_S3200000x4_1_0_0_1 x i u)),
    StableHlo.nullary main_cst_35 (constant S_ .f32 0x3F800000#32),
    StableHlo.unary main_cst_35 main_v177 (broadcastInDim S3200000 ![] bcast_S_S3200000),
    StableHlo.nullary main_cst_36 (constant S_ .f32 0x00000000#32),
    StableHlo.unary main_cst_36 main_v178 (broadcastInDim S100000 ![] bcast_S_S100000),
    StableHlo.unary main_v3 main_v179 (broadcastInDim S3200000x1 ![0] bcast_S3200000_S3200000x1_0),
    StableHlo.ternary main_v178 main_v179 main_v177 main_v180 ((fun x i u => Host.scatterAdd scatter_S100000_S3200000x1_S3200000_n_0_0_1 x i u)),
    StableHlo.nullary main_cst_37 (constant S_ .f32 0x3F800000#32),
    StableHlo.unary main_cst_37 main_v181 (broadcastInDim S100000 ![] bcast_S_S100000),
    StableHlo.binary main_v180 main_v181 main_v182 (maximumf),
    StableHlo.unary main_v182 main_v183 (broadcastInDim S100000x1 ![0] bcast_S100000_S100000x1_0),
    StableHlo.unary main_v183 main_v184 (broadcastInDim S100000x4 ![0, 1] bcast_S100000x1_S100000x4_0_1),
    StableHlo.binary main_v176 main_v184 main_v185 (Host.divf),
    StableHlo.binary main_v144 main_arg21 main_v186 ((fun l r => Host.dotGeneral dot_S100000x8_S8x4_S100000x4_1_0_0_1_n_n none l r)),
    StableHlo.binary main_v185 main_v186 main_v187 (addf),
    StableHlo.unary main_arg22 main_v188 (broadcastInDim S1x4 ![1] bcast_S4_S1x4_1),
    StableHlo.unary main_v188 main_v189 (broadcastInDim S100000x4 ![0, 1] bcast_S1x4_S100000x4_0_1),
    StableHlo.binary main_v187 main_v189 main_v190 (addf)]

abbrev opsL4_W : List (Ref sig .tc) := [main_c_28, main_v145, main_v146, main_c_29, main_v147, main_v148, main_v149, main_v150, main_v151, main_v152, main_v153, main_v154, main_v155, main_v156, main_v157, main_v158, main_v159, main_v160, main_cst_30, main_v161, main_v162, main_v163, main_v164, main_cst_31, main_v165, main_cst_32, main_v166, main_v167, main_v168, main_v169, main_v170, main_v171, main_v172, main_cst_33, main_v173, main_cst_34, main_v174, main_v175, main_v176, main_cst_35, main_v177, main_cst_36, main_v178, main_v179, main_v180, main_cst_37, main_v181, main_v182, main_v183, main_v184, main_v185, main_v186, main_v187, main_v188, main_v189, main_v190]

set_option maxRecDepth 8192 in
theorem opsL4_sub : (opsL4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

end Cert.ReferenceIdeal.RV

end
-- ==== Proof.RSeq.lean ====
import proofs.«109075_j6828998001340_1_alg».proof.Proof.ROps

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) := opsL1 ++ (opsE1 ++ (opsL2 ++ (opsE2 ++ (opsL3 ++ (opsE3 ++ opsL4)))))

def ops_part0 : List (HloOp τ sig (Elt F)) := opsL1

def ops_part1 : List (HloOp τ sig (Elt F)) := opsE1 ++ (opsL2 ++ (opsE2 ++ opsL3.take 2))

def ops_part2 : List (HloOp τ sig (Elt F)) := opsL3.drop 2 ++ (opsE3 ++ opsL4.take 5)

def ops_part3 : List (HloOp τ sig (Elt F)) := opsL4.drop 5

set_option maxRecDepth 8192 in
theorem main_part0_eq (c : Dev nD) : main_part0 (F := F) c = seq ops_part0 := rfl

set_option maxRecDepth 8192 in
theorem main_part1_eq (c : Dev nD) : main_part1 (F := F) c = seq ops_part1 := rfl

set_option maxRecDepth 8192 in
theorem main_part2_eq (c : Dev nD) : main_part2 (F := F) c = seq ops_part2 := rfl

set_option maxRecDepth 8192 in
theorem main_part3_eq (c : Dev nD) : main_part3 (F := F) c = seq ops_part3 := rfl

theorem regroup {α : Type} (A B C D L E M : List α) (i j : Nat) :
    A ++ (B ++ (C ++ (D ++ (L ++ (E ++ M)))))
      = A ++ ((B ++ (C ++ (D ++ L.take i))) ++ ((L.drop i ++ (E ++ M.take j)) ++ M.drop j)) := by
  conv_lhs => rw [← List.take_append_drop i L, ← List.take_append_drop j M]
  simp only [List.append_assoc]

theorem ops_eq : (ops : List (HloOp τ sig (Elt F))) = ops_part0 ++ (ops_part1 ++ (ops_part2 ++ ops_part3)) :=
  regroup opsL1 opsE1 opsL2 opsE2 opsL3 opsE3 opsL4 2 5

theorem main_eq (c : Dev nD) : main (F := F) c = seq ops := by
  rw [ops_eq, seq_append, seq_append, seq_append, ← main_part0_eq c, ← main_part1_eq c, ← main_part2_eq c, ← main_part3_eq c]
  rfl

theorem scopedRefs_eq : (Finset.univ.filter fun b : Ref sig .tc => b.isScoped) = ∅ := by decide

theorem scopedSems_eq : (Finset.univ.filter fun sm : SemLoc sig => sm.isScoped .tc) = ∅ := by decide

-- A property of every operation of the seven stretches holds of every operation of the program.

theorem forall_ops {p : HloOp τ sig (Elt F) → Prop} (h1 : opsL1.Forall p) (h2 : opsE1.Forall p) (h3 : opsL2.Forall p) (h4 : opsE2.Forall p)
    (h5 : opsL3.Forall p) (h6 : opsE3.Forall p) (h7 : opsL4.Forall p) : ∀ op ∈ (ops : List (HloOp τ sig (Elt F))), p op := by
  intro op h
  simp only [ops, List.mem_append] at h
  rcases h with h | h | h | h | h | h | h
  exacts [List.forall_iff_forall_mem.mp h1 op h, List.forall_iff_forall_mem.mp h2 op h, List.forall_iff_forall_mem.mp h3 op h,
    List.forall_iff_forall_mem.mp h4 op h, List.forall_iff_forall_mem.mp h5 op h, List.forall_iff_forall_mem.mp h6 op h,
    List.forall_iff_forall_mem.mp h7 op h]

theorem ops_sub : (ops : List (HloOp τ sig (Elt F))).Forall fun op => op.bufs ⊆ tcRefs τ sig :=
  List.forall_iff_forall_mem.mpr (forall_ops opsL1_sub opsE1_sub opsL2_sub opsE2_sub opsL3_sub opsE3_sub opsL4_sub)

theorem opsL1_fresh : (opsL1 : List (HloOp τ sig (Elt F))).Forall fun op => op.fresh = ∅ := by
  repeat (first | exact rfl | refine ⟨rfl, ?_⟩)

theorem opsE1_fresh : (opsE1 : List (HloOp τ sig (Elt F))).Forall fun op => op.fresh = ∅ := by
  repeat (first | exact rfl | refine ⟨rfl, ?_⟩)

theorem opsL2_fresh : (opsL2 : List (HloOp τ sig (Elt F))).Forall fun op => op.fresh = ∅ := by
  repeat (first | exact rfl | refine ⟨rfl, ?_⟩)

theorem opsE2_fresh : (opsE2 : List (HloOp τ sig (Elt F))).Forall fun op => op.fresh = ∅ := by
  repeat (first | exact rfl | refine ⟨rfl, ?_⟩)

theorem opsL3_fresh : (opsL3 : List (HloOp τ sig (Elt F))).Forall fun op => op.fresh = ∅ := by
  repeat (first | exact rfl | refine ⟨rfl, ?_⟩)

theorem opsE3_fresh : (opsE3 : List (HloOp τ sig (Elt F))).Forall fun op => op.fresh = ∅ := by
  repeat (first | exact rfl | refine ⟨rfl, ?_⟩)

theorem opsL4_fresh : (opsL4 : List (HloOp τ sig (Elt F))).Forall fun op => op.fresh = ∅ := by
  repeat (first | exact rfl | refine ⟨rfl, ?_⟩)

theorem ops_fresh : ∀ op ∈ (ops : List (HloOp τ sig (Elt F))), op.fresh = ∅ :=
  forall_ops opsL1_fresh opsE1_fresh opsL2_fresh opsE2_fresh opsL3_fresh opsE3_fresh opsL4_fresh

end Cert.ReferenceIdeal.RV

end
-- ==== Proof.RGlue.lean ====
import proofs.«109075_j6828998001340_1_alg».proof.ReferenceIdeal
import proofs.«109075_j6828998001340_1_alg».proof.Proof.Gen.ReferenceIdeal
import Idealize.ShloMosaic.Lib.ValueIdx

noncomputable section

namespace Cert.ReferenceIdeal.RV

open Cert.ReferenceIdeal Cert.ReferenceIdeal.Gen Idealize.ShloMosaic Idealize.ShloMosaic.ValueIdx

abbrev FA (S : Shape) : Type := (⟨S, .f32⟩ : BufTy).Contents (Elt Ideal)

abbrev IA (S : Shape) : Type := (⟨S, .i32⟩ : BufTy).Contents (Elt Ideal)

abbrev r0 {n0 n1 : Nat} (j : (⟨2, ![n0, n1]⟩ : Shape).Idx) : Fin n0 := ⟨(j 0).val, idx2_lt0 j⟩

abbrev c1 {n0 n1 : Nat} (j : (⟨2, ![n0, n1]⟩ : Shape).Idx) : Fin n1 := ⟨(j 1).val, idx2_lt1 j⟩

def src (a1 : IA S2x3200000) : IA S3200000 :=
  shapeCast S3200000 (extractStridedSlice S1x3200000 ![0, 0] a1 slices_S2x3200000_S1x3200000_0_0) shapeCasts_S1x3200000_S3200000

def dst (a1 : IA S2x3200000) : IA S3200000 :=
  shapeCast S3200000 (extractStridedSlice S1x3200000 ![1, 0] a1 slices_S2x3200000_S1x3200000_1_0) shapeCasts_S1x3200000_S3200000

def srcIdx (a1 : IA S2x3200000) : IA S3200000x1 :=
  broadcastInDim S3200000x1 ![0] bcast_S3200000_S3200000x1_0
    (select (cmpi .slt (src a1) (broadcastInDim S3200000 ![] bcast_S_S3200000 (constantI S_ 32 0#32)))
      (addi (src a1) (broadcastInDim S3200000 ![] bcast_S_S3200000 (constantI S_ 32 100000#32))) (src a1))

def dstIdx (a1 : IA S2x3200000) : IA S3200000x1 := broadcastInDim S3200000x1 ![0] bcast_S3200000_S3200000x1_0 (dst a1)

def cnt (a1 : IA S2x3200000) : FA S100000 :=
  Host.scatterAdd (F := Ideal) scatter_S100000_S3200000x1_S3200000_n_0_0_1
    (broadcastInDim S100000 ![] bcast_S_S100000 (constant (F := Ideal) S_ .f32 0x00000000#32)) (dstIdx a1)
    (broadcastInDim S3200000 ![] bcast_S_S3200000 (constant (F := Ideal) S_ .f32 0x3F800000#32))

def mx (a1 : IA S2x3200000) : FA S100000 :=
  maximumf (F := Ideal) (cnt a1) (broadcastInDim S100000 ![] bcast_S_S100000 (constant (F := Ideal) S_ .f32 0x3F800000#32))

def diff (ea : FA S3200000x3) (mu : FA S3x3) : FA S3200000x3x3 :=
  subf (F := Ideal) (φ := .f32)
    (broadcastInDim S3200000x3x3 ![0, 1, 2] bcast_S3200000x1x3_S3200000x3x3_0_1_2
      (broadcastInDim S3200000x1x3 ![0, 2] bcast_S3200000x3_S3200000x1x3_0_2 ea : FA S3200000x1x3) : FA S3200000x3x3)
    (broadcastInDim S3200000x3x3 ![0, 1, 2] bcast_S1x3x3_S3200000x3x3_0_1_2
      (broadcastInDim S1x3x3 ![1, 2] bcast_S3x3_S1x3x3_1_2 mu : FA S1x3x3) : FA S3200000x3x3)

def gaussW (ea : FA S3200000x3) (mu sg : FA S3x3) : FA S3200000x3 :=
  Host.exp (F := Ideal) (mulf (F := Ideal) (broadcastInDim S3200000x3 ![] bcast_S_S3200000x3 (constant (F := Ideal) S_ .f32 0xBF000000#32))
    (Host.reduceAdd (F := Ideal)
      (Host.divf (F := Ideal) (mulf (F := Ideal) (diff ea mu) (diff ea mu))
        (broadcastInDim S3200000x3x3 ![0, 1, 2] bcast_S1x3x3_S3200000x3x3_0_1_2
          (addf (F := Ideal) (broadcastInDim S1x3x3 ![] bcast_S_S1x3x3 (constant (F := Ideal) S_ .f32 0x26901D7D#32))
            (mulf (F := Ideal) (broadcastInDim S1x3x3 ![1, 2] bcast_S3x3_S1x3x3_1_2 sg) (broadcastInDim S1x3x3 ![1, 2] bcast_S3x3_S1x3x3_1_2 sg)))))
      (constant (F := Ideal) S_ .f32 0x00000000#32) reducesTo_S3200000x3x3_S3200000x3_d2 h_S_))

end Cert.ReferenceIdeal.RV

end
-- ==== Proof.RDefs1.lean ====
import proofs.«109075_j6828998001340_1_alg».proof.ReferenceIdeal
import proofs.«109075_j6828998001340_1_alg».proof.Proof.Gen.ReferenceIdeal
import proofs.«109075_j6828998001340_1_alg».proof.Proof.RGlue
import Idealize.ShloMosaic.Lib.ValueIdx

noncomputable section

namespace Cert.ReferenceIdeal.RV.L1

open Cert.ReferenceIdeal Cert.ReferenceIdeal.Gen Cert.ReferenceIdeal.RV Idealize.ShloMosaic Idealize.ShloMosaic.ValueIdx

def msg (xj : FA S3200000x3) (ea : FA S3200000x3) (g : FA S3x24) (mu sg : FA S3x3) : FA S3200000x8 :=
  Host.reduceAdd (F := Ideal)
    (mulf (F := Ideal)
      (shapeCast S3200000x3x8 (Host.dotGeneral (F := Ideal) (φ₁ := .f32) (φ₂ := .f32) dot_S3200000x3_S3x24_S3200000x24_1_0_0_1_n_n none xj g) shapeCasts_S3200000x24_S3200000x3x8)
      (broadcastInDim S3200000x3x8 ![0, 1, 2] bcast_S3200000x3x1_S3200000x3x8_0_1_2
        (broadcastInDim S3200000x3x1 ![0, 1] bcast_S3200000x3_S3200000x3x1_0_1 (gaussW ea mu sg))))
    (constant (F := Ideal) S_ .f32 0x00000000#32) reducesTo_S3200000x3x8_S3200000x8_d1 h_S_

def elu (x : FA S100000x8) : FA S100000x8 :=
  select (cmpf .ogt x (broadcastInDim S100000x8 ![] bcast_S_S100000x8 (constant (F := Ideal) S_ .f32 0x00000000#32))) x
    (mulf (F := Ideal) (broadcastInDim S100000x8 ![] bcast_S_S100000x8 (constant (F := Ideal) S_ .f32 0x3F800000#32))
      (Host.expm1 (F := Ideal)
        (select (cmpf .ogt x (broadcastInDim S100000x8 ![] bcast_S_S100000x8 (constant (F := Ideal) S_ .f32 0x00000000#32)))
          (broadcastInDim S100000x8 ![] bcast_S_S100000x8 (id (constant (F := Ideal) S_ .f32 0x00000000#32))) x)))

def pre (h : FA S100000x3) (aggv : FA S100000x8) (mxv : FA S100000) (root : FA S3x8) (b : FA S8) : FA S100000x8 :=
  addf (F := Ideal)
    (addf (F := Ideal)
      (Host.divf (F := Ideal) aggv
        (broadcastInDim S100000x8 ![0, 1] bcast_S100000x1_S100000x8_0_1 (broadcastInDim S100000x1 ![0] bcast_S100000_S100000x1_0 mxv)))
      (Host.dotGeneral (F := Ideal) (φ₁ := .f32) (φ₂ := .f32) dot_S100000x3_S3x8_S100000x8_1_0_0_1_n_n none h root))
    (broadcastInDim S100000x8 ![0, 1] bcast_S1x8_S100000x8_0_1 (broadcastInDim S1x8 ![1] bcast_S8_S1x8_1 b))

def agg (h : FA S100000x3) (a1 : IA S2x3200000) (ea : FA S3200000x3) (g : FA S3x24) (mu sg : FA S3x3) : FA S100000x8 :=
  Host.scatterAdd (F := Ideal) scatter_S100000x8_S3200000x1_S3200000x8_1_0_0_1
    (broadcastInDim S100000x8 ![] bcast_S_S100000x8 (constant (F := Ideal) S_ .f32 0x00000000#32)) (dstIdx a1)
    (msg (Host.gather gather_S100000x3_S3200000x1_S3200000x3_1_0_n_n_0_1_13 h (srcIdx a1)) ea g mu sg)

def layer (h : FA S100000x3) (a1 : IA S2x3200000) (ea : FA S3200000x3) (g : FA S3x24) (mu sg : FA S3x3) (root : FA S3x8) (b : FA S8) :
    FA S100000x8 :=
  elu (pre h (agg h a1 ea g mu sg) (mx a1) root b)

end Cert.ReferenceIdeal.RV.L1

end
-- ==== Proof.RVal1.lean ====
import proofs.«109075_j6828998001340_1_alg».proof.Proof.ROps
import proofs.«109075_j6828998001340_1_alg».proof.Proof.RDefs1

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

abbrev VI : Type := Valuation τ sig (Elt Ideal)

def val1 (V0 : VI) : VI := after opsL1 V0

set_option maxRecDepth 8192 in
theorem opsL1_writes : (opsL1 : List (HloOp τ sig (Elt Ideal))).Forall fun op => op.writes ⊆ (opsL1_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val1_keep (V0 : VI) (r : Ref sig .tc) (h : r ∉ opsL1_W) : val1 V0 (Proc.devRef .tc r) = V0 (Proc.devRef .tc r) :=
  after_of_writes_sub opsL1 _ opsL1_writes h

set_option maxRecDepth 8192 in
set_option maxHeartbeats 2000000 in
theorem val1_main_v1 (V0 : VI) : val1 V0 (no_index (Proc.devRef .tc main_v1)) = src (V0 (Proc.devRef .tc main_arg1)) := by
  unfold val1
  simp only [opsL1]
  after_results_simp
  rfl

set_option maxRecDepth 8192 in
set_option maxHeartbeats 2000000 in
theorem val1_main_v3 (V0 : VI) : val1 V0 (no_index (Proc.devRef .tc main_v3)) = dst (V0 (Proc.devRef .tc main_arg1)) := by
  unfold val1
  simp only [opsL1]
  after_results_simp
  rfl

def pre1 (V0 : VI) : FA S100000x8 :=
  L1.pre (V0 (Proc.devRef .tc main_arg0))
    (L1.agg (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)))
    (mx (V0 (Proc.devRef .tc main_arg1))) (V0 (Proc.devRef .tc main_arg6)) (V0 (Proc.devRef .tc main_arg7))

def out1 (V0 : VI) : FA S100000x8 :=
  L1.layer (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))

theorem out1_eq (V0 : VI) : out1 V0 = L1.elu (pre1 V0) := rfl

set_option maxRecDepth 8192 in
set_option maxHeartbeats 2000000 in
theorem val1_main_v49 (V0 : VI) : val1 V0 (no_index (Proc.devRef .tc main_v49)) = pre1 V0 := by
  unfold val1
  simp only [opsL1]
  after_results_simp
  simp only [pre1, L1.pre, L1.agg, L1.msg, gaussW, diff, mx, cnt, dstIdx, srcIdx, src, dst]
  rfl

def val2 (V0 : VI) : VI := after opsE1 (val1 V0)

set_option maxRecDepth 8192 in
theorem opsE1_writes : (opsE1 : List (HloOp τ sig (Elt Ideal))).Forall fun op => op.writes ⊆ (opsE1_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val2_keep (V0 : VI) (r : Ref sig .tc) (h : r ∉ opsE1_W) : val2 V0 (Proc.devRef .tc r) = val1 V0 (Proc.devRef .tc r) :=
  after_of_writes_sub opsE1 _ opsE1_writes h

theorem val2_arg (V0 : VI) (r : Ref sig .tc) (h : r ∉ opsL1_W ++ opsE1_W) : val2 V0 (Proc.devRef .tc r) = V0 (Proc.devRef .tc r) := by
  rw [List.mem_append, not_or] at h
  exact (val2_keep V0 r h.2).trans (val1_keep V0 r h.1)

theorem val2_main_v1 (V0 : VI) : val2 V0 (no_index (Proc.devRef .tc main_v1)) = src (V0 (Proc.devRef .tc main_arg1)) :=
  (val2_keep V0 main_v1 (by decide)).trans (val1_main_v1 V0)

theorem val2_main_v3 (V0 : VI) : val2 V0 (no_index (Proc.devRef .tc main_v3)) = dst (V0 (Proc.devRef .tc main_arg1)) :=
  (val2_keep V0 main_v3 (by decide)).trans (val1_main_v3 V0)

set_option maxRecDepth 8192 in
set_option maxHeartbeats 2000000 in
theorem val2_main_v50 (V0 : VI) : val2 V0 (no_index (Proc.devRef .tc main_v50)) = out1 V0 := by
  unfold val2
  simp only [opsE1]
  after_results_simp
  simp only [val1_main_v49, out1_eq, L1.elu, TRef.toBuf, TRef.ofBuf, cast_eq]

end Cert.ReferenceIdeal.RV

end
-- ==== Proof.RDefs2.lean ====
import proofs.«109075_j6828998001340_1_alg».proof.ReferenceIdeal
import proofs.«109075_j6828998001340_1_alg».proof.Proof.Gen.ReferenceIdeal
import proofs.«109075_j6828998001340_1_alg».proof.Proof.RGlue
import Idealize.ShloMosaic.Lib.ValueIdx

noncomputable section

namespace Cert.ReferenceIdeal.RV.L2

open Cert.ReferenceIdeal Cert.ReferenceIdeal.Gen Cert.ReferenceIdeal.RV Idealize.ShloMosaic Idealize.ShloMosaic.ValueIdx

def msg (xj : FA S3200000x8) (ea : FA S3200000x3) (g : FA S8x48) (mu sg : FA S3x3) : FA S3200000x16 :=
  Host.reduceAdd (F := Ideal)
    (mulf (F := Ideal)
      (shapeCast S3200000x3x16 (Host.dotGeneral (F := Ideal) (φ₁ := .f32) (φ₂ := .f32) dot_S3200000x8_S8x48_S3200000x48_1_0_0_1_n_n none xj g) shapeCasts_S3200000x48_S3200000x3x16)
      (broadcastInDim S3200000x3x16 ![0, 1, 2] bcast_S3200000x3x1_S3200000x3x16_0_1_2
        (broadcastInDim S3200000x3x1 ![0, 1] bcast_S3200000x3_S3200000x3x1_0_1 (gaussW ea mu sg))))
    (constant (F := Ideal) S_ .f32 0x00000000#32) reducesTo_S3200000x3x16_S3200000x16_d1 h_S_

def elu (x : FA S100000x16) : FA S100000x16 :=
  select (cmpf .ogt x (broadcastInDim S100000x16 ![] bcast_S_S100000x16 (constant (F := Ideal) S_ .f32 0x00000000#32))) x
    (mulf (F := Ideal) (broadcastInDim S100000x16 ![] bcast_S_S100000x16 (constant (F := Ideal) S_ .f32 0x3F800000#32))
      (Host.expm1 (F := Ideal)
        (select (cmpf .ogt x (broadcastInDim S100000x16 ![] bcast_S_S100000x16 (constant (F := Ideal) S_ .f32 0x00000000#32)))
          (broadcastInDim S100000x16 ![] bcast_S_S100000x16 (id (constant (F := Ideal) S_ .f32 0x00000000#32))) x)))

def pre (h : FA S100000x8) (aggv : FA S100000x16) (mxv : FA S100000) (root : FA S8x16) (b : FA S16) : FA S100000x16 :=
  addf (F := Ideal)
    (addf (F := Ideal)
      (Host.divf (F := Ideal) aggv
        (broadcastInDim S100000x16 ![0, 1] bcast_S100000x1_S100000x16_0_1 (broadcastInDim S100000x1 ![0] bcast_S100000_S100000x1_0 mxv)))
      (Host.dotGeneral (F := Ideal) (φ₁ := .f32) (φ₂ := .f32) dot_S100000x8_S8x16_S100000x16_1_0_0_1_n_n none h root))
    (broadcastInDim S100000x16 ![0, 1] bcast_S1x16_S100000x16_0_1 (broadcastInDim S1x16 ![1] bcast_S16_S1x16_1 b))

def agg (h : FA S100000x8) (a1 : IA S2x3200000) (ea : FA S3200000x3) (g : FA S8x48) (mu sg : FA S3x3) : FA S100000x16 :=
  Host.scatterAdd (F := Ideal) scatter_S100000x16_S3200000x1_S3200000x16_1_0_0_1
    (broadcastInDim S100000x16 ![] bcast_S_S100000x16 (constant (F := Ideal) S_ .f32 0x00000000#32)) (dstIdx a1)
    (msg (Host.gather gather_S100000x8_S3200000x1_S3200000x8_1_0_n_n_0_1_18 h (srcIdx a1)) ea g mu sg)

def layer (h : FA S100000x8) (a1 : IA S2x3200000) (ea : FA S3200000x3) (g : FA S8x48) (mu sg : FA S3x3) (root : FA S8x16) (b : FA S16) :
    FA S100000x16 :=
  elu (pre h (agg h a1 ea g mu sg) (mx a1) root b)

end Cert.ReferenceIdeal.RV.L2

end
-- ==== Proof.RVal2.lean ====
import proofs.«109075_j6828998001340_1_alg».proof.Proof.RVal1
import proofs.«109075_j6828998001340_1_alg».proof.Proof.RDefs2

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

def val3 (V0 : VI) : VI := after opsL2 (val2 V0)

set_option maxRecDepth 8192 in
theorem opsL2_writes : (opsL2 : List (HloOp τ sig (Elt Ideal))).Forall fun op => op.writes ⊆ (opsL2_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val3_keep (V0 : VI) (r : Ref sig .tc) (h : r ∉ opsL2_W) : val3 V0 (Proc.devRef .tc r) = val2 V0 (Proc.devRef .tc r) :=
  after_of_writes_sub opsL2 _ opsL2_writes h

def pre2 (V0 : VI) : FA S100000x16 :=
  L2.pre (out1 V0)
    (L2.agg (out1 V0) (V0 (Proc.devRef .tc main_arg1)) (V0 (Proc.devRef .tc main_arg2)) (V0 (Proc.devRef .tc main_arg8))
      (V0 (Proc.devRef .tc main_arg9)) (V0 (Proc.devRef .tc main_arg10)))
    (mx (V0 (Proc.devRef .tc main_arg1))) (V0 (Proc.devRef .tc main_arg11)) (V0 (Proc.devRef .tc main_arg12))

def out2 (V0 : VI) : FA S100000x16 :=
  L2.layer (out1 V0) (V0 (Proc.devRef .tc main_arg1)) (V0 (Proc.devRef .tc main_arg2)) (V0 (Proc.devRef .tc main_arg8))
    (V0 (Proc.devRef .tc main_arg9)) (V0 (Proc.devRef .tc main_arg10)) (V0 (Proc.devRef .tc main_arg11)) (V0 (Proc.devRef .tc main_arg12))

theorem out2_eq (V0 : VI) : out2 V0 = L2.elu (pre2 V0) := rfl

set_option maxRecDepth 8192 in
set_option maxHeartbeats 2000000 in
theorem val3_main_v96 (V0 : VI) : val3 V0 (no_index (Proc.devRef .tc main_v96)) = pre2 V0 := by
  unfold val3
  simp only [opsL2]
  after_results_simp
  simp only [val2_main_v1, val2_main_v3, val2_main_v50, val2_arg V0 main_arg2 (by decide), val2_arg V0 main_arg8 (by decide),
    val2_arg V0 main_arg9 (by decide), val2_arg V0 main_arg10 (by decide), val2_arg V0 main_arg11 (by decide),
    val2_arg V0 main_arg12 (by decide)]
  simp only [pre2, L2.pre, L2.agg, L2.msg, gaussW, diff, mx, cnt, dstIdx, srcIdx]
  rfl

def val4 (V0 : VI) : VI := after opsE2 (val3 V0)

set_option maxRecDepth 8192 in
theorem opsE2_writes : (opsE2 : List (HloOp τ sig (Elt Ideal))).Forall fun op => op.writes ⊆ (opsE2_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val4_keep (V0 : VI) (r : Ref sig .tc) (h : r ∉ opsE2_W) : val4 V0 (Proc.devRef .tc r) = val3 V0 (Proc.devRef .tc r) :=
  after_of_writes_sub opsE2 _ opsE2_writes h

theorem val4_arg (V0 : VI) (r : Ref sig .tc) (h : r ∉ (opsL1_W ++ opsE1_W) ++ (opsL2_W ++ opsE2_W)) :
    val4 V0 (Proc.devRef .tc r) = V0 (Proc.devRef .tc r) := by
  rw [List.mem_append, not_or, List.mem_append (s := opsL2_W), not_or] at h
  exact (val4_keep V0 r h.2.2).trans ((val3_keep V0 r h.2.1).trans (val2_arg V0 r h.1))

theorem val4_main_v1 (V0 : VI) : val4 V0 (no_index (Proc.devRef .tc main_v1)) = src (V0 (Proc.devRef .tc main_arg1)) :=
  (val4_keep V0 main_v1 (by decide)).trans ((val3_keep V0 main_v1 (by decide)).trans (val2_main_v1 V0))

theorem val4_main_v3 (V0 : VI) : val4 V0 (no_index (Proc.devRef .tc main_v3)) = dst (V0 (Proc.devRef .tc main_arg1)) :=
  (val4_keep V0 main_v3 (by decide)).trans ((val3_keep V0 main_v3 (by decide)).trans (val2_main_v3 V0))

set_option maxRecDepth 8192 in
set_option maxHeartbeats 2000000 in
theorem val4_main_v97 (V0 : VI) : val4 V0 (no_index (Proc.devRef .tc main_v97)) = out2 V0 := by
  unfold val4
  simp only [opsE2]
  after_results_simp
  simp only [val3_main_v96, out2_eq, L2.elu, TRef.toBuf, TRef.ofBuf, cast_eq]

end Cert.ReferenceIdeal.RV

end
-- ==== Proof.RDefs3.lean ====
import proofs.«109075_j6828998001340_1_alg».proof.ReferenceIdeal
import proofs.«109075_j6828998001340_1_alg».proof.Proof.Gen.ReferenceIdeal
import proofs.«109075_j6828998001340_1_alg».proof.Proof.RGlue
import Idealize.ShloMosaic.Lib.ValueIdx

noncomputable section

namespace Cert.ReferenceIdeal.RV.L3

open Cert.ReferenceIdeal Cert.ReferenceIdeal.Gen Cert.ReferenceIdeal.RV Idealize.ShloMosaic Idealize.ShloMosaic.ValueIdx

def msg (xj : FA S3200000x16) (ea : FA S3200000x3) (g : FA S16x24) (mu sg : FA S3x3) : FA S3200000x8 :=
  Host.reduceAdd (F := Ideal)
    (mulf (F := Ideal)
      (shapeCast S3200000x3x8 (Host.dotGeneral (F := Ideal) (φ₁ := .f32) (φ₂ := .f32) dot_S3200000x16_S16x24_S3200000x24_1_0_0_1_n_n none xj g) shapeCasts_S3200000x24_S3200000x3x8)
      (broadcastInDim S3200000x3x8 ![0, 1, 2] bcast_S3200000x3x1_S3200000x3x8_0_1_2
        (broadcastInDim S3200000x3x1 ![0, 1] bcast_S3200000x3_S3200000x3x1_0_1 (gaussW ea mu sg))))
    (constant (F := Ideal) S_ .f32 0x00000000#32) reducesTo_S3200000x3x8_S3200000x8_d1 h_S_

def elu (x : FA S100000x8) : FA S100000x8 :=
  select (cmpf .ogt x (broadcastInDim S100000x8 ![] bcast_S_S100000x8 (constant (F := Ideal) S_ .f32 0x00000000#32))) x
    (mulf (F := Ideal) (broadcastInDim S100000x8 ![] bcast_S_S100000x8 (constant (F := Ideal) S_ .f32 0x3F800000#32))
      (Host.expm1 (F := Ideal)
        (select (cmpf .ogt x (broadcastInDim S100000x8 ![] bcast_S_S100000x8 (constant (F := Ideal) S_ .f32 0x00000000#32)))
          (broadcastInDim S100000x8 ![] bcast_S_S100000x8 (id (constant (F := Ideal) S_ .f32 0x00000000#32))) x)))

def pre (h : FA S100000x16) (aggv : FA S100000x8) (mxv : FA S100000) (root : FA S16x8) (b : FA S8) : FA S100000x8 :=
  addf (F := Ideal)
    (addf (F := Ideal)
      (Host.divf (F := Ideal) aggv
        (broadcastInDim S100000x8 ![0, 1] bcast_S100000x1_S100000x8_0_1 (broadcastInDim S100000x1 ![0] bcast_S100000_S100000x1_0 mxv)))
      (Host.dotGeneral (F := Ideal) (φ₁ := .f32) (φ₂ := .f32) dot_S100000x16_S16x8_S100000x8_1_0_0_1_n_n none h root))
    (broadcastInDim S100000x8 ![0, 1] bcast_S1x8_S100000x8_0_1 (broadcastInDim S1x8 ![1] bcast_S8_S1x8_1 b))

def agg (h : FA S100000x16) (a1 : IA S2x3200000) (ea : FA S3200000x3) (g : FA S16x24) (mu sg : FA S3x3) : FA S100000x8 :=
  Host.scatterAdd (F := Ideal) scatter_S100000x8_S3200000x1_S3200000x8_1_0_0_1
    (broadcastInDim S100000x8 ![] bcast_S_S100000x8 (constant (F := Ideal) S_ .f32 0x00000000#32)) (dstIdx a1)
    (msg (Host.gather gather_S100000x16_S3200000x1_S3200000x16_1_0_n_n_0_1_116 h (srcIdx a1)) ea g mu sg)

def layer (h : FA S100000x16) (a1 : IA S2x3200000) (ea : FA S3200000x3) (g : FA S16x24) (mu sg : FA S3x3) (root : FA S16x8) (b : FA S8) :
    FA S100000x8 :=
  elu (pre h (agg h a1 ea g mu sg) (mx a1) root b)

end Cert.ReferenceIdeal.RV.L3

end
-- ==== Proof.RVal3.lean ====
import proofs.«109075_j6828998001340_1_alg».proof.Proof.RVal2
import proofs.«109075_j6828998001340_1_alg».proof.Proof.RDefs3

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

def val5 (V0 : VI) : VI := after opsL3 (val4 V0)

set_option maxRecDepth 8192 in
theorem opsL3_writes : (opsL3 : List (HloOp τ sig (Elt Ideal))).Forall fun op => op.writes ⊆ (opsL3_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val5_keep (V0 : VI) (r : Ref sig .tc) (h : r ∉ opsL3_W) : val5 V0 (Proc.devRef .tc r) = val4 V0 (Proc.devRef .tc r) :=
  after_of_writes_sub opsL3 _ opsL3_writes h

def pre3 (V0 : VI) : FA S100000x8 :=
  L3.pre (out2 V0)
    (L3.agg (out2 V0) (V0 (Proc.devRef .tc main_arg1)) (V0 (Proc.devRef .tc main_arg2)) (V0 (Proc.devRef .tc main_arg13))
      (V0 (Proc.devRef .tc main_arg14)) (V0 (Proc.devRef .tc main_arg15)))
    (mx (V0 (Proc.devRef .tc main_arg1))) (V0 (Proc.devRef .tc main_arg16)) (V0 (Proc.devRef .tc main_arg17))

def out3 (V0 : VI) : FA S100000x8 :=
  L3.layer (out2 V0) (V0 (Proc.devRef .tc main_arg1)) (V0 (Proc.devRef .tc main_arg2)) (V0 (Proc.devRef .tc main_arg13))
    (V0 (Proc.devRef .tc main_arg14)) (V0 (Proc.devRef .tc main_arg15)) (V0 (Proc.devRef .tc main_arg16)) (V0 (Proc.devRef .tc main_arg17))

theorem out3_eq (V0 : VI) : out3 V0 = L3.elu (pre3 V0) := rfl

set_option maxRecDepth 8192 in
set_option maxHeartbeats 2000000 in
theorem val5_main_v143 (V0 : VI) : val5 V0 (no_index (Proc.devRef .tc main_v143)) = pre3 V0 := by
  unfold val5
  simp only [opsL3]
  after_results_simp
  simp only [val4_main_v1, val4_main_v3, val4_main_v97, val4_arg V0 main_arg2 (by decide), val4_arg V0 main_arg13 (by decide),
    val4_arg V0 main_arg14 (by decide), val4_arg V0 main_arg15 (by decide), val4_arg V0 main_arg16 (by decide),
    val4_arg V0 main_arg17 (by decide)]
  simp only [pre3, L3.pre, L3.agg, L3.msg, gaussW, diff, mx, cnt, dstIdx, srcIdx]
  rfl

def val6 (V0 : VI) : VI := after opsE3 (val5 V0)

set_option maxRecDepth 8192 in
theorem opsE3_writes : (opsE3 : List (HloOp τ sig (Elt Ideal))).Forall fun op => op.writes ⊆ (opsE3_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val6_keep (V0 : VI) (r : Ref sig .tc) (h : r ∉ opsE3_W) : val6 V0 (Proc.devRef .tc r) = val5 V0 (Proc.devRef .tc r) :=
  after_of_writes_sub opsE3 _ opsE3_writes h

theorem val6_arg (V0 : VI) (r : Ref sig .tc) (h : r ∉ ((opsL1_W ++ opsE1_W) ++ (opsL2_W ++ opsE2_W)) ++ (opsL3_W ++ opsE3_W)) :
    val6 V0 (Proc.devRef .tc r) = V0 (Proc.devRef .tc r) := by
  rw [List.mem_append, not_or, List.mem_append (s := opsL3_W), not_or] at h
  exact (val6_keep V0 r h.2.2).trans ((val5_keep V0 r h.2.1).trans (val4_arg V0 r h.1))

theorem val6_main_v1 (V0 : VI) : val6 V0 (no_index (Proc.devRef .tc main_v1)) = src (V0 (Proc.devRef .tc main_arg1)) :=
  (val6_keep V0 main_v1 (by decide)).trans ((val5_keep V0 main_v1 (by decide)).trans (val4_main_v1 V0))

theorem val6_main_v3 (V0 : VI) : val6 V0 (no_index (Proc.devRef .tc main_v3)) = dst (V0 (Proc.devRef .tc main_arg1)) :=
  (val6_keep V0 main_v3 (by decide)).trans ((val5_keep V0 main_v3 (by decide)).trans (val4_main_v3 V0))

set_option maxRecDepth 8192 in
set_option maxHeartbeats 2000000 in
theorem val6_main_v144 (V0 : VI) : val6 V0 (no_index (Proc.devRef .tc main_v144)) = out3 V0 := by
  unfold val6
  simp only [opsE3]
  after_results_simp
  simp only [val5_main_v143, out3_eq, L3.elu, TRef.toBuf, TRef.ofBuf, cast_eq]

end Cert.ReferenceIdeal.RV

end
-- ==== Proof.RDefs4.lean ====
import proofs.«109075_j6828998001340_1_alg».proof.ReferenceIdeal
import proofs.«109075_j6828998001340_1_alg».proof.Proof.Gen.ReferenceIdeal
import proofs.«109075_j6828998001340_1_alg».proof.Proof.RGlue
import Idealize.ShloMosaic.Lib.ValueIdx

noncomputable section

namespace Cert.ReferenceIdeal.RV.L4

open Cert.ReferenceIdeal Cert.ReferenceIdeal.Gen Cert.ReferenceIdeal.RV Idealize.ShloMosaic Idealize.ShloMosaic.ValueIdx

def msg (xj : FA S3200000x8) (ea : FA S3200000x3) (g : FA S8x12) (mu sg : FA S3x3) : FA S3200000x4 :=
  Host.reduceAdd (F := Ideal)
    (mulf (F := Ideal)
      (shapeCast S3200000x3x4 (Host.dotGeneral (F := Ideal) (φ₁ := .f32) (φ₂ := .f32) dot_S3200000x8_S8x12_S3200000x12_1_0_0_1_n_n none xj g) shapeCasts_S3200000x12_S3200000x3x4)
      (broadcastInDim S3200000x3x4 ![0, 1, 2] bcast_S3200000x3x1_S3200000x3x4_0_1_2
        (broadcastInDim S3200000x3x1 ![0, 1] bcast_S3200000x3_S3200000x3x1_0_1 (gaussW ea mu sg))))
    (constant (F := Ideal) S_ .f32 0x00000000#32) reducesTo_S3200000x3x4_S3200000x4_d1 h_S_

def pre (h : FA S100000x8) (aggv : FA S100000x4) (mxv : FA S100000) (root : FA S8x4) (b : FA S4) : FA S100000x4 :=
  addf (F := Ideal)
    (addf (F := Ideal)
      (Host.divf (F := Ideal) aggv
        (broadcastInDim S100000x4 ![0, 1] bcast_S100000x1_S100000x4_0_1 (broadcastInDim S100000x1 ![0] bcast_S100000_S100000x1_0 mxv)))
      (Host.dotGeneral (F := Ideal) (φ₁ := .f32) (φ₂ := .f32) dot_S100000x8_S8x4_S100000x4_1_0_0_1_n_n none h root))
    (broadcastInDim S100000x4 ![0, 1] bcast_S1x4_S100000x4_0_1 (broadcastInDim S1x4 ![1] bcast_S4_S1x4_1 b))

def agg (h : FA S100000x8) (a1 : IA S2x3200000) (ea : FA S3200000x3) (g : FA S8x12) (mu sg : FA S3x3) : FA S100000x4 :=
  Host.scatterAdd (F := Ideal) scatter_S100000x4_S3200000x1_S3200000x4_1_0_0_1
    (broadcastInDim S100000x4 ![] bcast_S_S100000x4 (constant (F := Ideal) S_ .f32 0x00000000#32)) (dstIdx a1)
    (msg (Host.gather gather_S100000x8_S3200000x1_S3200000x8_1_0_n_n_0_1_18 h (srcIdx a1)) ea g mu sg)

def layer (h : FA S100000x8) (a1 : IA S2x3200000) (ea : FA S3200000x3) (g : FA S8x12) (mu sg : FA S3x3) (root : FA S8x4) (b : FA S4) :
    FA S100000x4 :=
  pre h (agg h a1 ea g mu sg) (mx a1) root b

end Cert.ReferenceIdeal.RV.L4

end
-- ==== Proof.RVal4.lean ====
import proofs.«109075_j6828998001340_1_alg».proof.Proof.RVal3
import proofs.«109075_j6828998001340_1_alg».proof.Proof.RDefs4

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

def val7 (V0 : VI) : VI := after opsL4 (val6 V0)

set_option maxRecDepth 8192 in
theorem opsL4_writes : (opsL4 : List (HloOp τ sig (Elt Ideal))).Forall fun op => op.writes ⊆ (opsL4_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem val7_keep (V0 : VI) (r : Ref sig .tc) (h : r ∉ opsL4_W) : val7 V0 (Proc.devRef .tc r) = val6 V0 (Proc.devRef .tc r) :=
  after_of_writes_sub opsL4 _ opsL4_writes h

theorem val7_arg (V0 : VI) (r : Ref sig .tc)
    (h : r ∉ (((opsL1_W ++ opsE1_W) ++ (opsL2_W ++ opsE2_W)) ++ (opsL3_W ++ opsE3_W)) ++ opsL4_W) :
    val7 V0 (Proc.devRef .tc r) = V0 (Proc.devRef .tc r) := by
  rw [List.mem_append, not_or] at h
  exact (val7_keep V0 r h.2).trans (val6_arg V0 r h.1)

def out4 (V0 : VI) : FA S100000x4 :=
  L4.layer (out3 V0) (V0 (Proc.devRef .tc main_arg1)) (V0 (Proc.devRef .tc main_arg2)) (V0 (Proc.devRef .tc main_arg18))
    (V0 (Proc.devRef .tc main_arg19)) (V0 (Proc.devRef .tc main_arg20)) (V0 (Proc.devRef .tc main_arg21)) (V0 (Proc.devRef .tc main_arg22))

set_option maxRecDepth 8192 in
set_option maxHeartbeats 2000000 in
theorem val7_main_v190 (V0 : VI) : val7 V0 (no_index (Proc.devRef .tc main_v190)) = out4 V0 := by
  unfold val7
  simp only [opsL4]
  after_results_simp
  simp only [val6_main_v1, val6_main_v3, val6_main_v144, val6_arg V0 main_arg2 (by decide), val6_arg V0 main_arg18 (by decide),
    val6_arg V0 main_arg19 (by decide), val6_arg V0 main_arg20 (by decide), val6_arg V0 main_arg21 (by decide),
    val6_arg V0 main_arg22 (by decide)]
  simp only [out4, L4.layer, L4.pre, L4.agg, L4.msg, gaussW, diff, mx, cnt, dstIdx, srcIdx]
  rfl

end Cert.ReferenceIdeal.RV

end
-- ==== Proof.RRun.lean ====
import proofs.«109075_j6828998001340_1_alg».proof.Proof.RSeq
import proofs.«109075_j6828998001340_1_alg».proof.Proof.RVal4
import Idealize.ShloMosaic.Lib.Pipeline.Frame

set_option Elab.async false

noncomputable section

namespace Cert.ReferenceIdeal.RV

open Cert.ReferenceIdeal Cert.ReferenceIdeal.Gen Idealize.ShloMosaic Idealize.ShloMosaic.TcCoe Idealize.SL.Sem Idealize.ShloMosaic.StableHlo

theorem after_ops (V0 : VI) : after ops V0 = val7 V0 := by
  simp only [ops, after_append]
  rfl

theorem out4_eq (V0 : VI) :
    out4 V0 = L4.layer (L3.layer (L2.layer (L1.layer (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) (V0 (Proc.devRef .tc main_arg6)) (V0 (Proc.devRef .tc main_arg7)))
        (V0 (Proc.devRef .tc main_arg1)) (V0 (Proc.devRef .tc main_arg2)) (V0 (Proc.devRef .tc main_arg8)) (V0 (Proc.devRef .tc main_arg9))
        (V0 (Proc.devRef .tc main_arg10)) (V0 (Proc.devRef .tc main_arg11)) (V0 (Proc.devRef .tc main_arg12)))
        (V0 (Proc.devRef .tc main_arg1)) (V0 (Proc.devRef .tc main_arg2)) (V0 (Proc.devRef .tc main_arg13)) (V0 (Proc.devRef .tc main_arg14))
        (V0 (Proc.devRef .tc main_arg15)) (V0 (Proc.devRef .tc main_arg16)) (V0 (Proc.devRef .tc main_arg17)))
        (V0 (Proc.devRef .tc main_arg1)) (V0 (Proc.devRef .tc main_arg2)) (V0 (Proc.devRef .tc main_arg18)) (V0 (Proc.devRef .tc main_arg19))
        (V0 (Proc.devRef .tc main_arg20)) (V0 (Proc.devRef .tc main_arg21)) (V0 (Proc.devRef .tc main_arg22)) := rfl

theorem after_ops_arg (V0 : VI) (r : Ref sig .tc)
    (h : r ∉ (((opsL1_W ++ opsE1_W) ++ (opsL2_W ++ opsE2_W)) ++ (opsL3_W ++ opsE3_W)) ++ opsL4_W) :
    after ops V0 (Proc.devRef .tc r) = V0 (Proc.devRef .tc r) := by
  rw [after_ops]; exact val7_arg V0 r h

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v190)
        = L4.layer (L3.layer (L2.layer (L1.layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
            (m ((c.tc : Thread nD τ).loc main_arg1)) (m ((c.tc : Thread nD τ).loc main_arg2)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)))
            (m ((c.tc : Thread nD τ).loc main_arg1)) (m ((c.tc : Thread nD τ).loc main_arg2)) (m ((c.tc : Thread nD τ).loc main_arg13)) (m ((c.tc : Thread nD τ).loc main_arg14))
            (m ((c.tc : Thread nD τ).loc main_arg15)) (m ((c.tc : Thread nD τ).loc main_arg16)) (m ((c.tc : Thread nD τ).loc main_arg17)))
            (m ((c.tc : Thread nD τ).loc main_arg1)) (m ((c.tc : Thread nD τ).loc main_arg2)) (m ((c.tc : Thread nD τ).loc main_arg18)) (m ((c.tc : Thread nD τ).loc main_arg19))
            (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
    ⟨(h c main_v190).trans ((congrFun (after_ops (launchContents m c)) _).trans ((val7_main_v190 (launchContents m c)).trans (out4_eq (launchContents m c)))),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide)),
      (h c main_arg8).trans (after_ops_arg (launchContents m c) main_arg8 (by decide)),
      (h c main_arg9).trans (after_ops_arg (launchContents m c) main_arg9 (by decide)),
      (h c main_arg10).trans (after_ops_arg (launchContents m c) main_arg10 (by decide)),
      (h c main_arg11).trans (after_ops_arg (launchContents m c) main_arg11 (by decide)),
      (h c main_arg12).trans (after_ops_arg (launchContents m c) main_arg12 (by decide)),
      (h c main_arg13).trans (after_ops_arg (launchContents m c) main_arg13 (by decide)),
      (h c main_arg14).trans (after_ops_arg (launchContents m c) main_arg14 (by decide)),
      (h c main_arg15).trans (after_ops_arg (launchContents m c) main_arg15 (by decide)),
      (h c main_arg16).trans (after_ops_arg (launchContents m c) main_arg16 (by decide)),
      (h c main_arg17).trans (after_ops_arg (launchContents m c) main_arg17 (by decide)),
      (h c main_arg18).trans (after_ops_arg (launchContents m c) main_arg18 (by decide)),
      (h c main_arg19).trans (after_ops_arg (launchContents m c) main_arg19 (by decide)),
      (h c main_arg20).trans (after_ops_arg (launchContents m c) main_arg20 (by decide)),
      (h c main_arg21).trans (after_ops_arg (launchContents m c) main_arg21 (by decide)),
      (h c main_arg22).trans (after_ops_arg (launchContents m c) main_arg22 (by decide))⟩)
    (run_seq scopedRefs_eq scopedSems_eq defs main (fun _ => ops) main_eq (fun _ => ops_sub) m ρ (fun _ => ops_fresh))

end Cert.ReferenceIdeal.RV

end
-- ==== Proof.KRead1.lean ====
import proofs.«109075_j6828998001340_1_alg».proof.Proof.KDefs1
import proofs.«109075_j6828998001340_1_alg».proof.Proof.Spec
import proofs.«109075_j6828998001340_1_alg».proof.Proof.KLib

noncomputable section

namespace Cert.KernelIdeal.KV.L1

open Cert.KernelIdeal Cert.KernelIdeal.Gen Cert.KernelIdeal.KV Idealize.ShloMosaic Idealize.ShloMosaic.ValueIdx

theorem msg_apply (h : FA S100000x3) (a1 : IA S2x3200000) (ea : FA S3200000x3) (g : FA S3x24) (mu sg : FA S3x3)
    (e : Fin 3200000) (o : Fin 8) :
    msg h a1 ea g mu sg (ix2 e o) =
      Cert.GMM.edgeMsg (by decide)
        (fun d => (Host.gather gather_S100000x3_S3200000x1_S3200000x3_1_0_n_n_0_1_13 h (srcIdx a1)) (ix2 e d))
        (fun d => ea (ix2 e d)) (fun a b => g (ix2 a b)) (fun a b => mu (ix2 a b)) (fun a b => sg (ix2 a b)) o := by
  unfold msg
  rw [sliceRows_apply _ _ e o (by omega)]
  unfold EdgeG
  have hx : ∀ d : Fin 3, xjPad h a1 (ix2 (⟨e.val, by omega⟩ : Fin 3203072) d)
      = (Host.gather gather_S100000x3_S3200000x1_S3200000x3_1_0_n_n_0_1_13 h (srcIdx a1)) (ix2 e d) := fun d => by
    unfold xjPad
    exact padRows_apply _ _ _ _ e d _ rfl
  have ha : ∀ d : Fin 3, eaPad ea (ix2 (⟨e.val, by omega⟩ : Fin 3203072) d) = ea (ix2 e d) := fun d => by
    unfold eaPad
    exact padRows_apply _ _ _ _ e d _ rfl
  show Cert.GMM.edgeMsg (by decide) (fun d => xjPad h a1 (ix2 (⟨e.val, by omega⟩ : Fin 3203072) d))
      (fun d => eaPad ea (ix2 (⟨e.val, by omega⟩ : Fin 3203072) d)) _ _ _ o = _
  simp only [hx, ha]

theorem layer_apply (h : FA S100000x3) (a1 : IA S2x3200000) (ea : FA S3200000x3) (g : FA S3x24) (mu sg : FA S3x3)
    (root : FA S3x8) (b : FA S8) (n : Fin 100000) (o : Fin 8) :
    layer h a1 ea g mu sg root b (ix2 n o) =
      Cert.GMM.nodeK Cert.GMM.elu (fun d => h (ix2 n d)) (fun a b' => root (ix2 a b')) (fun o' => b (ix1 o'))
        (agg h a1 ea g mu sg (ix2 n o)) (Ideal.div 1 (mx a1 (ix1 n))) o := by
  unfold layer
  rw [sliceRows_apply _ _ n o (by omega)]
  unfold NodeG
  have hh : ∀ d : Fin 3,
      hPad h (ix2 (⟨n.val, by omega⟩ : Fin 102400) d) = h (ix2 n d) := fun d => padRows_apply _ _ _ _ n d _ rfl
  have hb : ∀ o' : Fin 8, shapeCast S1x8 b shapeCasts_S8_S1x8 (ix2 (0 : Fin 1) o') = b (ix1 o') := fun o' =>
    shapeCast_a_1a_apply b _ 0 o'
  have hagg : aggPad (agg h a1 ea g mu sg) (ix2 (⟨n.val, by omega⟩ : Fin 102400) o) = agg h a1 ea g mu sg (ix2 n o) := padRows_apply _ _ _ _ n o _ rfl
  have hc : cPad (cinv a1) (ix2 (⟨n.val, by omega⟩ : Fin 102400) (0 : Fin 1)) = Ideal.div 1 (mx a1 (ix1 n)) :=
    (padRows_apply _ _ _ _ n (0 : Fin 1) (⟨n.val, by omega⟩ : Fin 102400) rfl).trans (cinv_apply a1 n 0)
  show Cert.GMM.nodeK Cert.GMM.elu
      (fun d => hPad h (ix2 (⟨n.val, by omega⟩ : Fin 102400) d))
      _ (fun o' => shapeCast S1x8 b shapeCasts_S8_S1x8 (ix2 (0 : Fin 1) o'))
      (aggPad (agg h a1 ea g mu sg) (ix2 (⟨n.val, by omega⟩ : Fin 102400) o))
      (cPad (cinv a1) (ix2 (⟨n.val, by omega⟩ : Fin 102400) (0 : Fin 1))) o = _
  rw [hagg, hc]
  simp only [hh, hb]

end Cert.KernelIdeal.KV.L1

end
-- ==== Proof.RLib.lean ====
import proofs.«109075_j6828998001340_1_alg».proof.Proof.RGlue
import proofs.«109075_j6828998001340_1_alg».proof.Proof.Spec
import Idealize.ShloMosaic.PureOps.Ideal.Laws
import Idealize.ShloMosaic.Lib.IdealHost
import Idealize.ShloMosaic.Lib.StackMember
import Idealize.ShloMosaic.Lib.Pipeline.Value

noncomputable section

open scoped BigOperators

namespace Cert.ReferenceIdeal.RV

open Cert.ReferenceIdeal Cert.ReferenceIdeal.Gen Idealize.ShloMosaic Idealize.ShloMosaic.ValueIdx

theorem red_d2 : S3200000x3x3.Reduces [2] S3200000x3 := by decide

theorem lift_d2 (e : Fin 3200000) (k d : Fin 3) : red_d2.lift (ix2 e k) d = ix3 e k d := by
  funext a; refine Fin.ext ?_
  match a with
  | ⟨0, _⟩ => rfl
  | ⟨1, _⟩ => rfl
  | ⟨2, _⟩ => rfl

theorem bcast_edge_apply (ea : FA S3200000x3) (e : Fin 3200000) (k d : Fin 3) :
    (broadcastInDim S3200000x3x3 ![0, 1, 2] bcast_S3200000x1x3_S3200000x3x3_0_1_2
      (broadcastInDim S3200000x1x3 ![0, 2] bcast_S3200000x3_S3200000x1x3_0_2 ea : FA S3200000x1x3) : FA S3200000x3x3) (ix3 e k d)
      = ea (ix2 e d) := by
  refine (broadcastInDim_apply _ _ _ (ix3 e k d) (ix3 e (0 : Fin 1) d) fun a => ?_).trans ?_
  · match a with
    | ⟨0, _⟩ => rfl
    | ⟨1, _⟩ => rfl
    | ⟨2, _⟩ => rfl
  · refine broadcastInDim_apply _ _ _ (ix3 e (0 : Fin 1) d) (ix2 e d) fun a => ?_
    match a with
    | ⟨0, _⟩ => rfl
    | ⟨1, _⟩ => rfl

theorem bcast_comp_apply (x : FA S1x3x3) (e : Fin 3200000) (k d : Fin 3) :
    (broadcastInDim S3200000x3x3 ![0, 1, 2] bcast_S1x3x3_S3200000x3x3_0_1_2 x : FA S3200000x3x3) (ix3 e k d)
      = x (ix3 (0 : Fin 1) k d) := by
  refine broadcastInDim_apply _ _ _ (ix3 e k d) (ix3 (0 : Fin 1) k d) fun a => ?_
  match a with
  | ⟨0, _⟩ => rfl
  | ⟨1, _⟩ => rfl
  | ⟨2, _⟩ => rfl

theorem bcast_unit_apply (x : FA S3x3) (k d : Fin 3) :
    (broadcastInDim S1x3x3 ![1, 2] bcast_S3x3_S1x3x3_1_2 x : FA S1x3x3) (ix3 (0 : Fin 1) k d) = x (ix2 k d) := by
  refine broadcastInDim_apply _ _ _ (ix3 (0 : Fin 1) k d) (ix2 k d) fun a => ?_
  match a with
  | ⟨0, _⟩ => rfl
  | ⟨1, _⟩ => rfl

theorem hostExp_apply {s : Shape} (x : FVec Ideal s .f32) (i : s.Idx) : Host.exp x i = Ideal.exp (x i) := rfl

theorem diff_apply (ea : FA S3200000x3) (mu : FA S3x3) (e : Fin 3200000) (k d : Fin 3) :
    diff ea mu (ix3 e k d) = ea (ix2 e d) - mu (ix2 k d) := by
  unfold diff
  rw [subf_apply, bcast_edge_apply, bcast_comp_apply, bcast_unit_apply]

theorem var_apply (sg : FA S3x3) (e : Fin 3200000) (k d : Fin 3) :
    (broadcastInDim S3200000x3x3 ![0, 1, 2] bcast_S1x3x3_S3200000x3x3_0_1_2
      (addf (F := Ideal) (broadcastInDim S1x3x3 ![] bcast_S_S1x3x3 (constant (F := Ideal) S_ .f32 0x26901D7D#32))
        (mulf (F := Ideal) (broadcastInDim S1x3x3 ![1, 2] bcast_S3x3_S1x3x3_1_2 sg) (broadcastInDim S1x3x3 ![1, 2] bcast_S3x3_S1x3x3_1_2 sg))
        : FA S1x3x3) : FA S3200000x3x3) (ix3 e k d)
      = Ideal.ofBits .f32 0x26901D7D#32 + sg (ix2 k d) * sg (ix2 k d) := by
  rw [bcast_comp_apply, addf_apply, mulf_apply, bcast_unit_apply, broadcastInDim_scalar_apply, constant_apply]

theorem gaussW_apply (ea : FA S3200000x3) (mu sg : FA S3x3) (e : Fin 3200000) (k : Fin 3) :
    gaussW ea mu sg (ix2 e k)
      = Cert.GMM.gauss (fun d => ea (ix2 e d)) (fun a b => mu (ix2 a b)) (fun a b => sg (ix2 a b)) k := by
  unfold gaussW Cert.GMM.gauss
  rw [hostExp_apply, mulf_apply, broadcastInDim_scalar_apply, constant_apply, hostReduceAdd_apply,
    Ideal.hostReduceAdd_single _ red_d2, constant_apply, Ideal.ofBits_zero_f32, zero_add]
  refine congrArg Ideal.exp (congrArg _ (Finset.sum_congr rfl fun (d : Fin 3) _ => ?_))
  rw [lift_d2, hostDivf_apply, mulf_apply, diff_apply, var_apply]

theorem cmp_ogt_zero_of_pos {x : EReal} (hx : 0 < x) : Ideal.cmp .ogt x 0 = 1#1 := by
  show BitVec.ofBool (decide (0 < x)) = 1#1
  rw [decide_eq_true hx]; rfl

theorem cmp_ogt_zero_of_not_pos {x : EReal} (hx : ¬0 < x) : Ideal.cmp .ogt x 0 = 0#1 := by
  show BitVec.ofBool (decide (0 < x)) = 0#1
  rw [decide_eq_false hx]; rfl

end Cert.ReferenceIdeal.RV

end
-- ==== Proof.RMsg1.lean ====
import proofs.«109075_j6828998001340_1_alg».proof.Proof.RDefs1
import proofs.«109075_j6828998001340_1_alg».proof.Proof.Spec
import proofs.«109075_j6828998001340_1_alg».proof.Proof.RLib

noncomputable section

open scoped BigOperators

namespace Cert.ReferenceIdeal.RV.L1

open Cert.ReferenceIdeal Cert.ReferenceIdeal.Gen Cert.ReferenceIdeal.RV Idealize.ShloMosaic Idealize.ShloMosaic.ValueIdx

theorem red_d1 : S3200000x3x8.Reduces [1] S3200000x8 := by decide

theorem lift_d1 (e : Fin 3200000) (o : Fin 8) (k : Fin 3) : red_d1.lift (ix2 e o) k = ix3 e k o := by
  funext a; refine Fin.ext ?_
  match a with
  | ⟨0, _⟩ => rfl
  | ⟨1, _⟩ => rfl
  | ⟨2, _⟩ => rfl

theorem bcast_weight_apply (w : FA S3200000x3) (e : Fin 3200000) (k : Fin 3) (o : Fin 8) :
    (broadcastInDim S3200000x3x8 ![0, 1, 2] bcast_S3200000x3x1_S3200000x3x8_0_1_2
      (broadcastInDim S3200000x3x1 ![0, 1] bcast_S3200000x3_S3200000x3x1_0_1 w : FA S3200000x3x1) : FA S3200000x3x8) (ix3 e k o)
      = w (ix2 e k) := by
  refine (broadcastInDim_apply _ _ _ (ix3 e k o) (ix3 e k (0 : Fin 1)) fun a => ?_).trans ?_
  · match a with
    | ⟨0, _⟩ => rfl
    | ⟨1, _⟩ => rfl
    | ⟨2, _⟩ => rfl
  · refine broadcastInDim_apply _ _ _ (ix3 e k (0 : Fin 1)) (ix2 e k) fun a => ?_
    match a with
    | ⟨0, _⟩ => rfl
    | ⟨1, _⟩ => rfl

theorem dot_apply (xj : FA S3200000x3) (g : FA S3x24) (e : Fin 3200000) (q : Fin 24) :
    Host.dotGeneral (F := Ideal) (φ₁ := .f32) (φ₂ := .f32) dot_S3200000x3_S3x24_S3200000x24_1_0_0_1_n_n none xj g (ix2 e q)
      = Cert.GMM.proj (fun d => xj (ix2 e d)) (fun a b => g (ix2 a b)) q :=
  StackMember.dotGeneral_plain_apply (m := 3200000) (n := 24) (k := 3) none xj g e q

theorem msg_apply (xj : FA S3200000x3) (ea : FA S3200000x3) (g : FA S3x24) (mu sg : FA S3x3) (e : Fin 3200000) (o : Fin 8) :
    msg xj ea g mu sg (ix2 e o)
      = Cert.GMM.edgeMsg (by decide) (fun d => xj (ix2 e d)) (fun d => ea (ix2 e d)) (fun a b => g (ix2 a b)) (fun a b => mu (ix2 a b))
          (fun a b => sg (ix2 a b)) o := by
  unfold msg Cert.GMM.edgeMsg
  rw [hostReduceAdd_apply, Ideal.hostReduceAdd_single _ red_d1, constant_apply, Ideal.ofBits_zero_f32, zero_add]
  refine Finset.sum_congr rfl fun (k : Fin 3) _ => ?_
  rw [lift_d1, mulf_apply, bcast_weight_apply, gaussW_apply]
  refine congrArg (· * _) ?_
  refine (shapeCast_apply _ _ (ix3 e k o) (ix2 e (⟨k.val * 8 + o.val, by omega⟩ : Fin 24)) ?_).trans (dot_apply xj g e _)
  rw [Shape.rowMajor_val_two, Shape.rowMajor_val_three]
  show e.val * 24 + (k.val * 8 + o.val) = (e.val * 3 + k.val) * 8 + o.val
  omega

end Cert.ReferenceIdeal.RV.L1

end
-- ==== Proof.RNode1.lean ====
import proofs.«109075_j6828998001340_1_alg».proof.Proof.RDefs1
import proofs.«109075_j6828998001340_1_alg».proof.Proof.Spec
import proofs.«109075_j6828998001340_1_alg».proof.Proof.RLib

noncomputable section

open scoped BigOperators

namespace Cert.ReferenceIdeal.RV.L1

open Cert.ReferenceIdeal Cert.ReferenceIdeal.Gen Cert.ReferenceIdeal.RV Idealize.ShloMosaic Idealize.ShloMosaic.ValueIdx

theorem mxB_apply (mxv : FA S100000) (n : Fin 100000) (o : Fin 8) :
    broadcastInDim S100000x8 ![0, 1] bcast_S100000x1_S100000x8_0_1 (broadcastInDim S100000x1 ![0] bcast_S100000_S100000x1_0 mxv) (ix2 n o)
      = mxv (ix1 n) := by
  rw [broadcastInDim_apply _ _ _ (ix2 n o) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

theorem biasB_apply (b : FA S8) (n : Fin 100000) (o : Fin 8) :
    broadcastInDim S100000x8 ![0, 1] bcast_S1x8_S100000x8_0_1 (broadcastInDim S1x8 ![1] bcast_S8_S1x8_1 b) (ix2 n o) = b (ix1 o) := by
  rw [broadcastInDim_apply _ _ _ (ix2 n o) (ix2 (0 : Fin 1) o) (fun a => by match a with | ⟨0, _⟩ => rfl | ⟨1, _⟩ => rfl),
    broadcastInDim_apply _ _ _ (ix2 (0 : Fin 1) o) (ix1 o) (fun a => by match a with | ⟨0, _⟩ => rfl)]

theorem root_apply (h : FA S100000x3) (root : FA S3x8) (n : Fin 100000) (o : Fin 8) :
    Host.dotGeneral (F := Ideal) (φ₁ := .f32) (φ₂ := .f32) dot_S100000x3_S3x8_S100000x8_1_0_0_1_n_n none h root (ix2 n o)
      = ∑ k : Fin 3, h (ix2 n k) * root (ix2 k o) :=
  StackMember.dotGeneral_plain_apply (m := 100000) (n := 8) (k := 3) none h root n o

theorem pre_apply (h : FA S100000x3) (aggv : FA S100000x8) (mxv : FA S100000) (root : FA S3x8) (b : FA S8)
    (n : Fin 100000) (o : Fin 8) :
    pre h aggv mxv root b (ix2 n o)
      = Ideal.div (aggv (ix2 n o)) (mxv (ix1 n))
        + Cert.GMM.lin (fun d => h (ix2 n d)) (fun a b' => root (ix2 a b')) o + b (ix1 o) := by
  unfold pre
  rw [addf_apply, addf_apply, hostDivf_apply, mxB_apply, biasB_apply, root_apply]
  rfl

theorem elu_apply (x : FA S100000x8) (j : S100000x8.Idx) : elu x j = Cert.GMM.elu (x j) := by
  unfold elu Cert.GMM.elu
  rw [select_apply, cmpf_apply, Ideal.cmpf_def, broadcastInDim_scalar_apply, constant_apply, Ideal.ofBits_zero_f32]
  by_cases hx : 0 < x j
  · rw [cmp_ogt_zero_of_pos hx, select_one, if_pos hx]
  · rw [cmp_ogt_zero_of_not_pos hx, select_zero, if_neg hx, mulf_apply, broadcastInDim_scalar_apply, constant_apply,
      Ideal.ofBits_one_f32, one_mul]
    show FloatOps.hostUnary .expm1 _ = _
    rw [Ideal.hostUnary_expm1_def, select_apply, cmpf_apply, Ideal.cmpf_def, broadcastInDim_scalar_apply, constant_apply,
      Ideal.ofBits_zero_f32, cmp_ogt_zero_of_not_pos hx, select_zero]

theorem node_apply (h : FA S100000x3) (aggv : FA S100000x8) (mxv : FA S100000) (root : FA S3x8) (b : FA S8)
    (n : Fin 100000) (o : Fin 8) :
    elu (pre h aggv mxv root b) (ix2 n o)
      = Cert.GMM.nodeR Cert.GMM.elu (fun d => h (ix2 n d)) (fun a b' => root (ix2 a b')) (fun o' => b (ix1 o')) (aggv (ix2 n o)) (mxv (ix1 n)) o := by
  unfold Cert.GMM.nodeR
  rw [elu_apply, pre_apply]

end Cert.ReferenceIdeal.RV.L1

end
-- ==== Proof.RMx.lean ====
import proofs.«109075_j6828998001340_1_alg».proof.Proof.RGlue
import Idealize.ShloMosaic.Lib.IdealHost

noncomputable section

namespace Cert.ReferenceIdeal.RV

open Cert.ReferenceIdeal Cert.ReferenceIdeal.Gen Idealize.ShloMosaic Idealize.ShloMosaic.ValueIdx

theorem one_le_mx (a1 : IA S2x3200000) (n : Fin 100000) : (1 : EReal) ≤ mx a1 (ix1 n) := by
  unfold mx
  rw [maximumf_apply, broadcastInDim_scalar_apply, constant_apply, Ideal.ofBits_one_f32]
  exact le_max_right _ _

end Cert.ReferenceIdeal.RV

end
-- ==== Proof.Bridge1.lean ====
import proofs.«109075_j6828998001340_1_alg».proof.Proof.KDefs1
import proofs.«109075_j6828998001340_1_alg».proof.Proof.RDefs1
import proofs.«109075_j6828998001340_1_alg».proof.Proof.Spec
import proofs.«109075_j6828998001340_1_alg».proof.Proof.KRead1
import proofs.«109075_j6828998001340_1_alg».proof.Proof.RMsg1
import proofs.«109075_j6828998001340_1_alg».proof.Proof.RNode1
import proofs.«109075_j6828998001340_1_alg».proof.Proof.RMx
import Idealize.ShloMosaic.Lib.ValueIdx

noncomputable section

namespace Cert.Bridge.L1

open Idealize.ShloMosaic Idealize.ShloMosaic.ValueIdx

theorem gather_eq (h : Cert.KernelIdeal.KV.FA Cert.KernelIdeal.S100000x3) (a1 : Cert.KernelIdeal.KV.IA Cert.KernelIdeal.S2x3200000) :
    Host.gather Cert.KernelIdeal.gather_S100000x3_S3200000x1_S3200000x3_1_0_n_n_0_1_13 h (Cert.KernelIdeal.KV.srcIdx a1)
      = Host.gather Cert.ReferenceIdeal.gather_S100000x3_S3200000x1_S3200000x3_1_0_n_n_0_1_13 h (Cert.ReferenceIdeal.RV.srcIdx a1) := rfl

theorem msg_eq (h : Cert.KernelIdeal.KV.FA Cert.KernelIdeal.S100000x3) (a1 : Cert.KernelIdeal.KV.IA Cert.KernelIdeal.S2x3200000)
    (ea : Cert.KernelIdeal.KV.FA Cert.KernelIdeal.S3200000x3) (g : Cert.KernelIdeal.KV.FA Cert.KernelIdeal.S3x24)
    (mu sg : Cert.KernelIdeal.KV.FA Cert.KernelIdeal.S3x3) :
    Cert.KernelIdeal.KV.L1.msg h a1 ea g mu sg
      = Cert.ReferenceIdeal.RV.L1.msg (Host.gather Cert.ReferenceIdeal.gather_S100000x3_S3200000x1_S3200000x3_1_0_n_n_0_1_13 h (Cert.ReferenceIdeal.RV.srcIdx a1)) ea g mu sg := by
  funext i
  obtain ⟨e, o, rfl⟩ : ∃ (e : Fin 3200000) (o : Fin 8), i = ix2 e o := ⟨i 0, i 1, eq_ix2 i⟩
  rw [Cert.KernelIdeal.KV.L1.msg_apply, Cert.ReferenceIdeal.RV.L1.msg_apply, gather_eq]

theorem agg_eq (h : Cert.KernelIdeal.KV.FA Cert.KernelIdeal.S100000x3) (a1 : Cert.KernelIdeal.KV.IA Cert.KernelIdeal.S2x3200000)
    (ea : Cert.KernelIdeal.KV.FA Cert.KernelIdeal.S3200000x3) (g : Cert.KernelIdeal.KV.FA Cert.KernelIdeal.S3x24)
    (mu sg : Cert.KernelIdeal.KV.FA Cert.KernelIdeal.S3x3) :
    Cert.KernelIdeal.KV.L1.agg h a1 ea g mu sg = Cert.ReferenceIdeal.RV.L1.agg h a1 ea g mu sg := by
  unfold Cert.KernelIdeal.KV.L1.agg Cert.ReferenceIdeal.RV.L1.agg
  rw [msg_eq h a1 ea g mu sg]
  rfl

theorem layer_eq (h : Cert.KernelIdeal.KV.FA Cert.KernelIdeal.S100000x3) (a1 : Cert.KernelIdeal.KV.IA Cert.KernelIdeal.S2x3200000)
    (ea : Cert.KernelIdeal.KV.FA Cert.KernelIdeal.S3200000x3) (g : Cert.KernelIdeal.KV.FA Cert.KernelIdeal.S3x24)
    (mu sg : Cert.KernelIdeal.KV.FA Cert.KernelIdeal.S3x3) (root : Cert.KernelIdeal.KV.FA Cert.KernelIdeal.S3x8)
    (b : Cert.KernelIdeal.KV.FA Cert.KernelIdeal.S8) :
    Cert.KernelIdeal.KV.L1.layer h a1 ea g mu sg root b = Cert.ReferenceIdeal.RV.L1.layer h a1 ea g mu sg root b := by
  funext i
  obtain ⟨n, o, rfl⟩ : ∃ (n : Fin 100000) (o : Fin 8), i = ix2 n o := ⟨i 0, i 1, eq_ix2 i⟩
  rw [Cert.KernelIdeal.KV.L1.layer_apply, agg_eq h a1 ea g mu sg]
  unfold Cert.ReferenceIdeal.RV.L1.layer
  rw [Cert.ReferenceIdeal.RV.L1.node_apply]
  exact Cert.GMM.nodeK_eq_nodeR _ _ _ _ _ _ (Cert.ReferenceIdeal.RV.one_le_mx a1 n) o

end Cert.Bridge.L1

end
-- ==== Proof.KRead2.lean ====
import proofs.«109075_j6828998001340_1_alg».proof.Proof.KDefs2
import proofs.«109075_j6828998001340_1_alg».proof.Proof.Spec
import proofs.«109075_j6828998001340_1_alg».proof.Proof.KLib

noncomputable section

namespace Cert.KernelIdeal.KV.L2

open Cert.KernelIdeal Cert.KernelIdeal.Gen Cert.KernelIdeal.KV Idealize.ShloMosaic Idealize.ShloMosaic.ValueIdx

theorem msg_apply (h : FA S100000x8) (a1 : IA S2x3200000) (ea : FA S3200000x3) (g : FA S8x48) (mu sg : FA S3x3)
    (e : Fin 3200000) (o : Fin 16) :
    msg h a1 ea g mu sg (ix2 e o) =
      Cert.GMM.edgeMsg (by decide)
        (fun d => (Host.gather gather_S100000x8_S3200000x1_S3200000x8_1_0_n_n_0_1_18 h (srcIdx a1)) (ix2 e d))
        (fun d => ea (ix2 e d)) (fun a b => g (ix2 a b)) (fun a b => mu (ix2 a b)) (fun a b => sg (ix2 a b)) o := by
  unfold msg
  rw [sliceRows_apply _ _ e o (by omega)]
  unfold EdgeG
  have hx : ∀ d : Fin 8, xjPad h a1 (ix2 (⟨e.val, by omega⟩ : Fin 3203072) d)
      = (Host.gather gather_S100000x8_S3200000x1_S3200000x8_1_0_n_n_0_1_18 h (srcIdx a1)) (ix2 e d) := fun d => by
    unfold xjPad
    exact padRows_apply _ _ _ _ e d _ rfl
  have ha : ∀ d : Fin 3, eaPad ea (ix2 (⟨e.val, by omega⟩ : Fin 3203072) d) = ea (ix2 e d) := fun d => by
    unfold eaPad
    exact padRows_apply _ _ _ _ e d _ rfl
  show Cert.GMM.edgeMsg (by decide) (fun d => xjPad h a1 (ix2 (⟨e.val, by omega⟩ : Fin 3203072) d))
      (fun d => eaPad ea (ix2 (⟨e.val, by omega⟩ : Fin 3203072) d)) _ _ _ o = _
  simp only [hx, ha]

theorem layer_apply (h : FA S100000x8) (a1 : IA S2x3200000) (ea : FA S3200000x3) (g : FA S8x48) (mu sg : FA S3x3)
    (root : FA S8x16) (b : FA S16) (n : Fin 100000) (o : Fin 16) :
    layer h a1 ea g mu sg root b (ix2 n o) =
      Cert.GMM.nodeK Cert.GMM.elu (fun d => h (ix2 n d)) (fun a b' => root (ix2 a b')) (fun o' => b (ix1 o'))
        (agg h a1 ea g mu sg (ix2 n o)) (Ideal.div 1 (mx a1 (ix1 n))) o := by
  unfold layer
  rw [sliceRows_apply _ _ n o (by omega)]
  unfold NodeG
  have hh : ∀ d : Fin 8,
      hPad h (ix2 (⟨n.val, by omega⟩ : Fin 102400) d) = h (ix2 n d) := fun d => padRows_apply _ _ _ _ n d _ rfl
  have hb : ∀ o' : Fin 16, shapeCast S1x16 b shapeCasts_S16_S1x16 (ix2 (0 : Fin 1) o') = b (ix1 o') := fun o' =>
    shapeCast_a_1a_apply b _ 0 o'
  have hagg : aggPad (agg h a1 ea g mu sg) (ix2 (⟨n.val, by omega⟩ : Fin 102400) o) = agg h a1 ea g mu sg (ix2 n o) := padRows_apply _ _ _ _ n o _ rfl
  have hc : cPad (cinv a1) (ix2 (⟨n.val, by omega⟩ : Fin 102400) (0 : Fin 1)) = Ideal.div 1 (mx a1 (ix1 n)) :=
    (padRows_apply _ _ _ _ n (0 : Fin 1) (⟨n.val, by omega⟩ : Fin 102400) rfl).trans (cinv_apply a1 n 0)
  show Cert.GMM.nodeK Cert.GMM.elu
      (fun d => hPad h (ix2 (⟨n.val, by omega⟩ : Fin 102400) d))
      _ (fun o' => shapeCast S1x16 b shapeCasts_S16_S1x16 (ix2 (0 : Fin 1) o'))
      (aggPad (agg h a1 ea g mu sg) (ix2 (⟨n.val, by omega⟩ : Fin 102400) o))
      (cPad (cinv a1) (ix2 (⟨n.val, by omega⟩ : Fin 102400) (0 : Fin 1))) o = _
  rw [hagg, hc]
  simp only [hh, hb]

end Cert.KernelIdeal.KV.L2

end
-- ==== Proof.RMsg2.lean ====
import proofs.«109075_j6828998001340_1_alg».proof.Proof.RDefs2
import proofs.«109075_j6828998001340_1_alg».proof.Proof.Spec
import proofs.«109075_j6828998001340_1_alg».proof.Proof.RLib

noncomputable section

open scoped BigOperators

namespace Cert.ReferenceIdeal.RV.L2

open Cert.ReferenceIdeal Cert.ReferenceIdeal.Gen Cert.ReferenceIdeal.RV Idealize.ShloMosaic Idealize.ShloMosaic.ValueIdx

theorem red_d1 : S3200000x3x16.Reduces [1] S3200000x16 := by decide

theorem lift_d1 (e : Fin 3200000) (o : Fin 16) (k : Fin 3) : red_d1.lift (ix2 e o) k = ix3 e k o := by
  funext a; refine Fin.ext ?_
  match a with
  | ⟨0, _⟩ => rfl
  | ⟨1, _⟩ => rfl
  | ⟨2, _⟩ => rfl

theorem bcast_weight_apply (w : FA S3200000x3) (e : Fin 3200000) (k : Fin 3) (o : Fin 16) :
    (broadcastInDim S3200000x3x16 ![0, 1, 2] bcast_S3200000x3x1_S3200000x3x16_0_1_2
      (broadcastInDim S3200000x3x1 ![0, 1] bcast_S3200000x3_S3200000x3x1_0_1 w : FA S3200000x3x1) : FA S3200000x3x16) (ix3 e k o)
      = w (ix2 e k) := by
  refine (broadcastInDim_apply _ _ _ (ix3 e k o) (ix3 e k (0 : Fin 1)) fun a => ?_).trans ?_
  · match a with
    | ⟨0, _⟩ => rfl
    | ⟨1, _⟩ => rfl
    | ⟨2, _⟩ => rfl
  · refine broadcastInDim_apply _ _ _ (ix3 e k (0 : Fin 1)) (ix2 e k) fun a => ?_
    match a with
    | ⟨0, _⟩ => rfl
    | ⟨1, _⟩ => rfl

theorem dot_apply (xj : FA S3200000x8) (g : FA S8x48) (e : Fin 3200000) (q : Fin 48) :
    Host.dotGeneral (F := Ideal) (φ₁ := .f32) (φ₂ := .f32) dot_S3200000x8_S8x48_S3200000x48_1_0_0_1_n_n none xj g (ix2 e q)
      = Cert.GMM.proj (fun d => xj (ix2 e d)) (fun a b => g (ix2 a b)) q :=
  StackMember.dotGeneral_plain_apply (m := 3200000) (n := 48) (k := 8) none xj g e q

theorem msg_apply (xj : FA S3200000x8) (ea : FA S3200000x3) (g : FA S8x48) (mu sg : FA S3x3) (e : Fin 3200000) (o : Fin 16) :
    msg xj ea g mu sg (ix2 e o)
      = Cert.GMM.edgeMsg (by decide) (fun d => xj (ix2 e d)) (fun d => ea (ix2 e d)) (fun a b => g (ix2 a b)) (fun a b => mu (ix2 a b))
          (fun a b => sg (ix2 a b)) o := by
  unfold msg Cert.GMM.edgeMsg
  rw [hostReduceAdd_apply, Ideal.hostReduceAdd_single _ red_d1, constant_apply, Ideal.ofBits_zero_f32, zero_add]
  refine Finset.sum_congr rfl fun (k : Fin 3) _ => ?_
  rw [lift_d1, mulf_apply, bcast_weight_apply, gaussW_apply]
  refine congrArg (· * _) ?_
  refine (shapeCast_apply _ _ (ix3 e k o) (ix2 e (⟨k.val * 16 + o.val, by omega⟩ : Fin 48)) ?_).trans (dot_apply xj g e _)
  rw [Shape.rowMajor_val_two, Shape.rowMajor_val_three]
  show e.val * 48 + (k.val * 16 + o.val) = (e.val * 3 + k.val) * 16 + o.val
  omega

end Cert.ReferenceIdeal.RV.L2

end
-- ==== Proof.RNode2.lean ====
import proofs.«109075_j6828998001340_1_alg».proof.Proof.RDefs2
import proofs.«109075_j6828998001340_1_alg».proof.Proof.Spec
import proofs.«109075_j6828998001340_1_alg».proof.Proof.RLib

noncomputable section

open scoped BigOperators

namespace Cert.ReferenceIdeal.RV.L2

open Cert.ReferenceIdeal Cert.ReferenceIdeal.Gen Cert.ReferenceIdeal.RV Idealize.ShloMosaic Idealize.ShloMosaic.ValueIdx

theorem mxB_apply (mxv : FA S100000) (n : Fin 100000) (o : Fin 16) :
    broadcastInDim S100000x16 ![0, 1] bcast_S100000x1_S100000x16_0_1 (broadcastInDim S100000x1 ![0] bcast_S100000_S100000x1_0 mxv) (ix2 n o)
      = mxv (ix1 n) := by
  rw [broadcastInDim_apply _ _ _ (ix2 n o) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

theorem biasB_apply (b : FA S16) (n : Fin 100000) (o : Fin 16) :
    broadcastInDim S100000x16 ![0, 1] bcast_S1x16_S100000x16_0_1 (broadcastInDim S1x16 ![1] bcast_S16_S1x16_1 b) (ix2 n o) = b (ix1 o) := by
  rw [broadcastInDim_apply _ _ _ (ix2 n o) (ix2 (0 : Fin 1) o) (fun a => by match a with | ⟨0, _⟩ => rfl | ⟨1, _⟩ => rfl),
    broadcastInDim_apply _ _ _ (ix2 (0 : Fin 1) o) (ix1 o) (fun a => by match a with | ⟨0, _⟩ => rfl)]

theorem root_apply (h : FA S100000x8) (root : FA S8x16) (n : Fin 100000) (o : Fin 16) :
    Host.dotGeneral (F := Ideal) (φ₁ := .f32) (φ₂ := .f32) dot_S100000x8_S8x16_S100000x16_1_0_0_1_n_n none h root (ix2 n o)
      = ∑ k : Fin 8, h (ix2 n k) * root (ix2 k o) :=
  StackMember.dotGeneral_plain_apply (m := 100000) (n := 16) (k := 8) none h root n o

theorem pre_apply (h : FA S100000x8) (aggv : FA S100000x16) (mxv : FA S100000) (root : FA S8x16) (b : FA S16)
    (n : Fin 100000) (o : Fin 16) :
    pre h aggv mxv root b (ix2 n o)
      = Ideal.div (aggv (ix2 n o)) (mxv (ix1 n))
        + Cert.GMM.lin (fun d => h (ix2 n d)) (fun a b' => root (ix2 a b')) o + b (ix1 o) := by
  unfold pre
  rw [addf_apply, addf_apply, hostDivf_apply, mxB_apply, biasB_apply, root_apply]
  rfl

theorem elu_apply (x : FA S100000x16) (j : S100000x16.Idx) : elu x j = Cert.GMM.elu (x j) := by
  unfold elu Cert.GMM.elu
  rw [select_apply, cmpf_apply, Ideal.cmpf_def, broadcastInDim_scalar_apply, constant_apply, Ideal.ofBits_zero_f32]
  by_cases hx : 0 < x j
  · rw [cmp_ogt_zero_of_pos hx, select_one, if_pos hx]
  · rw [cmp_ogt_zero_of_not_pos hx, select_zero, if_neg hx, mulf_apply, broadcastInDim_scalar_apply, constant_apply,
      Ideal.ofBits_one_f32, one_mul]
    show FloatOps.hostUnary .expm1 _ = _
    rw [Ideal.hostUnary_expm1_def, select_apply, cmpf_apply, Ideal.cmpf_def, broadcastInDim_scalar_apply, constant_apply,
      Ideal.ofBits_zero_f32, cmp_ogt_zero_of_not_pos hx, select_zero]

theorem node_apply (h : FA S100000x8) (aggv : FA S100000x16) (mxv : FA S100000) (root : FA S8x16) (b : FA S16)
    (n : Fin 100000) (o : Fin 16) :
    elu (pre h aggv mxv root b) (ix2 n o)
      = Cert.GMM.nodeR Cert.GMM.elu (fun d => h (ix2 n d)) (fun a b' => root (ix2 a b')) (fun o' => b (ix1 o')) (aggv (ix2 n o)) (mxv (ix1 n)) o := by
  unfold Cert.GMM.nodeR
  rw [elu_apply, pre_apply]

end Cert.ReferenceIdeal.RV.L2

end
-- ==== Proof.Bridge2.lean ====
import proofs.«109075_j6828998001340_1_alg».proof.Proof.KDefs2
import proofs.«109075_j6828998001340_1_alg».proof.Proof.RDefs2
import proofs.«109075_j6828998001340_1_alg».proof.Proof.Spec
import proofs.«109075_j6828998001340_1_alg».proof.Proof.KRead2
import proofs.«109075_j6828998001340_1_alg».proof.Proof.RMsg2
import proofs.«109075_j6828998001340_1_alg».proof.Proof.RNode2
import proofs.«109075_j6828998001340_1_alg».proof.Proof.RMx
import Idealize.ShloMosaic.Lib.ValueIdx

noncomputable section

namespace Cert.Bridge.L2

open Idealize.ShloMosaic Idealize.ShloMosaic.ValueIdx

theorem gather_eq (h : Cert.KernelIdeal.KV.FA Cert.KernelIdeal.S100000x8) (a1 : Cert.KernelIdeal.KV.IA Cert.KernelIdeal.S2x3200000) :
    Host.gather Cert.KernelIdeal.gather_S100000x8_S3200000x1_S3200000x8_1_0_n_n_0_1_18 h (Cert.KernelIdeal.KV.srcIdx a1)
      = Host.gather Cert.ReferenceIdeal.gather_S100000x8_S3200000x1_S3200000x8_1_0_n_n_0_1_18 h (Cert.ReferenceIdeal.RV.srcIdx a1) := rfl

theorem msg_eq (h : Cert.KernelIdeal.KV.FA Cert.KernelIdeal.S100000x8) (a1 : Cert.KernelIdeal.KV.IA Cert.KernelIdeal.S2x3200000)
    (ea : Cert.KernelIdeal.KV.FA Cert.KernelIdeal.S3200000x3) (g : Cert.KernelIdeal.KV.FA Cert.KernelIdeal.S8x48)
    (mu sg : Cert.KernelIdeal.KV.FA Cert.KernelIdeal.S3x3) :
    Cert.KernelIdeal.KV.L2.msg h a1 ea g mu sg
      = Cert.ReferenceIdeal.RV.L2.msg (Host.gather Cert.ReferenceIdeal.gather_S100000x8_S3200000x1_S3200000x8_1_0_n_n_0_1_18 h (Cert.ReferenceIdeal.RV.srcIdx a1)) ea g mu sg := by
  funext i
  obtain ⟨e, o, rfl⟩ : ∃ (e : Fin 3200000) (o : Fin 16), i = ix2 e o := ⟨i 0, i 1, eq_ix2 i⟩
  rw [Cert.KernelIdeal.KV.L2.msg_apply, Cert.ReferenceIdeal.RV.L2.msg_apply, gather_eq]

theorem agg_eq (h : Cert.KernelIdeal.KV.FA Cert.KernelIdeal.S100000x8) (a1 : Cert.KernelIdeal.KV.IA Cert.KernelIdeal.S2x3200000)
    (ea : Cert.KernelIdeal.KV.FA Cert.KernelIdeal.S3200000x3) (g : Cert.KernelIdeal.KV.FA Cert.KernelIdeal.S8x48)
    (mu sg : Cert.KernelIdeal.KV.FA Cert.KernelIdeal.S3x3) :
    Cert.KernelIdeal.KV.L2.agg h a1 ea g mu sg = Cert.ReferenceIdeal.RV.L2.agg h a1 ea g mu sg := by
  unfold Cert.KernelIdeal.KV.L2.agg Cert.ReferenceIdeal.RV.L2.agg
  rw [msg_eq h a1 ea g mu sg]
  rfl

theorem layer_eq (h : Cert.KernelIdeal.KV.FA Cert.KernelIdeal.S100000x8) (a1 : Cert.KernelIdeal.KV.IA Cert.KernelIdeal.S2x3200000)
    (ea : Cert.KernelIdeal.KV.FA Cert.KernelIdeal.S3200000x3) (g : Cert.KernelIdeal.KV.FA Cert.KernelIdeal.S8x48)
    (mu sg : Cert.KernelIdeal.KV.FA Cert.KernelIdeal.S3x3) (root : Cert.KernelIdeal.KV.FA Cert.KernelIdeal.S8x16)
    (b : Cert.KernelIdeal.KV.FA Cert.KernelIdeal.S16) :
    Cert.KernelIdeal.KV.L2.layer h a1 ea g mu sg root b = Cert.ReferenceIdeal.RV.L2.layer h a1 ea g mu sg root b := by
  funext i
  obtain ⟨n, o, rfl⟩ : ∃ (n : Fin 100000) (o : Fin 16), i = ix2 n o := ⟨i 0, i 1, eq_ix2 i⟩
  rw [Cert.KernelIdeal.KV.L2.layer_apply, agg_eq h a1 ea g mu sg]
  unfold Cert.ReferenceIdeal.RV.L2.layer
  rw [Cert.ReferenceIdeal.RV.L2.node_apply]
  exact Cert.GMM.nodeK_eq_nodeR _ _ _ _ _ _ (Cert.ReferenceIdeal.RV.one_le_mx a1 n) o

end Cert.Bridge.L2

end
-- ==== Proof.KRead3.lean ====
import proofs.«109075_j6828998001340_1_alg».proof.Proof.KDefs3
import proofs.«109075_j6828998001340_1_alg».proof.Proof.Spec
import proofs.«109075_j6828998001340_1_alg».proof.Proof.KLib

noncomputable section

namespace Cert.KernelIdeal.KV.L3

open Cert.KernelIdeal Cert.KernelIdeal.Gen Cert.KernelIdeal.KV Idealize.ShloMosaic Idealize.ShloMosaic.ValueIdx

theorem msg_apply (h : FA S100000x16) (a1 : IA S2x3200000) (ea : FA S3200000x3) (g : FA S16x24) (mu sg : FA S3x3)
    (e : Fin 3200000) (o : Fin 8) :
    msg h a1 ea g mu sg (ix2 e o) =
      Cert.GMM.edgeMsg (by decide)
        (fun d => (Host.gather gather_S100000x16_S3200000x1_S3200000x16_1_0_n_n_0_1_116 h (srcIdx a1)) (ix2 e d))
        (fun d => ea (ix2 e d)) (fun a b => g (ix2 a b)) (fun a b => mu (ix2 a b)) (fun a b => sg (ix2 a b)) o := by
  unfold msg
  rw [sliceRows_apply _ _ e o (by omega)]
  unfold EdgeG
  have hx : ∀ d : Fin 16, xjPad h a1 (ix2 (⟨e.val, by omega⟩ : Fin 3203072) d)
      = (Host.gather gather_S100000x16_S3200000x1_S3200000x16_1_0_n_n_0_1_116 h (srcIdx a1)) (ix2 e d) := fun d => by
    unfold xjPad
    exact padRows_apply _ _ _ _ e d _ rfl
  have ha : ∀ d : Fin 3, eaPad ea (ix2 (⟨e.val, by omega⟩ : Fin 3203072) d) = ea (ix2 e d) := fun d => by
    unfold eaPad
    exact padRows_apply _ _ _ _ e d _ rfl
  show Cert.GMM.edgeMsg (by decide) (fun d => xjPad h a1 (ix2 (⟨e.val, by omega⟩ : Fin 3203072) d))
      (fun d => eaPad ea (ix2 (⟨e.val, by omega⟩ : Fin 3203072) d)) _ _ _ o = _
  simp only [hx, ha]

theorem layer_apply (h : FA S100000x16) (a1 : IA S2x3200000) (ea : FA S3200000x3) (g : FA S16x24) (mu sg : FA S3x3)
    (root : FA S16x8) (b : FA S8) (n : Fin 100000) (o : Fin 8) :
    layer h a1 ea g mu sg root b (ix2 n o) =
      Cert.GMM.nodeK Cert.GMM.elu (fun d => h (ix2 n d)) (fun a b' => root (ix2 a b')) (fun o' => b (ix1 o'))
        (agg h a1 ea g mu sg (ix2 n o)) (Ideal.div 1 (mx a1 (ix1 n))) o := by
  unfold layer
  rw [sliceRows_apply _ _ n o (by omega)]
  unfold NodeG
  have hh : ∀ d : Fin 16,
      hPad h (ix2 (⟨n.val, by omega⟩ : Fin 102400) d) = h (ix2 n d) := fun d => padRows_apply _ _ _ _ n d _ rfl
  have hb : ∀ o' : Fin 8, shapeCast S1x8 b shapeCasts_S8_S1x8 (ix2 (0 : Fin 1) o') = b (ix1 o') := fun o' =>
    shapeCast_a_1a_apply b _ 0 o'
  have hagg : aggPad (agg h a1 ea g mu sg) (ix2 (⟨n.val, by omega⟩ : Fin 102400) o) = agg h a1 ea g mu sg (ix2 n o) := padRows_apply _ _ _ _ n o _ rfl
  have hc : cPad (cinv a1) (ix2 (⟨n.val, by omega⟩ : Fin 102400) (0 : Fin 1)) = Ideal.div 1 (mx a1 (ix1 n)) :=
    (padRows_apply _ _ _ _ n (0 : Fin 1) (⟨n.val, by omega⟩ : Fin 102400) rfl).trans (cinv_apply a1 n 0)
  show Cert.GMM.nodeK Cert.GMM.elu
      (fun d => hPad h (ix2 (⟨n.val, by omega⟩ : Fin 102400) d))
      _ (fun o' => shapeCast S1x8 b shapeCasts_S8_S1x8 (ix2 (0 : Fin 1) o'))
      (aggPad (agg h a1 ea g mu sg) (ix2 (⟨n.val, by omega⟩ : Fin 102400) o))
      (cPad (cinv a1) (ix2 (⟨n.val, by omega⟩ : Fin 102400) (0 : Fin 1))) o = _
  rw [hagg, hc]
  simp only [hh, hb]

end Cert.KernelIdeal.KV.L3

end
-- ==== Proof.RMsg3.lean ====
import proofs.«109075_j6828998001340_1_alg».proof.Proof.RDefs3
import proofs.«109075_j6828998001340_1_alg».proof.Proof.Spec
import proofs.«109075_j6828998001340_1_alg».proof.Proof.RLib

noncomputable section

open scoped BigOperators

namespace Cert.ReferenceIdeal.RV.L3

open Cert.ReferenceIdeal Cert.ReferenceIdeal.Gen Cert.ReferenceIdeal.RV Idealize.ShloMosaic Idealize.ShloMosaic.ValueIdx

theorem red_d1 : S3200000x3x8.Reduces [1] S3200000x8 := by decide

theorem lift_d1 (e : Fin 3200000) (o : Fin 8) (k : Fin 3) : red_d1.lift (ix2 e o) k = ix3 e k o := by
  funext a; refine Fin.ext ?_
  match a with
  | ⟨0, _⟩ => rfl
  | ⟨1, _⟩ => rfl
  | ⟨2, _⟩ => rfl

theorem bcast_weight_apply (w : FA S3200000x3) (e : Fin 3200000) (k : Fin 3) (o : Fin 8) :
    (broadcastInDim S3200000x3x8 ![0, 1, 2] bcast_S3200000x3x1_S3200000x3x8_0_1_2
      (broadcastInDim S3200000x3x1 ![0, 1] bcast_S3200000x3_S3200000x3x1_0_1 w : FA S3200000x3x1) : FA S3200000x3x8) (ix3 e k o)
      = w (ix2 e k) := by
  refine (broadcastInDim_apply _ _ _ (ix3 e k o) (ix3 e k (0 : Fin 1)) fun a => ?_).trans ?_
  · match a with
    | ⟨0, _⟩ => rfl
    | ⟨1, _⟩ => rfl
    | ⟨2, _⟩ => rfl
  · refine broadcastInDim_apply _ _ _ (ix3 e k (0 : Fin 1)) (ix2 e k) fun a => ?_
    match a with
    | ⟨0, _⟩ => rfl
    | ⟨1, _⟩ => rfl

theorem dot_apply (xj : FA S3200000x16) (g : FA S16x24) (e : Fin 3200000) (q : Fin 24) :
    Host.dotGeneral (F := Ideal) (φ₁ := .f32) (φ₂ := .f32) dot_S3200000x16_S16x24_S3200000x24_1_0_0_1_n_n none xj g (ix2 e q)
      = Cert.GMM.proj (fun d => xj (ix2 e d)) (fun a b => g (ix2 a b)) q :=
  StackMember.dotGeneral_plain_apply (m := 3200000) (n := 24) (k := 16) none xj g e q

theorem msg_apply (xj : FA S3200000x16) (ea : FA S3200000x3) (g : FA S16x24) (mu sg : FA S3x3) (e : Fin 3200000) (o : Fin 8) :
    msg xj ea g mu sg (ix2 e o)
      = Cert.GMM.edgeMsg (by decide) (fun d => xj (ix2 e d)) (fun d => ea (ix2 e d)) (fun a b => g (ix2 a b)) (fun a b => mu (ix2 a b))
          (fun a b => sg (ix2 a b)) o := by
  unfold msg Cert.GMM.edgeMsg
  rw [hostReduceAdd_apply, Ideal.hostReduceAdd_single _ red_d1, constant_apply, Ideal.ofBits_zero_f32, zero_add]
  refine Finset.sum_congr rfl fun (k : Fin 3) _ => ?_
  rw [lift_d1, mulf_apply, bcast_weight_apply, gaussW_apply]
  refine congrArg (· * _) ?_
  refine (shapeCast_apply _ _ (ix3 e k o) (ix2 e (⟨k.val * 8 + o.val, by omega⟩ : Fin 24)) ?_).trans (dot_apply xj g e _)
  rw [Shape.rowMajor_val_two, Shape.rowMajor_val_three]
  show e.val * 24 + (k.val * 8 + o.val) = (e.val * 3 + k.val) * 8 + o.val
  omega

end Cert.ReferenceIdeal.RV.L3

end
-- ==== Proof.RNode3.lean ====
import proofs.«109075_j6828998001340_1_alg».proof.Proof.RDefs3
import proofs.«109075_j6828998001340_1_alg».proof.Proof.Spec
import proofs.«109075_j6828998001340_1_alg».proof.Proof.RLib

noncomputable section

open scoped BigOperators

namespace Cert.ReferenceIdeal.RV.L3

open Cert.ReferenceIdeal Cert.ReferenceIdeal.Gen Cert.ReferenceIdeal.RV Idealize.ShloMosaic Idealize.ShloMosaic.ValueIdx

theorem mxB_apply (mxv : FA S100000) (n : Fin 100000) (o : Fin 8) :
    broadcastInDim S100000x8 ![0, 1] bcast_S100000x1_S100000x8_0_1 (broadcastInDim S100000x1 ![0] bcast_S100000_S100000x1_0 mxv) (ix2 n o)
      = mxv (ix1 n) := by
  rw [broadcastInDim_apply _ _ _ (ix2 n o) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

theorem biasB_apply (b : FA S8) (n : Fin 100000) (o : Fin 8) :
    broadcastInDim S100000x8 ![0, 1] bcast_S1x8_S100000x8_0_1 (broadcastInDim S1x8 ![1] bcast_S8_S1x8_1 b) (ix2 n o) = b (ix1 o) := by
  rw [broadcastInDim_apply _ _ _ (ix2 n o) (ix2 (0 : Fin 1) o) (fun a => by match a with | ⟨0, _⟩ => rfl | ⟨1, _⟩ => rfl),
    broadcastInDim_apply _ _ _ (ix2 (0 : Fin 1) o) (ix1 o) (fun a => by match a with | ⟨0, _⟩ => rfl)]

theorem root_apply (h : FA S100000x16) (root : FA S16x8) (n : Fin 100000) (o : Fin 8) :
    Host.dotGeneral (F := Ideal) (φ₁ := .f32) (φ₂ := .f32) dot_S100000x16_S16x8_S100000x8_1_0_0_1_n_n none h root (ix2 n o)
      = ∑ k : Fin 16, h (ix2 n k) * root (ix2 k o) :=
  StackMember.dotGeneral_plain_apply (m := 100000) (n := 8) (k := 16) none h root n o

theorem pre_apply (h : FA S100000x16) (aggv : FA S100000x8) (mxv : FA S100000) (root : FA S16x8) (b : FA S8)
    (n : Fin 100000) (o : Fin 8) :
    pre h aggv mxv root b (ix2 n o)
      = Ideal.div (aggv (ix2 n o)) (mxv (ix1 n))
        + Cert.GMM.lin (fun d => h (ix2 n d)) (fun a b' => root (ix2 a b')) o + b (ix1 o) := by
  unfold pre
  rw [addf_apply, addf_apply, hostDivf_apply, mxB_apply, biasB_apply, root_apply]
  rfl

theorem elu_apply (x : FA S100000x8) (j : S100000x8.Idx) : elu x j = Cert.GMM.elu (x j) := by
  unfold elu Cert.GMM.elu
  rw [select_apply, cmpf_apply, Ideal.cmpf_def, broadcastInDim_scalar_apply, constant_apply, Ideal.ofBits_zero_f32]
  by_cases hx : 0 < x j
  · rw [cmp_ogt_zero_of_pos hx, select_one, if_pos hx]
  · rw [cmp_ogt_zero_of_not_pos hx, select_zero, if_neg hx, mulf_apply, broadcastInDim_scalar_apply, constant_apply,
      Ideal.ofBits_one_f32, one_mul]
    show FloatOps.hostUnary .expm1 _ = _
    rw [Ideal.hostUnary_expm1_def, select_apply, cmpf_apply, Ideal.cmpf_def, broadcastInDim_scalar_apply, constant_apply,
      Ideal.ofBits_zero_f32, cmp_ogt_zero_of_not_pos hx, select_zero]

theorem node_apply (h : FA S100000x16) (aggv : FA S100000x8) (mxv : FA S100000) (root : FA S16x8) (b : FA S8)
    (n : Fin 100000) (o : Fin 8) :
    elu (pre h aggv mxv root b) (ix2 n o)
      = Cert.GMM.nodeR Cert.GMM.elu (fun d => h (ix2 n d)) (fun a b' => root (ix2 a b')) (fun o' => b (ix1 o')) (aggv (ix2 n o)) (mxv (ix1 n)) o := by
  unfold Cert.GMM.nodeR
  rw [elu_apply, pre_apply]

end Cert.ReferenceIdeal.RV.L3

end
-- ==== Proof.Bridge3.lean ====
import proofs.«109075_j6828998001340_1_alg».proof.Proof.KDefs3
import proofs.«109075_j6828998001340_1_alg».proof.Proof.RDefs3
import proofs.«109075_j6828998001340_1_alg».proof.Proof.Spec
import proofs.«109075_j6828998001340_1_alg».proof.Proof.KRead3
import proofs.«109075_j6828998001340_1_alg».proof.Proof.RMsg3
import proofs.«109075_j6828998001340_1_alg».proof.Proof.RNode3
import proofs.«109075_j6828998001340_1_alg».proof.Proof.RMx
import Idealize.ShloMosaic.Lib.ValueIdx

noncomputable section

namespace Cert.Bridge.L3

open Idealize.ShloMosaic Idealize.ShloMosaic.ValueIdx

theorem gather_eq (h : Cert.KernelIdeal.KV.FA Cert.KernelIdeal.S100000x16) (a1 : Cert.KernelIdeal.KV.IA Cert.KernelIdeal.S2x3200000) :
    Host.gather Cert.KernelIdeal.gather_S100000x16_S3200000x1_S3200000x16_1_0_n_n_0_1_116 h (Cert.KernelIdeal.KV.srcIdx a1)
      = Host.gather Cert.ReferenceIdeal.gather_S100000x16_S3200000x1_S3200000x16_1_0_n_n_0_1_116 h (Cert.ReferenceIdeal.RV.srcIdx a1) := rfl

theorem msg_eq (h : Cert.KernelIdeal.KV.FA Cert.KernelIdeal.S100000x16) (a1 : Cert.KernelIdeal.KV.IA Cert.KernelIdeal.S2x3200000)
    (ea : Cert.KernelIdeal.KV.FA Cert.KernelIdeal.S3200000x3) (g : Cert.KernelIdeal.KV.FA Cert.KernelIdeal.S16x24)
    (mu sg : Cert.KernelIdeal.KV.FA Cert.KernelIdeal.S3x3) :
    Cert.KernelIdeal.KV.L3.msg h a1 ea g mu sg
      = Cert.ReferenceIdeal.RV.L3.msg (Host.gather Cert.ReferenceIdeal.gather_S100000x16_S3200000x1_S3200000x16_1_0_n_n_0_1_116 h (Cert.ReferenceIdeal.RV.srcIdx a1)) ea g mu sg := by
  funext i
  obtain ⟨e, o, rfl⟩ : ∃ (e : Fin 3200000) (o : Fin 8), i = ix2 e o := ⟨i 0, i 1, eq_ix2 i⟩
  rw [Cert.KernelIdeal.KV.L3.msg_apply, Cert.ReferenceIdeal.RV.L3.msg_apply, gather_eq]

theorem agg_eq (h : Cert.KernelIdeal.KV.FA Cert.KernelIdeal.S100000x16) (a1 : Cert.KernelIdeal.KV.IA Cert.KernelIdeal.S2x3200000)
    (ea : Cert.KernelIdeal.KV.FA Cert.KernelIdeal.S3200000x3) (g : Cert.KernelIdeal.KV.FA Cert.KernelIdeal.S16x24)
    (mu sg : Cert.KernelIdeal.KV.FA Cert.KernelIdeal.S3x3) :
    Cert.KernelIdeal.KV.L3.agg h a1 ea g mu sg = Cert.ReferenceIdeal.RV.L3.agg h a1 ea g mu sg := by
  unfold Cert.KernelIdeal.KV.L3.agg Cert.ReferenceIdeal.RV.L3.agg
  rw [msg_eq h a1 ea g mu sg]
  rfl

theorem layer_eq (h : Cert.KernelIdeal.KV.FA Cert.KernelIdeal.S100000x16) (a1 : Cert.KernelIdeal.KV.IA Cert.KernelIdeal.S2x3200000)
    (ea : Cert.KernelIdeal.KV.FA Cert.KernelIdeal.S3200000x3) (g : Cert.KernelIdeal.KV.FA Cert.KernelIdeal.S16x24)
    (mu sg : Cert.KernelIdeal.KV.FA Cert.KernelIdeal.S3x3) (root : Cert.KernelIdeal.KV.FA Cert.KernelIdeal.S16x8)
    (b : Cert.KernelIdeal.KV.FA Cert.KernelIdeal.S8) :
    Cert.KernelIdeal.KV.L3.layer h a1 ea g mu sg root b = Cert.ReferenceIdeal.RV.L3.layer h a1 ea g mu sg root b := by
  funext i
  obtain ⟨n, o, rfl⟩ : ∃ (n : Fin 100000) (o : Fin 8), i = ix2 n o := ⟨i 0, i 1, eq_ix2 i⟩
  rw [Cert.KernelIdeal.KV.L3.layer_apply, agg_eq h a1 ea g mu sg]
  unfold Cert.ReferenceIdeal.RV.L3.layer
  rw [Cert.ReferenceIdeal.RV.L3.node_apply]
  exact Cert.GMM.nodeK_eq_nodeR _ _ _ _ _ _ (Cert.ReferenceIdeal.RV.one_le_mx a1 n) o

end Cert.Bridge.L3

end
-- ==== Proof.KRead4.lean ====
import proofs.«109075_j6828998001340_1_alg».proof.Proof.KDefs4
import proofs.«109075_j6828998001340_1_alg».proof.Proof.Spec
import proofs.«109075_j6828998001340_1_alg».proof.Proof.KLib

noncomputable section

namespace Cert.KernelIdeal.KV.L4

open Cert.KernelIdeal Cert.KernelIdeal.Gen Cert.KernelIdeal.KV Idealize.ShloMosaic Idealize.ShloMosaic.ValueIdx

theorem msg_apply (h : FA S100000x8) (a1 : IA S2x3200000) (ea : FA S3200000x3) (g : FA S8x12) (mu sg : FA S3x3)
    (e : Fin 3200000) (o : Fin 4) :
    msg h a1 ea g mu sg (ix2 e o) =
      Cert.GMM.edgeMsg (by decide)
        (fun d => (Host.gather gather_S100000x8_S3200000x1_S3200000x8_1_0_n_n_0_1_18 h (srcIdx a1)) (ix2 e d))
        (fun d => ea (ix2 e d)) (fun a b => g (ix2 a b)) (fun a b => mu (ix2 a b)) (fun a b => sg (ix2 a b)) o := by
  unfold msg
  rw [sliceRows_apply _ _ e o (by omega)]
  unfold EdgeG
  have hx : ∀ d : Fin 8, xjPad h a1 (ix2 (⟨e.val, by omega⟩ : Fin 3203072) d)
      = (Host.gather gather_S100000x8_S3200000x1_S3200000x8_1_0_n_n_0_1_18 h (srcIdx a1)) (ix2 e d) := fun d => by
    unfold xjPad
    exact padRows_apply _ _ _ _ e d _ rfl
  have ha : ∀ d : Fin 3, eaPad ea (ix2 (⟨e.val, by omega⟩ : Fin 3203072) d) = ea (ix2 e d) := fun d => by
    unfold eaPad
    exact padRows_apply _ _ _ _ e d _ rfl
  show Cert.GMM.edgeMsg (by decide) (fun d => xjPad h a1 (ix2 (⟨e.val, by omega⟩ : Fin 3203072) d))
      (fun d => eaPad ea (ix2 (⟨e.val, by omega⟩ : Fin 3203072) d)) _ _ _ o = _
  simp only [hx, ha]

theorem layer_apply (h : FA S100000x8) (a1 : IA S2x3200000) (ea : FA S3200000x3) (g : FA S8x12) (mu sg : FA S3x3)
    (root : FA S8x4) (b : FA S4) (n : Fin 100000) (o : Fin 4) :
    layer h a1 ea g mu sg root b (ix2 n o) =
      Cert.GMM.nodeK id (fun d => h (ix2 n d)) (fun a b' => root (ix2 a b')) (fun o' => b (ix1 o'))
        (agg h a1 ea g mu sg (ix2 n o)) (Ideal.div 1 (mx a1 (ix1 n))) o := by
  unfold layer
  rw [sliceRows_apply _ _ n o (by omega)]
  unfold NodeG
  have hh : ∀ d : Fin 8,
      hPad h (ix2 (⟨n.val, by omega⟩ : Fin 102400) d) = h (ix2 n d) := fun d => padRows_apply _ _ _ _ n d _ rfl
  have hb : ∀ o' : Fin 4, shapeCast S1x4 b shapeCasts_S4_S1x4 (ix2 (0 : Fin 1) o') = b (ix1 o') := fun o' =>
    shapeCast_a_1a_apply b _ 0 o'
  have hagg : aggPad (agg h a1 ea g mu sg) (ix2 (⟨n.val, by omega⟩ : Fin 102400) o) = agg h a1 ea g mu sg (ix2 n o) := padRows_apply _ _ _ _ n o _ rfl
  have hc : cPad (cinv a1) (ix2 (⟨n.val, by omega⟩ : Fin 102400) (0 : Fin 1)) = Ideal.div 1 (mx a1 (ix1 n)) :=
    (padRows_apply _ _ _ _ n (0 : Fin 1) (⟨n.val, by omega⟩ : Fin 102400) rfl).trans (cinv_apply a1 n 0)
  show Cert.GMM.nodeK id
      (fun d => hPad h (ix2 (⟨n.val, by omega⟩ : Fin 102400) d))
      _ (fun o' => shapeCast S1x4 b shapeCasts_S4_S1x4 (ix2 (0 : Fin 1) o'))
      (aggPad (agg h a1 ea g mu sg) (ix2 (⟨n.val, by omega⟩ : Fin 102400) o))
      (cPad (cinv a1) (ix2 (⟨n.val, by omega⟩ : Fin 102400) (0 : Fin 1))) o = _
  rw [hagg, hc]
  simp only [hh, hb]

end Cert.KernelIdeal.KV.L4

end
-- ==== Proof.RMsg4.lean ====
import proofs.«109075_j6828998001340_1_alg».proof.Proof.RDefs4
import proofs.«109075_j6828998001340_1_alg».proof.Proof.Spec
import proofs.«109075_j6828998001340_1_alg».proof.Proof.RLib

noncomputable section

open scoped BigOperators

namespace Cert.ReferenceIdeal.RV.L4

open Cert.ReferenceIdeal Cert.ReferenceIdeal.Gen Cert.ReferenceIdeal.RV Idealize.ShloMosaic Idealize.ShloMosaic.ValueIdx

theorem red_d1 : S3200000x3x4.Reduces [1] S3200000x4 := by decide

theorem lift_d1 (e : Fin 3200000) (o : Fin 4) (k : Fin 3) : red_d1.lift (ix2 e o) k = ix3 e k o := by
  funext a; refine Fin.ext ?_
  match a with
  | ⟨0, _⟩ => rfl
  | ⟨1, _⟩ => rfl
  | ⟨2, _⟩ => rfl

theorem bcast_weight_apply (w : FA S3200000x3) (e : Fin 3200000) (k : Fin 3) (o : Fin 4) :
    (broadcastInDim S3200000x3x4 ![0, 1, 2] bcast_S3200000x3x1_S3200000x3x4_0_1_2
      (broadcastInDim S3200000x3x1 ![0, 1] bcast_S3200000x3_S3200000x3x1_0_1 w : FA S3200000x3x1) : FA S3200000x3x4) (ix3 e k o)
      = w (ix2 e k) := by
  refine (broadcastInDim_apply _ _ _ (ix3 e k o) (ix3 e k (0 : Fin 1)) fun a => ?_).trans ?_
  · match a with
    | ⟨0, _⟩ => rfl
    | ⟨1, _⟩ => rfl
    | ⟨2, _⟩ => rfl
  · refine broadcastInDim_apply _ _ _ (ix3 e k (0 : Fin 1)) (ix2 e k) fun a => ?_
    match a with
    | ⟨0, _⟩ => rfl
    | ⟨1, _⟩ => rfl

theorem dot_apply (xj : FA S3200000x8) (g : FA S8x12) (e : Fin 3200000) (q : Fin 12) :
    Host.dotGeneral (F := Ideal) (φ₁ := .f32) (φ₂ := .f32) dot_S3200000x8_S8x12_S3200000x12_1_0_0_1_n_n none xj g (ix2 e q)
      = Cert.GMM.proj (fun d => xj (ix2 e d)) (fun a b => g (ix2 a b)) q :=
  StackMember.dotGeneral_plain_apply (m := 3200000) (n := 12) (k := 8) none xj g e q

theorem msg_apply (xj : FA S3200000x8) (ea : FA S3200000x3) (g : FA S8x12) (mu sg : FA S3x3) (e : Fin 3200000) (o : Fin 4) :
    msg xj ea g mu sg (ix2 e o)
      = Cert.GMM.edgeMsg (by decide) (fun d => xj (ix2 e d)) (fun d => ea (ix2 e d)) (fun a b => g (ix2 a b)) (fun a b => mu (ix2 a b))
          (fun a b => sg (ix2 a b)) o := by
  unfold msg Cert.GMM.edgeMsg
  rw [hostReduceAdd_apply, Ideal.hostReduceAdd_single _ red_d1, constant_apply, Ideal.ofBits_zero_f32, zero_add]
  refine Finset.sum_congr rfl fun (k : Fin 3) _ => ?_
  rw [lift_d1, mulf_apply, bcast_weight_apply, gaussW_apply]
  refine congrArg (· * _) ?_
  refine (shapeCast_apply _ _ (ix3 e k o) (ix2 e (⟨k.val * 4 + o.val, by omega⟩ : Fin 12)) ?_).trans (dot_apply xj g e _)
  rw [Shape.rowMajor_val_two, Shape.rowMajor_val_three]
  show e.val * 12 + (k.val * 4 + o.val) = (e.val * 3 + k.val) * 4 + o.val
  omega

end Cert.ReferenceIdeal.RV.L4

end
-- ==== Proof.RNode4.lean ====
import proofs.«109075_j6828998001340_1_alg».proof.Proof.RDefs4
import proofs.«109075_j6828998001340_1_alg».proof.Proof.Spec
import proofs.«109075_j6828998001340_1_alg».proof.Proof.RLib

noncomputable section

open scoped BigOperators

namespace Cert.ReferenceIdeal.RV.L4

open Cert.ReferenceIdeal Cert.ReferenceIdeal.Gen Cert.ReferenceIdeal.RV Idealize.ShloMosaic Idealize.ShloMosaic.ValueIdx

theorem mxB_apply (mxv : FA S100000) (n : Fin 100000) (o : Fin 4) :
    broadcastInDim S100000x4 ![0, 1] bcast_S100000x1_S100000x4_0_1 (broadcastInDim S100000x1 ![0] bcast_S100000_S100000x1_0 mxv) (ix2 n o)
      = mxv (ix1 n) := by
  rw [broadcastInDim_apply _ _ _ (ix2 n o) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

theorem biasB_apply (b : FA S4) (n : Fin 100000) (o : Fin 4) :
    broadcastInDim S100000x4 ![0, 1] bcast_S1x4_S100000x4_0_1 (broadcastInDim S1x4 ![1] bcast_S4_S1x4_1 b) (ix2 n o) = b (ix1 o) := by
  rw [broadcastInDim_apply _ _ _ (ix2 n o) (ix2 (0 : Fin 1) o) (fun a => by match a with | ⟨0, _⟩ => rfl | ⟨1, _⟩ => rfl),
    broadcastInDim_apply _ _ _ (ix2 (0 : Fin 1) o) (ix1 o) (fun a => by match a with | ⟨0, _⟩ => rfl)]

theorem root_apply (h : FA S100000x8) (root : FA S8x4) (n : Fin 100000) (o : Fin 4) :
    Host.dotGeneral (F := Ideal) (φ₁ := .f32) (φ₂ := .f32) dot_S100000x8_S8x4_S100000x4_1_0_0_1_n_n none h root (ix2 n o)
      = ∑ k : Fin 8, h (ix2 n k) * root (ix2 k o) :=
  StackMember.dotGeneral_plain_apply (m := 100000) (n := 4) (k := 8) none h root n o

theorem pre_apply (h : FA S100000x8) (aggv : FA S100000x4) (mxv : FA S100000) (root : FA S8x4) (b : FA S4)
    (n : Fin 100000) (o : Fin 4) :
    pre h aggv mxv root b (ix2 n o)
      = Ideal.div (aggv (ix2 n o)) (mxv (ix1 n))
        + Cert.GMM.lin (fun d => h (ix2 n d)) (fun a b' => root (ix2 a b')) o + b (ix1 o) := by
  unfold pre
  rw [addf_apply, addf_apply, hostDivf_apply, mxB_apply, biasB_apply, root_apply]
  rfl

theorem node_apply (h : FA S100000x8) (aggv : FA S100000x4) (mxv : FA S100000) (root : FA S8x4) (b : FA S4)
    (n : Fin 100000) (o : Fin 4) :
    pre h aggv mxv root b (ix2 n o)
      = Cert.GMM.nodeR id (fun d => h (ix2 n d)) (fun a b' => root (ix2 a b')) (fun o' => b (ix1 o')) (aggv (ix2 n o)) (mxv (ix1 n)) o := by
  unfold Cert.GMM.nodeR
  exact pre_apply h aggv mxv root b n o

end Cert.ReferenceIdeal.RV.L4

end
-- ==== Proof.Bridge4.lean ====
import proofs.«109075_j6828998001340_1_alg».proof.Proof.KDefs4
import proofs.«109075_j6828998001340_1_alg».proof.Proof.RDefs4
import proofs.«109075_j6828998001340_1_alg».proof.Proof.Spec
import proofs.«109075_j6828998001340_1_alg».proof.Proof.KRead4
import proofs.«109075_j6828998001340_1_alg».proof.Proof.RMsg4
import proofs.«109075_j6828998001340_1_alg».proof.Proof.RNode4
import proofs.«109075_j6828998001340_1_alg».proof.Proof.RMx
import Idealize.ShloMosaic.Lib.ValueIdx

noncomputable section

namespace Cert.Bridge.L4

open Idealize.ShloMosaic Idealize.ShloMosaic.ValueIdx

theorem gather_eq (h : Cert.KernelIdeal.KV.FA Cert.KernelIdeal.S100000x8) (a1 : Cert.KernelIdeal.KV.IA Cert.KernelIdeal.S2x3200000) :
    Host.gather Cert.KernelIdeal.gather_S100000x8_S3200000x1_S3200000x8_1_0_n_n_0_1_18 h (Cert.KernelIdeal.KV.srcIdx a1)
      = Host.gather Cert.ReferenceIdeal.gather_S100000x8_S3200000x1_S3200000x8_1_0_n_n_0_1_18 h (Cert.ReferenceIdeal.RV.srcIdx a1) := rfl

theorem msg_eq (h : Cert.KernelIdeal.KV.FA Cert.KernelIdeal.S100000x8) (a1 : Cert.KernelIdeal.KV.IA Cert.KernelIdeal.S2x3200000)
    (ea : Cert.KernelIdeal.KV.FA Cert.KernelIdeal.S3200000x3) (g : Cert.KernelIdeal.KV.FA Cert.KernelIdeal.S8x12)
    (mu sg : Cert.KernelIdeal.KV.FA Cert.KernelIdeal.S3x3) :
    Cert.KernelIdeal.KV.L4.msg h a1 ea g mu sg
      = Cert.ReferenceIdeal.RV.L4.msg (Host.gather Cert.ReferenceIdeal.gather_S100000x8_S3200000x1_S3200000x8_1_0_n_n_0_1_18 h (Cert.ReferenceIdeal.RV.srcIdx a1)) ea g mu sg := by
  funext i
  obtain ⟨e, o, rfl⟩ : ∃ (e : Fin 3200000) (o : Fin 4), i = ix2 e o := ⟨i 0, i 1, eq_ix2 i⟩
  rw [Cert.KernelIdeal.KV.L4.msg_apply, Cert.ReferenceIdeal.RV.L4.msg_apply, gather_eq]

theorem agg_eq (h : Cert.KernelIdeal.KV.FA Cert.KernelIdeal.S100000x8) (a1 : Cert.KernelIdeal.KV.IA Cert.KernelIdeal.S2x3200000)
    (ea : Cert.KernelIdeal.KV.FA Cert.KernelIdeal.S3200000x3) (g : Cert.KernelIdeal.KV.FA Cert.KernelIdeal.S8x12)
    (mu sg : Cert.KernelIdeal.KV.FA Cert.KernelIdeal.S3x3) :
    Cert.KernelIdeal.KV.L4.agg h a1 ea g mu sg = Cert.ReferenceIdeal.RV.L4.agg h a1 ea g mu sg := by
  unfold Cert.KernelIdeal.KV.L4.agg Cert.ReferenceIdeal.RV.L4.agg
  rw [msg_eq h a1 ea g mu sg]
  rfl

theorem layer_eq (h : Cert.KernelIdeal.KV.FA Cert.KernelIdeal.S100000x8) (a1 : Cert.KernelIdeal.KV.IA Cert.KernelIdeal.S2x3200000)
    (ea : Cert.KernelIdeal.KV.FA Cert.KernelIdeal.S3200000x3) (g : Cert.KernelIdeal.KV.FA Cert.KernelIdeal.S8x12)
    (mu sg : Cert.KernelIdeal.KV.FA Cert.KernelIdeal.S3x3) (root : Cert.KernelIdeal.KV.FA Cert.KernelIdeal.S8x4)
    (b : Cert.KernelIdeal.KV.FA Cert.KernelIdeal.S4) :
    Cert.KernelIdeal.KV.L4.layer h a1 ea g mu sg root b = Cert.ReferenceIdeal.RV.L4.layer h a1 ea g mu sg root b := by
  funext i
  obtain ⟨n, o, rfl⟩ : ∃ (n : Fin 100000) (o : Fin 4), i = ix2 n o := ⟨i 0, i 1, eq_ix2 i⟩
  rw [Cert.KernelIdeal.KV.L4.layer_apply, agg_eq h a1 ea g mu sg]
  unfold Cert.ReferenceIdeal.RV.L4.layer
  rw [Cert.ReferenceIdeal.RV.L4.node_apply]
  exact Cert.GMM.nodeK_eq_nodeR _ _ _ _ _ _ (Cert.ReferenceIdeal.RV.one_le_mx a1 n) o

end Cert.Bridge.L4

end
-- ==== Proof.Claims.lean ====
import proofs.«109075_j6828998001340_1_alg».proof.Defs
import proofs.«109075_j6828998001340_1_alg».proof.Proof.Gen.Kernel.Frame
import proofs.«109075_j6828998001340_1_alg».proof.Proof.Gen.KernelIdeal.Frame
import proofs.«109075_j6828998001340_1_alg».proof.Proof.Gen.Pre_finite_inputs
import proofs.«109075_j6828998001340_1_alg».proof.Proof.KRun
import proofs.«109075_j6828998001340_1_alg».proof.Proof.KFold
import proofs.«109075_j6828998001340_1_alg».proof.Proof.RRun
import proofs.«109075_j6828998001340_1_alg».proof.Proof.Bridge1
import proofs.«109075_j6828998001340_1_alg».proof.Proof.Bridge2
import proofs.«109075_j6828998001340_1_alg».proof.Proof.Bridge3
import proofs.«109075_j6828998001340_1_alg».proof.Proof.Bridge4

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RV.run m ρ)

theorem preserves : Cert.preserves_Kernel_KernelIdeal := trivial

theorem algebraic : Cert.algebraic_KernelIdeal_ReferenceIdeal := by
  intro m ρ m' ρ' _ hagree
  refine ⟨Cert.KernelIdeal.KV.kres m, ?_, ?_⟩
  · exact (θ_run (Cert.KernelIdeal.defs (F := Ideal)) _ _).mono
      (fun r h c => ⟨(h c).1.trans (Cert.KernelIdeal.KV.fold_out m ρ c), (h c).2⟩) (Cert.KernelIdeal.KRun.run_out (F := Ideal) m ρ)
  · refine (θ_run (Cert.ReferenceIdeal.defs (F := Ideal)) _ _).mono (fun r h c => ⟨(h c).1.trans ?_, (h c).2⟩)
      (Cert.ReferenceIdeal.RV.run m' ρ')
    obtain ⟨h0, h1, h2, h3, h4, h5, h6, h7, h8, h9, h10, h11, h12, h13, h14, h15, h16, h17, h18, h19, h20, h21, h22⟩ := hagree c
    rw [h0, h1, h2, h3, h4, h5, h6, h7, h8, h9, h10, h11, h12, h13, h14, h15, h16, h17, h18, h19, h20, h21, h22]
    unfold Cert.KernelIdeal.KV.kres
    rw [Cert.Bridge.L1.layer_eq, Cert.Bridge.L2.layer_eq, Cert.Bridge.L3.layer_eq, Cert.Bridge.L4.layer_eq]

end Cert.Proof.Claims

end
-- ==== Proof.lean ====
import proofs.«109075_j6828998001340_1_alg».proof.Defs
import proofs.«109075_j6828998001340_1_alg».proof.Proof.Gen.Kernel
import proofs.«109075_j6828998001340_1_alg».proof.Proof.Gen.KernelIdeal
import proofs.«109075_j6828998001340_1_alg».proof.Proof.Gen.ReferenceIdeal
import proofs.«109075_j6828998001340_1_alg».proof.Proof.Gen.Pre_finite_inputs
import proofs.«109075_j6828998001340_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
